-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_320" .f32 0x3B4CCCCD#32 ((1 / 320 : ℝ) : EReal)
  ∧ IdealRules.named_const.Statement Cert.KernelIdeal.κ "inv_384" .f32 0x3B2AAAAB#32 ((1 / 384 : ℝ) : EReal)
  ∧ IdealRules.named_const.Statement Cert.KernelIdeal.κ "inv_384" .f32 0x3B2AAAAB#32 ((1 / 384 : ℝ) : EReal)
  ∧ IdealRules.named_const.Statement Cert.KernelIdeal.κ "inv_320" .f32 0x3B4CCCCD#32 ((1 / 320 : ℝ) : EReal)
  ∧ IdealRules.named_const.Statement Cert.KernelIdeal.κ "inv_384" .f32 0x3B2AAAAB#32 ((1 / 384 : ℝ) : EReal)
  ∧ IdealRules.named_const.Statement Cert.KernelIdeal.κ "inv_384" .f32 0x3B2AAAAB#32 ((1 / 384 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v570) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x50 : Shape := ⟨4, ![64, 256, 64, 50]⟩
abbrev S10x16x256 : Shape := ⟨3, ![10, 16, 256]⟩
abbrev S10x16 : Shape := ⟨2, ![10, 16]⟩
abbrev S10x256x16 : Shape := ⟨3, ![10, 256, 16]⟩
abbrev S10x256 : Shape := ⟨2, ![10, 256]⟩
abbrev S_ : Shape := ⟨0, ![]⟩

class Facts : Prop where
  bcast_S_S64x256x64x50 : S_.BroadcastsInDim S64x256x64x50 (![] : Fin 0 → Fin S64x256x64x50.rank)
  reducesTo_S64x256x64x50_S_d0_1_2_3 : S64x256x64x50.ReducesTo [0, 1, 2, 3] S_
  h_S_ : 0 < S_.numel
  bcast_S_S10x16x256 : S_.BroadcastsInDim S10x16x256 (![] : Fin 0 → Fin S10x16x256.rank)
  reducesTo_S10x16x256_S_d0_1_2 : S10x16x256.ReducesTo [0, 1, 2] S_
  bcast_S_S10x16 : S_.BroadcastsInDim S10x16 (![] : Fin 0 → Fin S10x16.rank)
  reducesTo_S10x16_S_d0_1 : S10x16.ReducesTo [0, 1] S_
  bcast_S_S10x256x16 : S_.BroadcastsInDim S10x256x16 (![] : Fin 0 → Fin S10x256x16.rank)
  reducesTo_S10x256x16_S_d0_1_2 : S10x256x16.ReducesTo [0, 1, 2] S_
  bcast_S_S10x256 : S_.BroadcastsInDim S10x256 (![] : Fin 0 → Fin S10x256.rank)
  reducesTo_S10x256_S_d0_1 : S10x256.ReducesTo [0, 1] S_

variable [Facts]

def fn_part1 {F : FTy → Type} [FloatOps F] (main_arg4 : FVec F S10x256 .f32) (main_v13 : IVec S_ 1) (main_v16 : IVec S10x256x16 1) : IVec S_ 1 :=
  let main_c_5 : IVec S_ 1 := constantI S_ 1 1#1
  let main_v17 : IVec S_ 1 := (fun x v => Host.reduce IntOp.andi x v reducesTo_S10x256x16_S_d0_1_2 h_S_) main_v16 main_c_5
  let main_v18 : IVec S_ 1 := andi main_v13 main_v17
  let main_v19 : FVec F S10x256 .f32 := Host.absf main_arg4
  let main_cst_6 : FVec F S_ .f32 := constant S_ .f32 0x7F800000#32
  let main_v20 : FVec F S10x256 .f32 := broadcastInDim S10x256 ![] bcast_S_S10x256 main_cst_6
  let main_v21 : IVec S10x256 1 := cmpf .olt main_v19 main_v20
  let main_c_7 : IVec S_ 1 := constantI S_ 1 1#1
  let main_v22 : IVec S_ 1 := (fun x v => Host.reduce IntOp.andi x v reducesTo_S10x256_S_d0_1 h_S_) main_v21 main_c_7
  let main_v23 : IVec S_ 1 := andi main_v18 main_v22
  main_v23

def fn {F : FTy → Type} [FloatOps F] (main_arg0 : FVec F S64x256x64x50 .f32) (main_arg1 : FVec F S10x16x256 .f32) (main_arg2 : FVec F S10x16 .f32) (main_arg3 : FVec F S10x256x16 .f32) (main_arg4 : FVec F S10x256 .f32) : IVec S_ 1 :=
  let main_v0 : FVec F S64x256x64x50 .f32 := Host.absf main_arg0
  let main_cst : FVec F S_ .f32 := constant S_ .f32 0x7F800000#32
  let main_v1 : FVec F S64x256x64x50 .f32 := broadcastInDim S64x256x64x50 ![] bcast_S_S64x256x64x50 main_cst
  let main_v2 : IVec S64x256x64x50 1 := cmpf .olt main_v0 main_v1
  let main_c : IVec S_ 1 := constantI S_ 1 1#1
  let main_v3 : IVec S_ 1 := (fun x v => Host.reduce IntOp.andi x v reducesTo_S64x256x64x50_S_d0_1_2_3 h_S_) main_v2 main_c
  let main_v4 : FVec F S10x16x256 .f32 := Host.absf main_arg1
  let main_cst_0 : FVec F S_ .f32 := constant S_ .f32 0x7F800000#32
  let main_v5 : FVec F S10x16x256 .f32 := broadcastInDim S10x16x256 ![] bcast_S_S10x16x256 main_cst_0
  let main_v6 : IVec S10x16x256 1 := cmpf .olt main_v4 main_v5
  let main_c_1 : IVec S_ 1 := constantI S_ 1 1#1
  let main_v7 : IVec S_ 1 := (fun x v => Host.reduce IntOp.andi x v reducesTo_S10x16x256_S_d0_1_2 h_S_) main_v6 main_c_1
  let main_v8 : IVec S_ 1 := andi main_v3 main_v7
  let main_v9 : FVec F S10x16 .f32 := Host.absf main_arg2
  let main_cst_2 : FVec F S_ .f32 := constant S_ .f32 0x7F800000#32
  let main_v10 : FVec F S10x16 .f32 := broadcastInDim S10x16 ![] bcast_S_S10x16 main_cst_2
  let main_v11 : IVec S10x16 1 := cmpf .olt main_v9 main_v10
  let main_c_3 : IVec S_ 1 := constantI S_ 1 1#1
  let main_v12 : IVec S_ 1 := (fun x v => Host.reduce IntOp.andi x v reducesTo_S10x16_S_d0_1 h_S_) main_v11 main_c_3
  let main_v13 : IVec S_ 1 := andi main_v8 main_v12
  let main_v14 : FVec F S10x256x16 .f32 := Host.absf main_arg3
  let main_cst_4 : FVec F S_ .f32 := constant S_ .f32 0x7F800000#32
  let main_v15 : FVec F S10x256x16 .f32 := broadcastInDim S10x256x16 ![] bcast_S_S10x256x16 main_cst_4
  let main_v16 : IVec S10x256x16 1 := cmpf .olt main_v14 main_v15
  fn_part1 (F := F) main_arg4 main_v13 main_v16
-- ==== Kernel.lean ====
abbrev S64x256x64x50 : Shape := ⟨4, ![64, 256, 64, 50]⟩
abbrev S10x16x256 : Shape := ⟨3, ![10, 16, 256]⟩
abbrev S10x16 : Shape := ⟨2, ![10, 16]⟩
abbrev S10x256x16 : Shape := ⟨3, ![10, 256, 16]⟩
abbrev S10x256 : Shape := ⟨2, ![10, 256]⟩
abbrev S2x256x64x50 : Shape := ⟨4, ![2, 256, 64, 50]⟩
abbrev S2x256x64x1 : Shape := ⟨4, ![2, 256, 64, 1]⟩
abbrev S2x256x64x5 : Shape := ⟨4, ![2, 256, 64, 5]⟩
abbrev S2x256x5 : Shape := ⟨3, ![2, 256, 5]⟩
abbrev S2x256 : Shape := ⟨2, ![2, 256]⟩
abbrev S1x16x256 : Shape := ⟨3, ![1, 16, 256]⟩
abbrev S16x256 : Shape := ⟨2, ![16, 256]⟩
abbrev S1x16 : Shape := ⟨2, ![1, 16]⟩
abbrev S16 : Shape := ⟨1, ![16]⟩
abbrev S1x256x16 : Shape := ⟨3, ![1, 256, 16]⟩
abbrev S256x16 : Shape := ⟨2, ![256, 16]⟩
abbrev S1x256 : Shape := ⟨2, ![1, 256]⟩
abbrev S256 : Shape := ⟨1, ![256]⟩
abbrev S2x16 : Shape := ⟨2, ![2, 16]⟩
abbrev S2x256x1x1 : Shape := ⟨4, ![2, 256, 1, 1]⟩
abbrev S2x256x64x6 : Shape := ⟨4, ![2, 256, 64, 6]⟩
abbrev S2x256x6 : Shape := ⟨3, ![2, 256, 6]⟩
abbrev S2x256x64x4 : Shape := ⟨4, ![2, 256, 64, 4]⟩
abbrev S2x256x4 : Shape := ⟨3, ![2, 256, 4]⟩

abbrev nBuf : Space → Nat
  | .hbm => 6
  | .vmem => 8
  | .smem => 0
  | _ => 0

abbrev bufTy : (tb : Table) → Fin (tcTables nBuf tb) → BufTy
  | .hbm, ⟨0, _⟩ => ⟨S64x256x64x50, .f32⟩
  | .hbm, ⟨1, _⟩ => ⟨S10x16x256, .f32⟩
  | .hbm, ⟨2, _⟩ => ⟨S10x16, .f32⟩
  | .hbm, ⟨3, _⟩ => ⟨S10x256x16, .f32⟩
  | .hbm, ⟨4, _⟩ => ⟨S10x256, .f32⟩
  | .hbm, ⟨5, _⟩ => ⟨S64x256x64x50, .f32⟩
  | .local _ .vmem, ⟨0, _⟩ => ⟨S2x256x64x50, .f32⟩
  | .local _ .vmem, ⟨1, _⟩ => ⟨S2x256x64x50, .f32⟩
  | .local _ .vmem, ⟨2, _⟩ => ⟨S10x16x256, .f32⟩
  | .local _ .vmem, ⟨3, _⟩ => ⟨S10x16, .f32⟩
  | .local _ .vmem, ⟨4, _⟩ => ⟨S10x256x16, .f32⟩
  | .local _ .vmem, ⟨5, _⟩ => ⟨S10x256, .f32⟩
  | .local _ .vmem, ⟨6, _⟩ => ⟨S2x256x64x50, .f32⟩
  | .local _ .vmem, ⟨7, _⟩ => ⟨S2x256x64x50, .f32⟩
  | _, _ => ⟨S64x256x64x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x64x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x64x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2x256x64x50_S2x256x64x1_0_0_0_0 : ∀ a, (![0, 0, 0, 0] : Fin 4 → Nat) a + S2x256x64x1.size a ≤ S2x256x64x50.size a
  h_S2x256x64x1 : 0 < S2x256x64x1.numel
  inb_S2x256x64x50_S2x256x64x1_0_0_0_1 : ∀ a, (![0, 0, 0, 1] : Fin 4 → Nat) a + S2x256x64x1.size a ≤ S2x256x64x50.size a
  inb_S2x256x64x50_S2x256x64x1_0_0_0_2 : ∀ a, (![0, 0, 0, 2] : Fin 4 → Nat) a + S2x256x64x1.size a ≤ S2x256x64x50.size a
  inb_S2x256x64x50_S2x256x64x1_0_0_0_3 : ∀ a, (![0, 0, 0, 3] : Fin 4 → Nat) a + S2x256x64x1.size a ≤ S2x256x64x50.size a
  inb_S2x256x64x50_S2x256x64x1_0_0_0_20 : ∀ a, (![0, 0, 0, 20] : Fin 4 → Nat) a + S2x256x64x1.size a ≤ S2x256x64x50.size a
  concatenates_S2x256x64x1_S2x256x64x1_S2x256x64x1_S2x256x64x1_S2x256x64x1_S2x256x64x5_d3 : Shape.Concatenates [S2x256x64x1, S2x256x64x1, S2x256x64x1, S2x256x64x1, S2x256x64x1] S2x256x64x5 3
  reduces_S2x256x64x5_S2x256x5 : S2x256x64x5.Reduces [2] S2x256x5
  reduces_S2x256x5_S2x256 : S2x256x5.Reduces [2] S2x256
  inb_S10x16x256_S1x16x256_0_0_0 : ∀ a, (![0, 0, 0] : Fin 3 → Nat) a + S1x16x256.size a ≤ S10x16x256.size a
  h_S1x16x256 : 0 < S1x16x256.numel
  shapeCasts_S1x16x256_S16x256 : S1x16x256.ShapeCasts S16x256
  inb_S10x16_S1x16_0_0 : ∀ a, (![0, 0] : Fin 2 → Nat) a + S1x16.size a ≤ S10x16.size a
  h_S1x16 : 0 < S1x16.numel
  shapeCasts_S1x16_S16 : S1x16.ShapeCasts S16
  inb_S10x256x16_S1x256x16_0_0_0 : ∀ a, (![0, 0, 0] : Fin 3 → Nat) a + S1x256x16.size a ≤ S10x256x16.size a
  h_S1x256x16 : 0 < S1x256x16.numel
  shapeCasts_S1x256x16_S256x16 : S1x256x16.ShapeCasts S256x16
  inb_S10x256_S1x256_0_0 : ∀ a, (![0, 0] : Fin 2 → Nat) a + S1x256.size a ≤ S10x256.size a
  h_S1x256 : 0 < S1x256.numel
  shapeCasts_S1x256_S256 : S1x256.ShapeCasts S256
  transposes_S16x256_p1_0_S256x16 : S16x256.Transposes [1, 0] S256x16
  shapeCasts_S16_S1x16 : S16.ShapeCasts S1x16
  broadcasts_S1x16_S2x16 : S1x16.Broadcasts S2x16
  transposes_S256x16_p1_0_S16x256 : S256x16.Transposes [1, 0] S16x256
  shapeCasts_S256_S1x256 : S256.ShapeCasts S1x256
  broadcasts_S1x256_S2x256 : S1x256.Broadcasts S2x256
  shapeCasts_S2x256_S2x256x1x1 : S2x256.ShapeCasts S2x256x1x1
  broadcasts_S2x256x1x1_S2x256x64x5 : S2x256x1x1.Broadcasts S2x256x64x5
  inb_S2x256x64x50_S2x256x64x5_0_0_0_0 : ∀ a, (![0, 0, 0, 0] : Fin 4 → Nat) a + S2x256x64x5.size a ≤ S2x256x64x50.size a
  h_S2x256x64x5 : 0 < S2x256x64x5.numel
  inb_S2x256x64x50_S2x256x64x1_0_0_0_8 : ∀ a, (![0, 0, 0, 8] : Fin 4 → Nat) a + S2x256x64x1.size a ≤ S2x256x64x50.size a
  inb_S2x256x64x50_S2x256x64x1_0_0_0_9 : ∀ a, (![0, 0, 0, 9] : Fin 4 → Nat) a + S2x256x64x1.size a ≤ S2x256x64x50.size a
  inb_S2x256x64x50_S2x256x64x1_0_0_0_10 : ∀ a, (![0, 0, 0, 10] : Fin 4 → Nat) a + S2x256x64x1.size a ≤ S2x256x64x50.size a
  inb_S2x256x64x50_S2x256x64x1_0_0_0_11 : ∀ a, (![0, 0, 0, 11] : Fin 4 → Nat) a + S2x256x64x1.size a ≤ S2x256x64x50.size a
  inb_S2x256x64x50_S2x256x64x1_0_0_0_23 : ∀ a, (![0, 0, 0, 23] : Fin 4 → Nat) a + S2x256x64x1.size a ≤ S2x256x64x50.size a
  inb_S2x256x64x50_S2x256x64x1_0_0_0_24 : ∀ a, (![0, 0, 0, 24] : Fin 4 → Nat) a + S2x256x64x1.size a ≤ S2x256x64x50.size a
  concatenates_S2x256x64x1_S2x256x64x1_S2x256x64x1_S2x256x64x1_S2x256x64x1_S2x256x64x1_S2x256x64x6_d3 : Shape.Concatenates [S2x256x64x1, S2x256x64x1, S2x256x64x1, S2x256x64x1, S2x256x64x1, S2x256x64x1] S2x256x64x6 3
  reduces_S2x256x64x6_S2x256x6 : S2x256x64x6.Reduces [2] S2x256x6
  reduces_S2x256x6_S2x256 : S2x256x6.Reduces [2] S2x256
  inb_S10x16x256_S1x16x256_1_0_0 : ∀ a, (![1, 0, 0] : Fin 3 → Nat) a + S1x16x256.size a ≤ S10x16x256.size a
  inb_S10x16_S1x16_1_0 : ∀ a, (![1, 0] : Fin 2 → Nat) a + S1x16.size a ≤ S10x16.size a
  inb_S10x256x16_S1x256x16_1_0_0 : ∀ a, (![1, 0, 0] : Fin 3 → Nat) a + S1x256x16.size a ≤ S10x256x16.size a
  inb_S10x256_S1x256_1_0 : ∀ a, (![1, 0] : Fin 2 → Nat) a + S1x256.size a ≤ S10x256.size a
  broadcasts_S2x256x1x1_S2x256x64x6 : S2x256x1x1.Broadcasts S2x256x64x6
  inb_S2x256x64x50_S2x256x64x6_0_0_0_5 : ∀ a, (![0, 0, 0, 5] : Fin 4 → Nat) a + S2x256x64x6.size a ≤ S2x256x64x50.size a
  h_S2x256x64x6 : 0 < S2x256x64x6.numel
  inb_S2x256x64x50_S2x256x64x1_0_0_0_16 : ∀ a, (![0, 0, 0, 16] : Fin 4 → Nat) a + S2x256x64x1.size a ≤ S2x256x64x50.size a
  inb_S2x256x64x50_S2x256x64x1_0_0_0_17 : ∀ a, (![0, 0, 0, 17] : Fin 4 → Nat) a + S2x256x64x1.size a ≤ S2x256x64x50.size a
  inb_S2x256x64x50_S2x256x64x1_0_0_0_18 : ∀ a, (![0, 0, 0, 18] : Fin 4 → Nat) a + S2x256x64x1.size a ≤ S2x256x64x50.size a
  inb_S2x256x64x50_S2x256x64x1_0_0_0_19 : ∀ a, (![0, 0, 0, 19] : Fin 4 → Nat) a + S2x256x64x1.size a ≤ S2x256x64x50.size a
  concatenates_S2x256x64x1_S2x256x64x1_S2x256x64x1_S2x256x64x1_S2x256x64x4_d3 : Shape.Concatenates [S2x256x64x1, S2x256x64x1, S2x256x64x1, S2x256x64x1] S2x256x64x4 3
  reduces_S2x256x64x4_S2x256x4 : S2x256x64x4.Reduces [2] S2x256x4
  reduces_S2x256x4_S2x256 : S2x256x4.Reduces [2] S2x256
  inb_S10x16x256_S1x16x256_2_0_0 : ∀ a, (![2, 0, 0] : Fin 3 → Nat) a + S1x16x256.size a ≤ S10x16x256.size a
  inb_S10x16_S1x16_2_0 : ∀ a, (![2, 0] : Fin 2 → Nat) a + S1x16.size a ≤ S10x16.size a
  inb_S10x256x16_S1x256x16_2_0_0 : ∀ a, (![2, 0, 0] : Fin 3 → Nat) a + S1x256x16.size a ≤ S10x256x16.size a
  inb_S10x256_S1x256_2_0 : ∀ a, (![2, 0] : Fin 2 → Nat) a + S1x256.size a ≤ S10x256.size a
  broadcasts_S2x256x1x1_S2x256x64x4 : S2x256x1x1.Broadcasts S2x256x64x4
  inb_S2x256x64x50_S2x256x64x4_0_0_0_11 : ∀ a, (![0, 0, 0, 11] : Fin 4 → Nat) a + S2x256x64x4.size a ≤ S2x256x64x50.size a
  h_S2x256x64x4 : 0 < S2x256x64x4.numel
  inb_S2x256x64x50_S2x256x64x1_0_0_0_4 : ∀ a, (![0, 0, 0, 4] : Fin 4 → Nat) a + S2x256x64x1.size a ≤ S2x256x64x50.size a
  inb_S2x256x64x50_S2x256x64x1_0_0_0_5 : ∀ a, (![0, 0, 0, 5] : Fin 4 → Nat) a + S2x256x64x1.size a ≤ S2x256x64x50.size a
  inb_S2x256x64x50_S2x256x64x1_0_0_0_6 : ∀ a, (![0, 0, 0, 6] : Fin 4 → Nat) a + S2x256x64x1.size a ≤ S2x256x64x50.size a
  inb_S2x256x64x50_S2x256x64x1_0_0_0_7 : ∀ a, (![0, 0, 0, 7] : Fin 4 → Nat) a + S2x256x64x1.size a ≤ S2x256x64x50.size a
  inb_S2x256x64x50_S2x256x64x1_0_0_0_21 : ∀ a, (![0, 0, 0, 21] : Fin 4 → Nat) a + S2x256x64x1.size a ≤ S2x256x64x50.size a
  inb_S2x256x64x50_S2x256x64x1_0_0_0_22 : ∀ a, (![0, 0, 0, 22] : Fin 4 → Nat) a + S2x256x64x1.size a ≤ S2x256x64x50.size a
  inb_S10x16x256_S1x16x256_3_0_0 : ∀ a, (![3, 0, 0] : Fin 3 → Nat) a + S1x16x256.size a ≤ S10x16x256.size a
  inb_S10x16_S1x16_3_0 : ∀ a, (![3, 0] : Fin 2 → Nat) a + S1x16.size a ≤ S10x16.size a
  inb_S10x256x16_S1x256x16_3_0_0 : ∀ a, (![3, 0, 0] : Fin 3 → Nat) a + S1x256x16.size a ≤ S10x256x16.size a
  inb_S10x256_S1x256_3_0 : ∀ a, (![3, 0] : Fin 2 → Nat) a + S1x256.size a ≤ S10x256.size a
  inb_S2x256x64x50_S2x256x64x6_0_0_0_15 : ∀ a, (![0, 0, 0, 15] : Fin 4 → Nat) a + S2x256x64x6.size a ≤ S2x256x64x50.size a
  inb_S2x256x64x50_S2x256x64x1_0_0_0_12 : ∀ a, (![0, 0, 0, 12] : Fin 4 → Nat) a + S2x256x64x1.size a ≤ S2x256x64x50.size a
  inb_S2x256x64x50_S2x256x64x1_0_0_0_13 : ∀ a, (![0, 0, 0, 13] : Fin 4 → Nat) a + S2x256x64x1.size a ≤ S2x256x64x50.size a
  inb_S2x256x64x50_S2x256x64x1_0_0_0_14 : ∀ a, (![0, 0, 0, 14] : Fin 4 → Nat) a + S2x256x64x1.size a ≤ S2x256x64x50.size a
  inb_S2x256x64x50_S2x256x64x1_0_0_0_15 : ∀ a, (![0, 0, 0, 15] : Fin 4 → Nat) a + S2x256x64x1.size a ≤ S2x256x64x50.size a
  inb_S10x16x256_S1x16x256_4_0_0 : ∀ a, (![4, 0, 0] : Fin 3 → Nat) a + S1x16x256.size a ≤ S10x16x256.size a
  inb_S10x16_S1x16_4_0 : ∀ a, (![4, 0] : Fin 2 → Nat) a + S1x16.size a ≤ S10x16.size a
  inb_S10x256x16_S1x256x16_4_0_0 : ∀ a, (![4, 0, 0] : Fin 3 → Nat) a + S1x256x16.size a ≤ S10x256x16.size a
  inb_S10x256_S1x256_4_0 : ∀ a, (![4, 0] : Fin 2 → Nat) a + S1x256.size a ≤ S10x256.size a
  inb_S2x256x64x50_S2x256x64x4_0_0_0_21 : ∀ a, (![0, 0, 0, 21] : Fin 4 → Nat) a + S2x256x64x4.size a ≤ S2x256x64x50.size a
  inb_S2x256x64x50_S2x256x64x1_0_0_0_25 : ∀ a, (![0, 0, 0, 25] : Fin 4 → Nat) a + S2x256x64x1.size a ≤ S2x256x64x50.size a
  inb_S2x256x64x50_S2x256x64x1_0_0_0_26 : ∀ a, (![0, 0, 0, 26] : Fin 4 → Nat) a + S2x256x64x1.size a ≤ S2x256x64x50.size a
  inb_S2x256x64x50_S2x256x64x1_0_0_0_27 : ∀ a, (![0, 0, 0, 27] : Fin 4 → Nat) a + S2x256x64x1.size a ≤ S2x256x64x50.size a
  inb_S2x256x64x50_S2x256x64x1_0_0_0_28 : ∀ a, (![0, 0, 0, 28] : Fin 4 → Nat) a + S2x256x64x1.size a ≤ S2x256x64x50.size a
  inb_S2x256x64x50_S2x256x64x1_0_0_0_45 : ∀ a, (![0, 0, 0, 45] : Fin 4 → Nat) a + S2x256x64x1.size a ≤ S2x256x64x50.size a
  inb_S10x16x256_S1x16x256_5_0_0 : ∀ a, (![5, 0, 0] : Fin 3 → Nat) a + S1x16x256.size a ≤ S10x16x256.size a
  inb_S10x16_S1x16_5_0 : ∀ a, (![5, 0] : Fin 2 → Nat) a + S1x16.size a ≤ S10x16.size a
  inb_S10x256x16_S1x256x16_5_0_0 : ∀ a, (![5, 0, 0] : Fin 3 → Nat) a + S1x256x16.size a ≤ S10x256x16.size a
  inb_S10x256_S1x256_5_0 : ∀ a, (![5, 0] : Fin 2 → Nat) a + S1x256.size a ≤ S10x256.size a
  inb_S2x256x64x50_S2x256x64x5_0_0_0_25 : ∀ a, (![0, 0, 0, 25] : Fin 4 → Nat) a + S2x256x64x5.size a ≤ S2x256x64x50.size a
  inb_S2x256x64x50_S2x256x64x1_0_0_0_33 : ∀ a, (![0, 0, 0, 33] : Fin 4 → Nat) a + S2x256x64x1.size a ≤ S2x256x64x50.size a
  inb_S2x256x64x50_S2x256x64x1_0_0_0_34 : ∀ a, (![0, 0, 0, 34] : Fin 4 → Nat) a + S2x256x64x1.size a ≤ S2x256x64x50.size a
  inb_S2x256x64x50_S2x256x64x1_0_0_0_35 : ∀ a, (![0, 0, 0, 35] : Fin 4 → Nat) a + S2x256x64x1.size a ≤ S2x256x64x50.size a
  inb_S2x256x64x50_S2x256x64x1_0_0_0_36 : ∀ a, (![0, 0, 0, 36] : Fin 4 → Nat) a + S2x256x64x1.size a ≤ S2x256x64x50.size a
  inb_S2x256x64x50_S2x256x64x1_0_0_0_48 : ∀ a, (![0, 0, 0, 48] : Fin 4 → Nat) a + S2x256x64x1.size a ≤ S2x256x64x50.size a
  inb_S2x256x64x50_S2x256x64x1_0_0_0_49 : ∀ a, (![0, 0, 0, 49] : Fin 4 → Nat) a + S2x256x64x1.size a ≤ S2x256x64x50.size a
  inb_S10x16x256_S1x16x256_6_0_0 : ∀ a, (![6, 0, 0] : Fin 3 → Nat) a + S1x16x256.size a ≤ S10x16x256.size a
  inb_S10x16_S1x16_6_0 : ∀ a, (![6, 0] : Fin 2 → Nat) a + S1x16.size a ≤ S10x16.size a
  inb_S10x256x16_S1x256x16_6_0_0 : ∀ a, (![6, 0, 0] : Fin 3 → Nat) a + S1x256x16.size a ≤ S10x256x16.size a
  inb_S10x256_S1x256_6_0 : ∀ a, (![6, 0] : Fin 2 → Nat) a + S1x256.size a ≤ S10x256.size a
  inb_S2x256x64x50_S2x256x64x6_0_0_0_30 : ∀ a, (![0, 0, 0, 30] : Fin 4 → Nat) a + S2x256x64x6.size a ≤ S2x256x64x50.size a
  inb_S2x256x64x50_S2x256x64x1_0_0_0_41 : ∀ a, (![0, 0, 0, 41] : Fin 4 → Nat) a + S2x256x64x1.size a ≤ S2x256x64x50.size a
  inb_S2x256x64x50_S2x256x64x1_0_0_0_42 : ∀ a, (![0, 0, 0, 42] : Fin 4 → Nat) a + S2x256x64x1.size a ≤ S2x256x64x50.size a
  inb_S2x256x64x50_S2x256x64x1_0_0_0_43 : ∀ a, (![0, 0, 0, 43] : Fin 4 → Nat) a + S2x256x64x1.size a ≤ S2x256x64x50.size a
  inb_S2x256x64x50_S2x256x64x1_0_0_0_44 : ∀ a, (![0, 0, 0, 44] : Fin 4 → Nat) a + S2x256x64x1.size a ≤ S2x256x64x50.size a
  inb_S10x16x256_S1x16x256_7_0_0 : ∀ a, (![7, 0, 0] : Fin 3 → Nat) a + S1x16x256.size a ≤ S10x16x256.size a
  inb_S10x16_S1x16_7_0 : ∀ a, (![7, 0] : Fin 2 → Nat) a + S1x16.size a ≤ S10x16.size a
  inb_S10x256x16_S1x256x16_7_0_0 : ∀ a, (![7, 0, 0] : Fin 3 → Nat) a + S1x256x16.size a ≤ S10x256x16.size a
  inb_S10x256_S1x256_7_0 : ∀ a, (![7, 0] : Fin 2 → Nat) a + S1x256.size a ≤ S10x256.size a
  inb_S2x256x64x50_S2x256x64x4_0_0_0_36 : ∀ a, (![0, 0, 0, 36] : Fin 4 → Nat) a + S2x256x64x4.size a ≤ S2x256x64x50.size a
  inb_S2x256x64x50_S2x256x64x1_0_0_0_29 : ∀ a, (![0, 0, 0, 29] : Fin 4 → Nat) a + S2x256x64x1.size a ≤ S2x256x64x50.size a
  inb_S2x256x64x50_S2x256x64x1_0_0_0_30 : ∀ a, (![0, 0, 0, 30] : Fin 4 → Nat) a + S2x256x64x1.size a ≤ S2x256x64x50.size a
  inb_S2x256x64x50_S2x256x64x1_0_0_0_31 : ∀ a, (![0, 0, 0, 31] : Fin 4 → Nat) a + S2x256x64x1.size a ≤ S2x256x64x50.size a
  inb_S2x256x64x50_S2x256x64x1_0_0_0_32 : ∀ a, (![0, 0, 0, 32] : Fin 4 → Nat) a + S2x256x64x1.size a ≤ S2x256x64x50.size a
  inb_S2x256x64x50_S2x256x64x1_0_0_0_46 : ∀ a, (![0, 0, 0, 46] : Fin 4 → Nat) a + S2x256x64x1.size a ≤ S2x256x64x50.size a
  inb_S2x256x64x50_S2x256x64x1_0_0_0_47 : ∀ a, (![0, 0, 0, 47] : Fin 4 → Nat) a + S2x256x64x1.size a ≤ S2x256x64x50.size a
  inb_S10x16x256_S1x16x256_8_0_0 : ∀ a, (![8, 0, 0] : Fin 3 → Nat) a + S1x16x256.size a ≤ S10x16x256.size a
  inb_S10x16_S1x16_8_0 : ∀ a, (![8, 0] : Fin 2 → Nat) a + S1x16.size a ≤ S10x16.size a
  inb_S10x256x16_S1x256x16_8_0_0 : ∀ a, (![8, 0, 0] : Fin 3 → Nat) a + S1x256x16.size a ≤ S10x256x16.size a
  inb_S10x256_S1x256_8_0 : ∀ a, (![8, 0] : Fin 2 → Nat) a + S1x256.size a ≤ S10x256.size a
  inb_S2x256x64x50_S2x256x64x6_0_0_0_40 : ∀ a, (![0, 0, 0, 40] : Fin 4 → Nat) a + S2x256x64x6.size a ≤ S2x256x64x50.size a
  inb_S2x256x64x50_S2x256x64x1_0_0_0_37 : ∀ a, (![0, 0, 0, 37] : Fin 4 → Nat) a + S2x256x64x1.size a ≤ S2x256x64x50.size a
  inb_S2x256x64x50_S2x256x64x1_0_0_0_38 : ∀ a, (![0, 0, 0, 38] : Fin 4 → Nat) a + S2x256x64x1.size a ≤ S2x256x64x50.size a
  inb_S2x256x64x50_S2x256x64x1_0_0_0_39 : ∀ a, (![0, 0, 0, 39] : Fin 4 → Nat) a + S2x256x64x1.size a ≤ S2x256x64x50.size a
  inb_S2x256x64x50_S2x256x64x1_0_0_0_40 : ∀ a, (![0, 0, 0, 40] : Fin 4 → Nat) a + S2x256x64x1.size a ≤ S2x256x64x50.size a
  inb_S10x16x256_S1x16x256_9_0_0 : ∀ a, (![9, 0, 0] : Fin 3 → Nat) a + S1x16x256.size a ≤ S10x16x256.size a
  inb_S10x16_S1x16_9_0 : ∀ a, (![9, 0] : Fin 2 → Nat) a + S1x16.size a ≤ S10x16.size a
  inb_S10x256x16_S1x256x16_9_0_0 : ∀ a, (![9, 0, 0] : Fin 3 → Nat) a + S1x256x16.size a ≤ S10x256x16.size a
  inb_S10x256_S1x256_9_0 : ∀ a, (![9, 0] : Fin 2 → Nat) a + S1x256.size a ≤ S10x256.size a
  inb_S2x256x64x50_S2x256x64x4_0_0_0_46 : ∀ a, (![0, 0, 0, 46] : Fin 4 → Nat) a + S2x256x64x4.size a ≤ S2x256x64x50.size a
  dot_S2x256_S256x16_S2x16_1_0_0_1_n_n_wf : DotDims.WF S2x256 S256x16 S2x16 [1] [0] [0] [1] [] []
  dot_S2x16_S16x256_S2x256_1_0_0_1_n_n_wf : DotDims.WF S2x16 S16x256 S2x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x64x50.size a ≤ S64x256x64x50.size a
  hwx0_0 : ∀ i : grid0.Coords, EltTy.bits .f32 = 32 ∨ (Rect.block (s := S64x256x64x50) S2x256x64x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16x256.size a ≤ S10x16x256.size a
  hwx0_1 : ∀ i : grid0.Coords, EltTy.bits .f32 = 32 ∨ (Rect.block (s := S10x16x256) S10x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x16.size a ≤ S10x16.size a
  hwx0_2 : ∀ i : grid0.Coords, EltTy.bits .f32 = 32 ∨ (Rect.block (s := S10x16) S10x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x256x16.size a ≤ S10x256x16.size a
  hwx0_3 : ∀ i : grid0.Coords, EltTy.bits .f32 = 32 ∨ (Rect.block (s := S10x256x16) S10x256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x256x64x50.size a ≤ S64x256x64x50.size a
  hwx0_5 : ∀ i : grid0.Coords, EltTy.bits .f32 = 32 ∨ (Rect.block (s := S64x256x64x50) S2x256x64x50.size (cc0_transform_5 i) (hinb0_5 i)).WholeWords (EltTy.packing .f32)

variable [Facts₀]

def dot_S2x256_S256x16_S2x16_1_0_0_1_n_n : DotDims S2x256 S256x16 S2x16 where
  lhsContracting := [1]
  rhsContracting := [0]
  lhsNonContracting := [0]
  rhsNonContracting := [1]
  lhsBatch := []
  rhsBatch := []
  wf := dot_S2x256_S256x16_S2x16_1_0_0_1_n_n_wf
def dot_S2x16_S16x256_S2x256_1_0_0_1_n_n : DotDims S2x16 S16x256 S2x256 where
  lhsContracting := [1]
  rhsContracting := [0]
  lhsNonContracting := [0]
  rhsNonContracting := [1]
  lhsBatch := []
  rhsBatch := []
  wf := dot_S2x16_S16x256_S2x256_1_0_0_1_n_n_wf

abbrev win0_0 : Pipeline.Window sig grid0 :=
  Pipeline.Window.ofSpec (Memref.whole main_arg0) S2x256x64x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x16x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x256x64x50.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x64x50 : Shape := ⟨4, ![64, 256, 64, 50]⟩
abbrev S10x16x256 : Shape := ⟨3, ![10, 16, 256]⟩
abbrev S10x16 : Shape := ⟨2, ![10, 16]⟩
abbrev S10x256x16 : Shape := ⟨3, ![10, 256, 16]⟩
abbrev S10x256 : Shape := ⟨2, ![10, 256]⟩
abbrev S5 : Shape := ⟨1, ![5]⟩
abbrev S6 : Shape := ⟨1, ![6]⟩
abbrev S4 : Shape := ⟨1, ![4]⟩
abbrev S_ : Shape := ⟨0, ![]⟩
abbrev S5x1 : Shape := ⟨2, ![5, 1]⟩
abbrev S64x256x64x5 : Shape := ⟨4, ![64, 256, 64, 5]⟩
abbrev S64x256 : Shape := ⟨2, ![64, 256]⟩
abbrev S1x16x256 : Shape := ⟨3, ![1, 16, 256]⟩
abbrev S16x256 : Shape := ⟨2, ![16, 256]⟩
abbrev S256x16 : Shape := ⟨2, ![256, 16]⟩
abbrev S64x16 : Shape := ⟨2, ![64, 16]⟩
abbrev S1x16 : Shape := ⟨2, ![1, 16]⟩
abbrev S16 : Shape := ⟨1, ![16]⟩
abbrev S1x256x16 : Shape := ⟨3, ![1, 256, 16]⟩
abbrev S1x256 : Shape := ⟨2, ![1, 256]⟩
abbrev S256 : Shape := ⟨1, ![256]⟩
abbrev S64x256x1x1 : Shape := ⟨4, ![64, 256, 1, 1]⟩
abbrev S6x1 : Shape := ⟨2, ![6, 1]⟩
abbrev S64x256x64x6 : Shape := ⟨4, ![64, 256, 64, 6]⟩
abbrev S4x1 : Shape := ⟨2, ![4, 1]⟩
abbrev S64x256x64x4 : Shape := ⟨4, ![64, 256, 64, 4]⟩

abbrev nBuf : Space → Nat
  | .hbm => 696
  | .vmem => 0
  | .smem => 0
  | _ => 0

abbrev hbmTy0_0 (i : Nat) : BufTy := match i % 128 with
  | 0 => ⟨S64x256x64x50, .f32⟩
  | 1 => ⟨S10x16x256, .f32⟩
  | 2 => ⟨S10x16, .f32⟩
  | 3 => ⟨S10x256x16, .f32⟩
  | 4 => ⟨S10x256, .f32⟩
  | 5 => ⟨S5, .i32⟩
  | 6 => ⟨S5, .i1⟩
  | 7 => ⟨S6, .i32⟩
  | 8 => ⟨S6, .i1⟩
  | 9 => ⟨S4, .i32⟩
  | 10 => ⟨S4, .i1⟩
  | 11 => ⟨S6, .i32⟩
  | 12 => ⟨S6, .i1⟩
  | 13 => ⟨S4, .i32⟩
  | 14 => ⟨S4, .i1⟩
  | 15 => ⟨S5, .i32⟩
  | 16 => ⟨S5, .i1⟩
  | 17 => ⟨S6, .i32⟩
  | 18 => ⟨S6, .i1⟩
  | 19 => ⟨S4, .i32⟩
  | 20 => ⟨S4, .i1⟩
  | 21 => ⟨S6, .i32⟩
  | 22 => ⟨S6, .i1⟩
  | 23 => ⟨S4, .i32⟩
  | 24 => ⟨S4, .i1⟩
  | 25 => ⟨S_, .i32⟩
  | 26 => ⟨S5, .i32⟩
  | 27 => ⟨S5, .i32⟩
  | 28 => ⟨S5, .i32⟩
  | 29 => ⟨S5x1, .i32⟩
  | 30 => ⟨S64x256x64x5, .f32⟩
  | 31 => ⟨S_, .f32⟩
  | 32 => ⟨S64x256, .f32⟩
  | 33 => ⟨S_, .f32⟩
  | 34 => ⟨S64x256, .f32⟩
  | 35 => ⟨S64x256, .f32⟩
  | 36 => ⟨S_, .f32⟩
  | 37 => ⟨S64x256, .f32⟩
  | 38 => ⟨S1x16x256, .f32⟩
  | 39 => ⟨S16x256, .f32⟩
  | 40 => ⟨S256x16, .f32⟩
  | 41 => ⟨S64x16, .f32⟩
  | 42 => ⟨S1x16, .f32⟩
  | 43 => ⟨S16, .f32⟩
  | 44 => ⟨S1x16, .f32⟩
  | 45 => ⟨S64x16, .f32⟩
  | 46 => ⟨S64x16, .f32⟩
  | 47 => ⟨S_, .f32⟩
  | 48 => ⟨S64x16, .f32⟩
  | 49 => ⟨S64x16, .f32⟩
  | 50 => ⟨S1x256x16, .f32⟩
  | 51 => ⟨S256x16, .f32⟩
  | 52 => ⟨S16x256, .f32⟩
  | 53 => ⟨S64x256, .f32⟩
  | 54 => ⟨S1x256, .f32⟩
  | 55 => ⟨S256, .f32⟩
  | 56 => ⟨S1x256, .f32⟩
  | 57 => ⟨S64x256, .f32⟩
  | 58 => ⟨S64x256, .f32⟩
  | 59 => ⟨S1x16x256, .f32⟩
  | 60 => ⟨S16x256, .f32⟩
  | 61 => ⟨S256x16, .f32⟩
  | 62 => ⟨S64x16, .f32⟩
  | 63 => ⟨S1x16, .f32⟩
  | 64 => ⟨S16, .f32⟩
  | 65 => ⟨S1x16, .f32⟩
  | 66 => ⟨S64x16, .f32⟩
  | 67 => ⟨S64x16, .f32⟩
  | 68 => ⟨S_, .f32⟩
  | 69 => ⟨S64x16, .f32⟩
  | 70 => ⟨S64x16, .f32⟩
  | 71 => ⟨S1x256x16, .f32⟩
  | 72 => ⟨S256x16, .f32⟩
  | 73 => ⟨S16x256, .f32⟩
  | 74 => ⟨S64x256, .f32⟩
  | 75 => ⟨S1x256, .f32⟩
  | 76 => ⟨S256, .f32⟩
  | 77 => ⟨S1x256, .f32⟩
  | 78 => ⟨S64x256, .f32⟩
  | 79 => ⟨S64x256, .f32⟩
  | 80 => ⟨S64x256, .f32⟩
  | 81 => ⟨S64x256, .f32⟩
  | 82 => ⟨S64x256, .f32⟩
  | 83 => ⟨S_, .f32⟩
  | 84 => ⟨S64x256, .f32⟩
  | 85 => ⟨S64x256, .f32⟩
  | 86 => ⟨S_, .f32⟩
  | 87 => ⟨S64x256, .f32⟩
  | 88 => ⟨S64x256, .f32⟩
  | 89 => ⟨S64x256x1x1, .f32⟩
  | 90 => ⟨S64x256x64x5, .f32⟩
  | 91 => ⟨S64x256x64x5, .f32⟩
  | 92 => ⟨S_, .i32⟩
  | 93 => ⟨S6, .i32⟩
  | 94 => ⟨S6, .i32⟩
  | 95 => ⟨S6, .i32⟩
  | 96 => ⟨S6x1, .i32⟩
  | 97 => ⟨S64x256x64x6, .f32⟩
  | 98 => ⟨S_, .f32⟩
  | 99 => ⟨S64x256, .f32⟩
  | 100 => ⟨S_, .f32⟩
  | 101 => ⟨S64x256, .f32⟩
  | 102 => ⟨S64x256, .f32⟩
  | 103 => ⟨S_, .f32⟩
  | 104 => ⟨S64x256, .f32⟩
  | 105 => ⟨S1x16x256, .f32⟩
  | 106 => ⟨S16x256, .f32⟩
  | 107 => ⟨S256x16, .f32⟩
  | 108 => ⟨S64x16, .f32⟩
  | 109 => ⟨S1x16, .f32⟩
  | 110 => ⟨S16, .f32⟩
  | 111 => ⟨S1x16, .f32⟩
  | 112 => ⟨S64x16, .f32⟩
  | 113 => ⟨S64x16, .f32⟩
  | 114 => ⟨S_, .f32⟩
  | 115 => ⟨S64x16, .f32⟩
  | 116 => ⟨S64x16, .f32⟩
  | 117 => ⟨S1x256x16, .f32⟩
  | 118 => ⟨S256x16, .f32⟩
  | 119 => ⟨S16x256, .f32⟩
  | 120 => ⟨S64x256, .f32⟩
  | 121 => ⟨S1x256, .f32⟩
  | 122 => ⟨S256, .f32⟩
  | 123 => ⟨S1x256, .f32⟩
  | 124 => ⟨S64x256, .f32⟩
  | 125 => ⟨S64x256, .f32⟩
  | 126 => ⟨S1x16x256, .f32⟩
  | 127 => ⟨S16x256, .f32⟩
  | _ => ⟨S64x256x64x50, .f32⟩

abbrev hbmTy0_1 (i : Nat) : BufTy := match i % 128 with
  | 0 => ⟨S256x16, .f32⟩
  | 1 => ⟨S64x16, .f32⟩
  | 2 => ⟨S1x16, .f32⟩
  | 3 => ⟨S16, .f32⟩
  | 4 => ⟨S1x16, .f32⟩
  | 5 => ⟨S64x16, .f32⟩
  | 6 => ⟨S64x16, .f32⟩
  | 7 => ⟨S_, .f32⟩
  | 8 => ⟨S64x16, .f32⟩
  | 9 => ⟨S64x16, .f32⟩
  | 10 => ⟨S1x256x16, .f32⟩
  | 11 => ⟨S256x16, .f32⟩
  | 12 => ⟨S16x256, .f32⟩
  | 13 => ⟨S64x256, .f32⟩
  | 14 => ⟨S1x256, .f32⟩
  | 15 => ⟨S256, .f32⟩
  | 16 => ⟨S1x256, .f32⟩
  | 17 => ⟨S64x256, .f32⟩
  | 18 => ⟨S64x256, .f32⟩
  | 19 => ⟨S64x256, .f32⟩
  | 20 => ⟨S64x256, .f32⟩
  | 21 => ⟨S64x256, .f32⟩
  | 22 => ⟨S_, .f32⟩
  | 23 => ⟨S64x256, .f32⟩
  | 24 => ⟨S64x256, .f32⟩
  | 25 => ⟨S_, .f32⟩
  | 26 => ⟨S64x256, .f32⟩
  | 27 => ⟨S64x256, .f32⟩
  | 28 => ⟨S64x256x1x1, .f32⟩
  | 29 => ⟨S64x256x64x6, .f32⟩
  | 30 => ⟨S64x256x64x6, .f32⟩
  | 31 => ⟨S_, .i32⟩
  | 32 => ⟨S4, .i32⟩
  | 33 => ⟨S4, .i32⟩
  | 34 => ⟨S4, .i32⟩
  | 35 => ⟨S4x1, .i32⟩
  | 36 => ⟨S64x256x64x4, .f32⟩
  | 37 => ⟨S_, .f32⟩
  | 38 => ⟨S64x256, .f32⟩
  | 39 => ⟨S_, .f32⟩
  | 40 => ⟨S64x256, .f32⟩
  | 41 => ⟨S64x256, .f32⟩
  | 42 => ⟨S_, .f32⟩
  | 43 => ⟨S64x256, .f32⟩
  | 44 => ⟨S1x16x256, .f32⟩
  | 45 => ⟨S16x256, .f32⟩
  | 46 => ⟨S256x16, .f32⟩
  | 47 => ⟨S64x16, .f32⟩
  | 48 => ⟨S1x16, .f32⟩
  | 49 => ⟨S16, .f32⟩
  | 50 => ⟨S1x16, .f32⟩
  | 51 => ⟨S64x16, .f32⟩
  | 52 => ⟨S64x16, .f32⟩
  | 53 => ⟨S_, .f32⟩
  | 54 => ⟨S64x16, .f32⟩
  | 55 => ⟨S64x16, .f32⟩
  | 56 => ⟨S1x256x16, .f32⟩
  | 57 => ⟨S256x16, .f32⟩
  | 58 => ⟨S16x256, .f32⟩
  | 59 => ⟨S64x256, .f32⟩
  | 60 => ⟨S1x256, .f32⟩
  | 61 => ⟨S256, .f32⟩
  | 62 => ⟨S1x256, .f32⟩
  | 63 => ⟨S64x256, .f32⟩
  | 64 => ⟨S64x256, .f32⟩
  | 65 => ⟨S1x16x256, .f32⟩
  | 66 => ⟨S16x256, .f32⟩
  | 67 => ⟨S256x16, .f32⟩
  | 68 => ⟨S64x16, .f32⟩
  | 69 => ⟨S1x16, .f32⟩
  | 70 => ⟨S16, .f32⟩
  | 71 => ⟨S1x16, .f32⟩
  | 72 => ⟨S64x16, .f32⟩
  | 73 => ⟨S64x16, .f32⟩
  | 74 => ⟨S_, .f32⟩
  | 75 => ⟨S64x16, .f32⟩
  | 76 => ⟨S64x16, .f32⟩
  | 77 => ⟨S1x256x16, .f32⟩
  | 78 => ⟨S256x16, .f32⟩
  | 79 => ⟨S16x256, .f32⟩
  | 80 => ⟨S64x256, .f32⟩
  | 81 => ⟨S1x256, .f32⟩
  | 82 => ⟨S256, .f32⟩
  | 83 => ⟨S1x256, .f32⟩
  | 84 => ⟨S64x256, .f32⟩
  | 85 => ⟨S64x256, .f32⟩
  | 86 => ⟨S64x256, .f32⟩
  | 87 => ⟨S64x256, .f32⟩
  | 88 => ⟨S64x256, .f32⟩
  | 89 => ⟨S_, .f32⟩
  | 90 => ⟨S64x256, .f32⟩
  | 91 => ⟨S64x256, .f32⟩
  | 92 => ⟨S_, .f32⟩
  | 93 => ⟨S64x256, .f32⟩
  | 94 => ⟨S64x256, .f32⟩
  | 95 => ⟨S64x256x1x1, .f32⟩
  | 96 => ⟨S64x256x64x4, .f32⟩
  | 97 => ⟨S64x256x64x4, .f32⟩
  | 98 => ⟨S_, .i32⟩
  | 99 => ⟨S6, .i32⟩
  | 100 => ⟨S6, .i32⟩
  | 101 => ⟨S6, .i32⟩
  | 102 => ⟨S6x1, .i32⟩
  | 103 => ⟨S64x256x64x6, .f32⟩
  | 104 => ⟨S_, .f32⟩
  | 105 => ⟨S64x256, .f32⟩
  | 106 => ⟨S_, .f32⟩
  | 107 => ⟨S64x256, .f32⟩
  | 108 => ⟨S64x256, .f32⟩
  | 109 => ⟨S_, .f32⟩
  | 110 => ⟨S64x256, .f32⟩
  | 111 => ⟨S1x16x256, .f32⟩
  | 112 => ⟨S16x256, .f32⟩
  | 113 => ⟨S256x16, .f32⟩
  | 114 => ⟨S64x16, .f32⟩
  | 115 => ⟨S1x16, .f32⟩
  | 116 => ⟨S16, .f32⟩
  | 117 => ⟨S1x16, .f32⟩
  | 118 => ⟨S64x16, .f32⟩
  | 119 => ⟨S64x16, .f32⟩
  | 120 => ⟨S_, .f32⟩
  | 121 => ⟨S64x16, .f32⟩
  | 122 => ⟨S64x16, .f32⟩
  | 123 => ⟨S1x256x16, .f32⟩
  | 124 => ⟨S256x16, .f32⟩
  | 125 => ⟨S16x256, .f32⟩
  | 126 => ⟨S64x256, .f32⟩
  | 127 => ⟨S1x256, .f32⟩
  | _ => ⟨S64x256x64x50, .f32⟩

abbrev hbmTy0_2 (i : Nat) : BufTy := match i % 128 with
  | 0 => ⟨S256, .f32⟩
  | 1 => ⟨S1x256, .f32⟩
  | 2 => ⟨S64x256, .f32⟩
  | 3 => ⟨S64x256, .f32⟩
  | 4 => ⟨S1x16x256, .f32⟩
  | 5 => ⟨S16x256, .f32⟩
  | 6 => ⟨S256x16, .f32⟩
  | 7 => ⟨S64x16, .f32⟩
  | 8 => ⟨S1x16, .f32⟩
  | 9 => ⟨S16, .f32⟩
  | 10 => ⟨S1x16, .f32⟩
  | 11 => ⟨S64x16, .f32⟩
  | 12 => ⟨S64x16, .f32⟩
  | 13 => ⟨S_, .f32⟩
  | 14 => ⟨S64x16, .f32⟩
  | 15 => ⟨S64x16, .f32⟩
  | 16 => ⟨S1x256x16, .f32⟩
  | 17 => ⟨S256x16, .f32⟩
  | 18 => ⟨S16x256, .f32⟩
  | 19 => ⟨S64x256, .f32⟩
  | 20 => ⟨S1x256, .f32⟩
  | 21 => ⟨S256, .f32⟩
  | 22 => ⟨S1x256, .f32⟩
  | 23 => ⟨S64x256, .f32⟩
  | 24 => ⟨S64x256, .f32⟩
  | 25 => ⟨S64x256, .f32⟩
  | 26 => ⟨S64x256, .f32⟩
  | 27 => ⟨S64x256, .f32⟩
  | 28 => ⟨S_, .f32⟩
  | 29 => ⟨S64x256, .f32⟩
  | 30 => ⟨S64x256, .f32⟩
  | 31 => ⟨S_, .f32⟩
  | 32 => ⟨S64x256, .f32⟩
  | 33 => ⟨S64x256, .f32⟩
  | 34 => ⟨S64x256x1x1, .f32⟩
  | 35 => ⟨S64x256x64x6, .f32⟩
  | 36 => ⟨S64x256x64x6, .f32⟩
  | 37 => ⟨S_, .i32⟩
  | 38 => ⟨S4, .i32⟩
  | 39 => ⟨S4, .i32⟩
  | 40 => ⟨S4, .i32⟩
  | 41 => ⟨S4x1, .i32⟩
  | 42 => ⟨S64x256x64x4, .f32⟩
  | 43 => ⟨S_, .f32⟩
  | 44 => ⟨S64x256, .f32⟩
  | 45 => ⟨S_, .f32⟩
  | 46 => ⟨S64x256, .f32⟩
  | 47 => ⟨S64x256, .f32⟩
  | 48 => ⟨S_, .f32⟩
  | 49 => ⟨S64x256, .f32⟩
  | 50 => ⟨S1x16x256, .f32⟩
  | 51 => ⟨S16x256, .f32⟩
  | 52 => ⟨S256x16, .f32⟩
  | 53 => ⟨S64x16, .f32⟩
  | 54 => ⟨S1x16, .f32⟩
  | 55 => ⟨S16, .f32⟩
  | 56 => ⟨S1x16, .f32⟩
  | 57 => ⟨S64x16, .f32⟩
  | 58 => ⟨S64x16, .f32⟩
  | 59 => ⟨S_, .f32⟩
  | 60 => ⟨S64x16, .f32⟩
  | 61 => ⟨S64x16, .f32⟩
  | 62 => ⟨S1x256x16, .f32⟩
  | 63 => ⟨S256x16, .f32⟩
  | 64 => ⟨S16x256, .f32⟩
  | 65 => ⟨S64x256, .f32⟩
  | 66 => ⟨S1x256, .f32⟩
  | 67 => ⟨S256, .f32⟩
  | 68 => ⟨S1x256, .f32⟩
  | 69 => ⟨S64x256, .f32⟩
  | 70 => ⟨S64x256, .f32⟩
  | 71 => ⟨S1x16x256, .f32⟩
  | 72 => ⟨S16x256, .f32⟩
  | 73 => ⟨S256x16, .f32⟩
  | 74 => ⟨S64x16, .f32⟩
  | 75 => ⟨S1x16, .f32⟩
  | 76 => ⟨S16, .f32⟩
  | 77 => ⟨S1x16, .f32⟩
  | 78 => ⟨S64x16, .f32⟩
  | 79 => ⟨S64x16, .f32⟩
  | 80 => ⟨S_, .f32⟩
  | 81 => ⟨S64x16, .f32⟩
  | 82 => ⟨S64x16, .f32⟩
  | 83 => ⟨S1x256x16, .f32⟩
  | 84 => ⟨S256x16, .f32⟩
  | 85 => ⟨S16x256, .f32⟩
  | 86 => ⟨S64x256, .f32⟩
  | 87 => ⟨S1x256, .f32⟩
  | 88 => ⟨S256, .f32⟩
  | 89 => ⟨S1x256, .f32⟩
  | 90 => ⟨S64x256, .f32⟩
  | 91 => ⟨S64x256, .f32⟩
  | 92 => ⟨S64x256, .f32⟩
  | 93 => ⟨S64x256, .f32⟩
  | 94 => ⟨S64x256, .f32⟩
  | 95 => ⟨S_, .f32⟩
  | 96 => ⟨S64x256, .f32⟩
  | 97 => ⟨S64x256, .f32⟩
  | 98 => ⟨S_, .f32⟩
  | 99 => ⟨S64x256, .f32⟩
  | 100 => ⟨S64x256, .f32⟩
  | 101 => ⟨S64x256x1x1, .f32⟩
  | 102 => ⟨S64x256x64x4, .f32⟩
  | 103 => ⟨S64x256x64x4, .f32⟩
  | 104 => ⟨S_, .i32⟩
  | 105 => ⟨S5, .i32⟩
  | 106 => ⟨S5, .i32⟩
  | 107 => ⟨S5, .i32⟩
  | 108 => ⟨S5x1, .i32⟩
  | 109 => ⟨S64x256x64x5, .f32⟩
  | 110 => ⟨S_, .f32⟩
  | 111 => ⟨S64x256, .f32⟩
  | 112 => ⟨S_, .f32⟩
  | 113 => ⟨S64x256, .f32⟩
  | 114 => ⟨S64x256, .f32⟩
  | 115 => ⟨S_, .f32⟩
  | 116 => ⟨S64x256, .f32⟩
  | 117 => ⟨S1x16x256, .f32⟩
  | 118 => ⟨S16x256, .f32⟩
  | 119 => ⟨S256x16, .f32⟩
  | 120 => ⟨S64x16, .f32⟩
  | 121 => ⟨S1x16, .f32⟩
  | 122 => ⟨S16, .f32⟩
  | 123 => ⟨S1x16, .f32⟩
  | 124 => ⟨S64x16, .f32⟩
  | 125 => ⟨S64x16, .f32⟩
  | 126 => ⟨S_, .f32⟩
  | 127 => ⟨S64x16, .f32⟩
  | _ => ⟨S64x256x64x50, .f32⟩

abbrev hbmTy0_3 (i : Nat) : BufTy := match i % 128 with
  | 0 => ⟨S64x16, .f32⟩
  | 1 => ⟨S1x256x16, .f32⟩
  | 2 => ⟨S256x16, .f32⟩
  | 3 => ⟨S16x256, .f32⟩
  | 4 => ⟨S64x256, .f32⟩
  | 5 => ⟨S1x256, .f32⟩
  | 6 => ⟨S256, .f32⟩
  | 7 => ⟨S1x256, .f32⟩
  | 8 => ⟨S64x256, .f32⟩
  | 9 => ⟨S64x256, .f32⟩
  | 10 => ⟨S1x16x256, .f32⟩
  | 11 => ⟨S16x256, .f32⟩
  | 12 => ⟨S256x16, .f32⟩
  | 13 => ⟨S64x16, .f32⟩
  | 14 => ⟨S1x16, .f32⟩
  | 15 => ⟨S16, .f32⟩
  | 16 => ⟨S1x16, .f32⟩
  | 17 => ⟨S64x16, .f32⟩
  | 18 => ⟨S64x16, .f32⟩
  | 19 => ⟨S_, .f32⟩
  | 20 => ⟨S64x16, .f32⟩
  | 21 => ⟨S64x16, .f32⟩
  | 22 => ⟨S1x256x16, .f32⟩
  | 23 => ⟨S256x16, .f32⟩
  | 24 => ⟨S16x256, .f32⟩
  | 25 => ⟨S64x256, .f32⟩
  | 26 => ⟨S1x256, .f32⟩
  | 27 => ⟨S256, .f32⟩
  | 28 => ⟨S1x256, .f32⟩
  | 29 => ⟨S64x256, .f32⟩
  | 30 => ⟨S64x256, .f32⟩
  | 31 => ⟨S64x256, .f32⟩
  | 32 => ⟨S64x256, .f32⟩
  | 33 => ⟨S64x256, .f32⟩
  | 34 => ⟨S_, .f32⟩
  | 35 => ⟨S64x256, .f32⟩
  | 36 => ⟨S64x256, .f32⟩
  | 37 => ⟨S_, .f32⟩
  | 38 => ⟨S64x256, .f32⟩
  | 39 => ⟨S64x256, .f32⟩
  | 40 => ⟨S64x256x1x1, .f32⟩
  | 41 => ⟨S64x256x64x5, .f32⟩
  | 42 => ⟨S64x256x64x5, .f32⟩
  | 43 => ⟨S_, .i32⟩
  | 44 => ⟨S6, .i32⟩
  | 45 => ⟨S6, .i32⟩
  | 46 => ⟨S6, .i32⟩
  | 47 => ⟨S6x1, .i32⟩
  | 48 => ⟨S64x256x64x6, .f32⟩
  | 49 => ⟨S_, .f32⟩
  | 50 => ⟨S64x256, .f32⟩
  | 51 => ⟨S_, .f32⟩
  | 52 => ⟨S64x256, .f32⟩
  | 53 => ⟨S64x256, .f32⟩
  | 54 => ⟨S_, .f32⟩
  | 55 => ⟨S64x256, .f32⟩
  | 56 => ⟨S1x16x256, .f32⟩
  | 57 => ⟨S16x256, .f32⟩
  | 58 => ⟨S256x16, .f32⟩
  | 59 => ⟨S64x16, .f32⟩
  | 60 => ⟨S1x16, .f32⟩
  | 61 => ⟨S16, .f32⟩
  | 62 => ⟨S1x16, .f32⟩
  | 63 => ⟨S64x16, .f32⟩
  | 64 => ⟨S64x16, .f32⟩
  | 65 => ⟨S_, .f32⟩
  | 66 => ⟨S64x16, .f32⟩
  | 67 => ⟨S64x16, .f32⟩
  | 68 => ⟨S1x256x16, .f32⟩
  | 69 => ⟨S256x16, .f32⟩
  | 70 => ⟨S16x256, .f32⟩
  | 71 => ⟨S64x256, .f32⟩
  | 72 => ⟨S1x256, .f32⟩
  | 73 => ⟨S256, .f32⟩
  | 74 => ⟨S1x256, .f32⟩
  | 75 => ⟨S64x256, .f32⟩
  | 76 => ⟨S64x256, .f32⟩
  | 77 => ⟨S1x16x256, .f32⟩
  | 78 => ⟨S16x256, .f32⟩
  | 79 => ⟨S256x16, .f32⟩
  | 80 => ⟨S64x16, .f32⟩
  | 81 => ⟨S1x16, .f32⟩
  | 82 => ⟨S16, .f32⟩
  | 83 => ⟨S1x16, .f32⟩
  | 84 => ⟨S64x16, .f32⟩
  | 85 => ⟨S64x16, .f32⟩
  | 86 => ⟨S_, .f32⟩
  | 87 => ⟨S64x16, .f32⟩
  | 88 => ⟨S64x16, .f32⟩
  | 89 => ⟨S1x256x16, .f32⟩
  | 90 => ⟨S256x16, .f32⟩
  | 91 => ⟨S16x256, .f32⟩
  | 92 => ⟨S64x256, .f32⟩
  | 93 => ⟨S1x256, .f32⟩
  | 94 => ⟨S256, .f32⟩
  | 95 => ⟨S1x256, .f32⟩
  | 96 => ⟨S64x256, .f32⟩
  | 97 => ⟨S64x256, .f32⟩
  | 98 => ⟨S64x256, .f32⟩
  | 99 => ⟨S64x256, .f32⟩
  | 100 => ⟨S64x256, .f32⟩
  | 101 => ⟨S_, .f32⟩
  | 102 => ⟨S64x256, .f32⟩
  | 103 => ⟨S64x256, .f32⟩
  | 104 => ⟨S_, .f32⟩
  | 105 => ⟨S64x256, .f32⟩
  | 106 => ⟨S64x256, .f32⟩
  | 107 => ⟨S64x256x1x1, .f32⟩
  | 108 => ⟨S64x256x64x6, .f32⟩
  | 109 => ⟨S64x256x64x6, .f32⟩
  | 110 => ⟨S_, .i32⟩
  | 111 => ⟨S4, .i32⟩
  | 112 => ⟨S4, .i32⟩
  | 113 => ⟨S4, .i32⟩
  | 114 => ⟨S4x1, .i32⟩
  | 115 => ⟨S64x256x64x4, .f32⟩
  | 116 => ⟨S_, .f32⟩
  | 117 => ⟨S64x256, .f32⟩
  | 118 => ⟨S_, .f32⟩
  | 119 => ⟨S64x256, .f32⟩
  | 120 => ⟨S64x256, .f32⟩
  | 121 => ⟨S_, .f32⟩
  | 122 => ⟨S64x256, .f32⟩
  | 123 => ⟨S1x16x256, .f32⟩
  | 124 => ⟨S16x256, .f32⟩
  | 125 => ⟨S256x16, .f32⟩
  | 126 => ⟨S64x16, .f32⟩
  | 127 => ⟨S1x16, .f32⟩
  | _ => ⟨S64x256x64x50, .f32⟩

abbrev hbmTy0_4 (i : Nat) : BufTy := match i % 128 with
  | 0 => ⟨S16, .f32⟩
  | 1 => ⟨S1x16, .f32⟩
  | 2 => ⟨S64x16, .f32⟩
  | 3 => ⟨S64x16, .f32⟩
  | 4 => ⟨S_, .f32⟩
  | 5 => ⟨S64x16, .f32⟩
  | 6 => ⟨S64x16, .f32⟩
  | 7 => ⟨S1x256x16, .f32⟩
  | 8 => ⟨S256x16, .f32⟩
  | 9 => ⟨S16x256, .f32⟩
  | 10 => ⟨S64x256, .f32⟩
  | 11 => ⟨S1x256, .f32⟩
  | 12 => ⟨S256, .f32⟩
  | 13 => ⟨S1x256, .f32⟩
  | 14 => ⟨S64x256, .f32⟩
  | 15 => ⟨S64x256, .f32⟩
  | 16 => ⟨S1x16x256, .f32⟩
  | 17 => ⟨S16x256, .f32⟩
  | 18 => ⟨S256x16, .f32⟩
  | 19 => ⟨S64x16, .f32⟩
  | 20 => ⟨S1x16, .f32⟩
  | 21 => ⟨S16, .f32⟩
  | 22 => ⟨S1x16, .f32⟩
  | 23 => ⟨S64x16, .f32⟩
  | 24 => ⟨S64x16, .f32⟩
  | 25 => ⟨S_, .f32⟩
  | 26 => ⟨S64x16, .f32⟩
  | 27 => ⟨S64x16, .f32⟩
  | 28 => ⟨S1x256x16, .f32⟩
  | 29 => ⟨S256x16, .f32⟩
  | 30 => ⟨S16x256, .f32⟩
  | 31 => ⟨S64x256, .f32⟩
  | 32 => ⟨S1x256, .f32⟩
  | 33 => ⟨S256, .f32⟩
  | 34 => ⟨S1x256, .f32⟩
  | 35 => ⟨S64x256, .f32⟩
  | 36 => ⟨S64x256, .f32⟩
  | 37 => ⟨S64x256, .f32⟩
  | 38 => ⟨S64x256, .f32⟩
  | 39 => ⟨S64x256, .f32⟩
  | 40 => ⟨S_, .f32⟩
  | 41 => ⟨S64x256, .f32⟩
  | 42 => ⟨S64x256, .f32⟩
  | 43 => ⟨S_, .f32⟩
  | 44 => ⟨S64x256, .f32⟩
  | 45 => ⟨S64x256, .f32⟩
  | 46 => ⟨S64x256x1x1, .f32⟩
  | 47 => ⟨S64x256x64x4, .f32⟩
  | 48 => ⟨S64x256x64x4, .f32⟩
  | 49 => ⟨S_, .i32⟩
  | 50 => ⟨S6, .i32⟩
  | 51 => ⟨S6, .i32⟩
  | 52 => ⟨S6, .i32⟩
  | 53 => ⟨S6x1, .i32⟩
  | 54 => ⟨S64x256x64x6, .f32⟩
  | 55 => ⟨S_, .f32⟩
  | 56 => ⟨S64x256, .f32⟩
  | 57 => ⟨S_, .f32⟩
  | 58 => ⟨S64x256, .f32⟩
  | 59 => ⟨S64x256, .f32⟩
  | 60 => ⟨S_, .f32⟩
  | 61 => ⟨S64x256, .f32⟩
  | 62 => ⟨S1x16x256, .f32⟩
  | 63 => ⟨S16x256, .f32⟩
  | 64 => ⟨S256x16, .f32⟩
  | 65 => ⟨S64x16, .f32⟩
  | 66 => ⟨S1x16, .f32⟩
  | 67 => ⟨S16, .f32⟩
  | 68 => ⟨S1x16, .f32⟩
  | 69 => ⟨S64x16, .f32⟩
  | 70 => ⟨S64x16, .f32⟩
  | 71 => ⟨S_, .f32⟩
  | 72 => ⟨S64x16, .f32⟩
  | 73 => ⟨S64x16, .f32⟩
  | 74 => ⟨S1x256x16, .f32⟩
  | 75 => ⟨S256x16, .f32⟩
  | 76 => ⟨S16x256, .f32⟩
  | 77 => ⟨S64x256, .f32⟩
  | 78 => ⟨S1x256, .f32⟩
  | 79 => ⟨S256, .f32⟩
  | 80 => ⟨S1x256, .f32⟩
  | 81 => ⟨S64x256, .f32⟩
  | 82 => ⟨S64x256, .f32⟩
  | 83 => ⟨S1x16x256, .f32⟩
  | 84 => ⟨S16x256, .f32⟩
  | 85 => ⟨S256x16, .f32⟩
  | 86 => ⟨S64x16, .f32⟩
  | 87 => ⟨S1x16, .f32⟩
  | 88 => ⟨S16, .f32⟩
  | 89 => ⟨S1x16, .f32⟩
  | 90 => ⟨S64x16, .f32⟩
  | 91 => ⟨S64x16, .f32⟩
  | 92 => ⟨S_, .f32⟩
  | 93 => ⟨S64x16, .f32⟩
  | 94 => ⟨S64x16, .f32⟩
  | 95 => ⟨S1x256x16, .f32⟩
  | 96 => ⟨S256x16, .f32⟩
  | 97 => ⟨S16x256, .f32⟩
  | 98 => ⟨S64x256, .f32⟩
  | 99 => ⟨S1x256, .f32⟩
  | 100 => ⟨S256, .f32⟩
  | 101 => ⟨S1x256, .f32⟩
  | 102 => ⟨S64x256, .f32⟩
  | 103 => ⟨S64x256, .f32⟩
  | 104 => ⟨S64x256, .f32⟩
  | 105 => ⟨S64x256, .f32⟩
  | 106 => ⟨S64x256, .f32⟩
  | 107 => ⟨S_, .f32⟩
  | 108 => ⟨S64x256, .f32⟩
  | 109 => ⟨S64x256, .f32⟩
  | 110 => ⟨S_, .f32⟩
  | 111 => ⟨S64x256, .f32⟩
  | 112 => ⟨S64x256, .f32⟩
  | 113 => ⟨S64x256x1x1, .f32⟩
  | 114 => ⟨S64x256x64x6, .f32⟩
  | 115 => ⟨S64x256x64x6, .f32⟩
  | 116 => ⟨S_, .i32⟩
  | 117 => ⟨S4, .i32⟩
  | 118 => ⟨S4, .i32⟩
  | 119 => ⟨S4, .i32⟩
  | 120 => ⟨S4x1, .i32⟩
  | 121 => ⟨S64x256x64x4, .f32⟩
  | 122 => ⟨S_, .f32⟩
  | 123 => ⟨S64x256, .f32⟩
  | 124 => ⟨S_, .f32⟩
  | 125 => ⟨S64x256, .f32⟩
  | 126 => ⟨S64x256, .f32⟩
  | 127 => ⟨S_, .f32⟩
  | _ => ⟨S64x256x64x50, .f32⟩

abbrev hbmTy0_5 (i : Nat) : BufTy := match i % 128 with
  | 0 => ⟨S64x256, .f32⟩
  | 1 => ⟨S1x16x256, .f32⟩
  | 2 => ⟨S16x256, .f32⟩
  | 3 => ⟨S256x16, .f32⟩
  | 4 => ⟨S64x16, .f32⟩
  | 5 => ⟨S1x16, .f32⟩
  | 6 => ⟨S16, .f32⟩
  | 7 => ⟨S1x16, .f32⟩
  | 8 => ⟨S64x16, .f32⟩
  | 9 => ⟨S64x16, .f32⟩
  | 10 => ⟨S_, .f32⟩
  | 11 => ⟨S64x16, .f32⟩
  | 12 => ⟨S64x16, .f32⟩
  | 13 => ⟨S1x256x16, .f32⟩
  | 14 => ⟨S256x16, .f32⟩
  | 15 => ⟨S16x256, .f32⟩
  | 16 => ⟨S64x256, .f32⟩
  | 17 => ⟨S1x256, .f32⟩
  | 18 => ⟨S256, .f32⟩
  | 19 => ⟨S1x256, .f32⟩
  | 20 => ⟨S64x256, .f32⟩
  | 21 => ⟨S64x256, .f32⟩
  | 22 => ⟨S1x16x256, .f32⟩
  | 23 => ⟨S16x256, .f32⟩
  | 24 => ⟨S256x16, .f32⟩
  | 25 => ⟨S64x16, .f32⟩
  | 26 => ⟨S1x16, .f32⟩
  | 27 => ⟨S16, .f32⟩
  | 28 => ⟨S1x16, .f32⟩
  | 29 => ⟨S64x16, .f32⟩
  | 30 => ⟨S64x16, .f32⟩
  | 31 => ⟨S_, .f32⟩
  | 32 => ⟨S64x16, .f32⟩
  | 33 => ⟨S64x16, .f32⟩
  | 34 => ⟨S1x256x16, .f32⟩
  | 35 => ⟨S256x16, .f32⟩
  | 36 => ⟨S16x256, .f32⟩
  | 37 => ⟨S64x256, .f32⟩
  | 38 => ⟨S1x256, .f32⟩
  | 39 => ⟨S256, .f32⟩
  | 40 => ⟨S1x256, .f32⟩
  | 41 => ⟨S64x256, .f32⟩
  | 42 => ⟨S64x256, .f32⟩
  | 43 => ⟨S64x256, .f32⟩
  | 44 => ⟨S64x256, .f32⟩
  | 45 => ⟨S64x256, .f32⟩
  | 46 => ⟨S_, .f32⟩
  | 47 => ⟨S64x256, .f32⟩
  | 48 => ⟨S64x256, .f32⟩
  | 49 => ⟨S_, .f32⟩
  | 50 => ⟨S64x256, .f32⟩
  | 51 => ⟨S64x256, .f32⟩
  | 52 => ⟨S64x256x1x1, .f32⟩
  | 53 => ⟨S64x256x64x4, .f32⟩
  | 54 => ⟨S64x256x64x4, .f32⟩
  | 55 => ⟨S64x256x64x50, .f32⟩
  | _ => ⟨S64x256x64x50, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x256x64x50, .f32⟩

abbrev bufTy : (tb : Table) → Fin (tcTables nBuf tb) → BufTy
  | .hbm, ⟨i, _⟩ => hbmTy i
  | _, _ => ⟨S64x256x64x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_c_11 : Ref sig .tc := ⟨.hbm, 17, rfl⟩
abbrev main_c_12 : Ref sig .tc := ⟨.hbm, 18, rfl⟩
abbrev main_c_13 : Ref sig .tc := ⟨.hbm, 19, rfl⟩
abbrev main_c_14 : Ref sig .tc := ⟨.hbm, 20, rfl⟩
abbrev main_c_15 : Ref sig .tc := ⟨.hbm, 21, rfl⟩
abbrev main_c_16 : Ref sig .tc := ⟨.hbm, 22, rfl⟩
abbrev main_c_17 : Ref sig .tc := ⟨.hbm, 23, rfl⟩
abbrev main_c_18 : Ref sig .tc := ⟨.hbm, 24, rfl⟩
abbrev main_c_19 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_cst_20 : Ref sig .tc := ⟨.hbm, 33, rfl⟩
abbrev main_v6 : Ref sig .tc := ⟨.hbm, 34, rfl⟩
abbrev main_v7 : Ref sig .tc := ⟨.hbm, 35, rfl⟩
abbrev main_cst_21 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_call0_cst : Ref sig .tc := ⟨.hbm, 47, rfl⟩
abbrev main_call0_v0 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_cst : Ref sig .tc := ⟨.hbm, 68, rfl⟩
abbrev main_call1_v0 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_22 : Ref sig .tc := ⟨.hbm, 83, rfl⟩
abbrev main_v50 : Ref sig .tc := ⟨.hbm, 84, rfl⟩
abbrev main_v51 : Ref sig .tc := ⟨.hbm, 85, rfl⟩
abbrev main_cst_23 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_24 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_25 : Ref sig .tc := ⟨.hbm, 98, rfl⟩
abbrev main_v62 : Ref sig .tc := ⟨.hbm, 99, rfl⟩
abbrev main_cst_26 : Ref sig .tc := ⟨.hbm, 100, rfl⟩
abbrev main_v63 : Ref sig .tc := ⟨.hbm, 101, rfl⟩
abbrev main_v64 : Ref sig .tc := ⟨.hbm, 102, rfl⟩
abbrev main_cst_27 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_call2_cst : Ref sig .tc := ⟨.hbm, 114, rfl⟩
abbrev main_call2_v0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call3_cst : Ref sig .tc := ⟨.hbm, 135, rfl⟩
abbrev main_call3_v0 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_28 : Ref sig .tc := ⟨.hbm, 150, rfl⟩
abbrev main_v107 : Ref sig .tc := ⟨.hbm, 151, rfl⟩
abbrev main_v108 : Ref sig .tc := ⟨.hbm, 152, rfl⟩
abbrev main_cst_29 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_30 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_31 : Ref sig .tc := ⟨.hbm, 165, rfl⟩
abbrev main_v119 : Ref sig .tc := ⟨.hbm, 166, rfl⟩
abbrev main_cst_32 : Ref sig .tc := ⟨.hbm, 167, rfl⟩
abbrev main_v120 : Ref sig .tc := ⟨.hbm, 168, rfl⟩
abbrev main_v121 : Ref sig .tc := ⟨.hbm, 169, rfl⟩
abbrev main_cst_33 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_call4_cst : Ref sig .tc := ⟨.hbm, 181, rfl⟩
abbrev main_call4_v0 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_call5_cst : Ref sig .tc := ⟨.hbm, 202, rfl⟩
abbrev main_call5_v0 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_34 : Ref sig .tc := ⟨.hbm, 217, rfl⟩
abbrev main_v164 : Ref sig .tc := ⟨.hbm, 218, rfl⟩
abbrev main_v165 : Ref sig .tc := ⟨.hbm, 219, rfl⟩
abbrev main_cst_35 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_c_36 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_37 : Ref sig .tc := ⟨.hbm, 232, rfl⟩
abbrev main_v176 : Ref sig .tc := ⟨.hbm, 233, rfl⟩
abbrev main_cst_38 : Ref sig .tc := ⟨.hbm, 234, rfl⟩
abbrev main_v177 : Ref sig .tc := ⟨.hbm, 235, rfl⟩
abbrev main_v178 : Ref sig .tc := ⟨.hbm, 236, rfl⟩
abbrev main_cst_39 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_call6_cst : Ref sig .tc := ⟨.hbm, 248, rfl⟩
abbrev main_call6_v0 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_call7_cst : Ref sig .tc := ⟨.hbm, 269, rfl⟩
abbrev main_call7_v0 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_cst_40 : Ref sig .tc := ⟨.hbm, 284, rfl⟩
abbrev main_v221 : Ref sig .tc := ⟨.hbm, 285, rfl⟩
abbrev main_v222 : Ref sig .tc := ⟨.hbm, 286, rfl⟩
abbrev main_cst_41 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_c_42 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_cst_43 : Ref sig .tc := ⟨.hbm, 299, rfl⟩
abbrev main_v233 : Ref sig .tc := ⟨.hbm, 300, rfl⟩
abbrev main_cst_44 : Ref sig .tc := ⟨.hbm, 301, rfl⟩
abbrev main_v234 : Ref sig .tc := ⟨.hbm, 302, rfl⟩
abbrev main_v235 : Ref sig .tc := ⟨.hbm, 303, rfl⟩
abbrev main_cst_45 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_call8_cst : Ref sig .tc := ⟨.hbm, 315, rfl⟩
abbrev main_call8_v0 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_v249 : Ref sig .tc := ⟨.hbm, 320, rfl⟩
abbrev main_v250 : Ref sig .tc := ⟨.hbm, 321, rfl⟩
abbrev main_v251 : Ref sig .tc := ⟨.hbm, 322, rfl⟩
abbrev main_v252 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_call9_cst : Ref sig .tc := ⟨.hbm, 336, rfl⟩
abbrev main_call9_v0 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_cst_46 : Ref sig .tc := ⟨.hbm, 351, rfl⟩
abbrev main_v278 : Ref sig .tc := ⟨.hbm, 352, rfl⟩
abbrev main_v279 : Ref sig .tc := ⟨.hbm, 353, rfl⟩
abbrev main_cst_47 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_c_48 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_cst_49 : Ref sig .tc := ⟨.hbm, 366, rfl⟩
abbrev main_v290 : Ref sig .tc := ⟨.hbm, 367, rfl⟩
abbrev main_cst_50 : Ref sig .tc := ⟨.hbm, 368, rfl⟩
abbrev main_v291 : Ref sig .tc := ⟨.hbm, 369, rfl⟩
abbrev main_v292 : Ref sig .tc := ⟨.hbm, 370, rfl⟩
abbrev main_cst_51 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_v299 : Ref sig .tc := ⟨.hbm, 378, rfl⟩
abbrev main_v300 : Ref sig .tc := ⟨.hbm, 379, rfl⟩
abbrev main_v301 : Ref sig .tc := ⟨.hbm, 380, rfl⟩
abbrev main_v302 : Ref sig .tc := ⟨.hbm, 381, rfl⟩
abbrev main_call10_cst : Ref sig .tc := ⟨.hbm, 382, rfl⟩
abbrev main_call10_v0 : Ref sig .tc := ⟨.hbm, 383, rfl⟩
abbrev main_v303 : Ref sig .tc := ⟨.hbm, 384, rfl⟩
abbrev main_v304 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_call11_cst : Ref sig .tc := ⟨.hbm, 403, rfl⟩
abbrev main_call11_v0 : Ref sig .tc := ⟨.hbm, 404, rfl⟩
abbrev main_v322 : Ref sig .tc := ⟨.hbm, 405, rfl⟩
abbrev main_v323 : Ref sig .tc := ⟨.hbm, 406, rfl⟩
abbrev main_v324 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_cst_52 : Ref sig .tc := ⟨.hbm, 418, rfl⟩
abbrev main_v335 : Ref sig .tc := ⟨.hbm, 419, rfl⟩
abbrev main_v336 : Ref sig .tc := ⟨.hbm, 420, rfl⟩
abbrev main_cst_53 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_v341 : Ref sig .tc := ⟨.hbm, 426, rfl⟩
abbrev main_c_54 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_cst_55 : Ref sig .tc := ⟨.hbm, 433, rfl⟩
abbrev main_v347 : Ref sig .tc := ⟨.hbm, 434, rfl⟩
abbrev main_cst_56 : Ref sig .tc := ⟨.hbm, 435, rfl⟩
abbrev main_v348 : Ref sig .tc := ⟨.hbm, 436, rfl⟩
abbrev main_v349 : Ref sig .tc := ⟨.hbm, 437, rfl⟩
abbrev main_cst_57 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_call12_cst : Ref sig .tc := ⟨.hbm, 449, rfl⟩
abbrev main_call12_v0 : Ref sig .tc := ⟨.hbm, 450, rfl⟩
abbrev main_v360 : Ref sig .tc := ⟨.hbm, 451, rfl⟩
abbrev main_v361 : Ref sig .tc := ⟨.hbm, 452, rfl⟩
abbrev main_v362 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩
abbrev main_v374 : Ref sig .tc := ⟨.hbm, 465, rfl⟩
abbrev main_v375 : Ref sig .tc := ⟨.hbm, 466, rfl⟩
abbrev main_v376 : Ref sig .tc := ⟨.hbm, 467, rfl⟩
abbrev main_v377 : Ref sig .tc := ⟨.hbm, 468, rfl⟩
abbrev main_v378 : Ref sig .tc := ⟨.hbm, 469, rfl⟩
abbrev main_call13_cst : Ref sig .tc := ⟨.hbm, 470, rfl⟩
abbrev main_call13_v0 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩
abbrev main_v384 : Ref sig .tc := ⟨.hbm, 477, rfl⟩
abbrev main_v385 : Ref sig .tc := ⟨.hbm, 478, rfl⟩
abbrev main_v386 : Ref sig .tc := ⟨.hbm, 479, rfl⟩
abbrev main_v387 : Ref sig .tc := ⟨.hbm, 480, rfl⟩
abbrev main_v388 : Ref sig .tc := ⟨.hbm, 481, rfl⟩
abbrev main_v389 : Ref sig .tc := ⟨.hbm, 482, rfl⟩
abbrev main_v390 : Ref sig .tc := ⟨.hbm, 483, rfl⟩
abbrev main_v391 : Ref sig .tc := ⟨.hbm, 484, rfl⟩
abbrev main_cst_58 : Ref sig .tc := ⟨.hbm, 485, rfl⟩
abbrev main_v392 : Ref sig .tc := ⟨.hbm, 486, rfl⟩
abbrev main_v393 : Ref sig .tc := ⟨.hbm, 487, rfl⟩
abbrev main_cst_59 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_c_60 : Ref sig .tc := ⟨.hbm, 494, rfl⟩
abbrev main_v399 : Ref sig .tc := ⟨.hbm, 495, rfl⟩
abbrev main_v400 : Ref sig .tc := ⟨.hbm, 496, rfl⟩
abbrev main_v401 : Ref sig .tc := ⟨.hbm, 497, rfl⟩
abbrev main_v402 : Ref sig .tc := ⟨.hbm, 498, rfl⟩
abbrev main_v403 : Ref sig .tc := ⟨.hbm, 499, rfl⟩
abbrev main_cst_61 : Ref sig .tc := ⟨.hbm, 500, rfl⟩
abbrev main_v404 : Ref sig .tc := ⟨.hbm, 501, rfl⟩
abbrev main_cst_62 : Ref sig .tc := ⟨.hbm, 502, rfl⟩
abbrev main_v405 : Ref sig .tc := ⟨.hbm, 503, rfl⟩
abbrev main_v406 : Ref sig .tc := ⟨.hbm, 504, rfl⟩
abbrev main_cst_63 : Ref sig .tc := ⟨.hbm, 505, rfl⟩
abbrev main_v407 : Ref sig .tc := ⟨.hbm, 506, rfl⟩
abbrev main_v408 : Ref sig .tc := ⟨.hbm, 507, rfl⟩
abbrev main_v409 : Ref sig .tc := ⟨.hbm, 508, rfl⟩
abbrev main_v410 : Ref sig .tc := ⟨.hbm, 509, rfl⟩
abbrev main_v411 : Ref sig .tc := ⟨.hbm, 510, rfl⟩
abbrev main_v412 : Ref sig .tc := ⟨.hbm, 511, rfl⟩
abbrev main_v413 : Ref sig .tc := ⟨.hbm, 512, rfl⟩
abbrev main_v414 : Ref sig .tc := ⟨.hbm, 513, rfl⟩
abbrev main_v415 : Ref sig .tc := ⟨.hbm, 514, rfl⟩
abbrev main_v416 : Ref sig .tc := ⟨.hbm, 515, rfl⟩
abbrev main_call14_cst : Ref sig .tc := ⟨.hbm, 516, rfl⟩
abbrev main_call14_v0 : Ref sig .tc := ⟨.hbm, 517, rfl⟩
abbrev main_v417 : Ref sig .tc := ⟨.hbm, 518, rfl⟩
abbrev main_v418 : Ref sig .tc := ⟨.hbm, 519, rfl⟩
abbrev main_v419 : Ref sig .tc := ⟨.hbm, 520, rfl⟩
abbrev main_v420 : Ref sig .tc := ⟨.hbm, 521, rfl⟩
abbrev main_v421 : Ref sig .tc := ⟨.hbm, 522, rfl⟩
abbrev main_v422 : Ref sig .tc := ⟨.hbm, 523, rfl⟩
abbrev main_v423 : Ref sig .tc := ⟨.hbm, 524, rfl⟩
abbrev main_v424 : Ref sig .tc := ⟨.hbm, 525, rfl⟩
abbrev main_v425 : Ref sig .tc := ⟨.hbm, 526, rfl⟩
abbrev main_v426 : Ref sig .tc := ⟨.hbm, 527, rfl⟩
abbrev main_v427 : Ref sig .tc := ⟨.hbm, 528, rfl⟩
abbrev main_v428 : Ref sig .tc := ⟨.hbm, 529, rfl⟩
abbrev main_v429 : Ref sig .tc := ⟨.hbm, 530, rfl⟩
abbrev main_v430 : Ref sig .tc := ⟨.hbm, 531, rfl⟩
abbrev main_v431 : Ref sig .tc := ⟨.hbm, 532, rfl⟩
abbrev main_v432 : Ref sig .tc := ⟨.hbm, 533, rfl⟩
abbrev main_v433 : Ref sig .tc := ⟨.hbm, 534, rfl⟩
abbrev main_v434 : Ref sig .tc := ⟨.hbm, 535, rfl⟩
abbrev main_v435 : Ref sig .tc := ⟨.hbm, 536, rfl⟩
abbrev main_call15_cst : Ref sig .tc := ⟨.hbm, 537, rfl⟩
abbrev main_call15_v0 : Ref sig .tc := ⟨.hbm, 538, rfl⟩
abbrev main_v436 : Ref sig .tc := ⟨.hbm, 539, rfl⟩
abbrev main_v437 : Ref sig .tc := ⟨.hbm, 540, rfl⟩
abbrev main_v438 : Ref sig .tc := ⟨.hbm, 541, rfl⟩
abbrev main_v439 : Ref sig .tc := ⟨.hbm, 542, rfl⟩
abbrev main_v440 : Ref sig .tc := ⟨.hbm, 543, rfl⟩
abbrev main_v441 : Ref sig .tc := ⟨.hbm, 544, rfl⟩
abbrev main_v442 : Ref sig .tc := ⟨.hbm, 545, rfl⟩
abbrev main_v443 : Ref sig .tc := ⟨.hbm, 546, rfl⟩
abbrev main_v444 : Ref sig .tc := ⟨.hbm, 547, rfl⟩
abbrev main_v445 : Ref sig .tc := ⟨.hbm, 548, rfl⟩
abbrev main_v446 : Ref sig .tc := ⟨.hbm, 549, rfl⟩
abbrev main_v447 : Ref sig .tc := ⟨.hbm, 550, rfl⟩
abbrev main_v448 : Ref sig .tc := ⟨.hbm, 551, rfl⟩
abbrev main_cst_64 : Ref sig .tc := ⟨.hbm, 552, rfl⟩
abbrev main_v449 : Ref sig .tc := ⟨.hbm, 553, rfl⟩
abbrev main_v450 : Ref sig .tc := ⟨.hbm, 554, rfl⟩
abbrev main_cst_65 : Ref sig .tc := ⟨.hbm, 555, rfl⟩
abbrev main_v451 : Ref sig .tc := ⟨.hbm, 556, rfl⟩
abbrev main_v452 : Ref sig .tc := ⟨.hbm, 557, rfl⟩
abbrev main_v453 : Ref sig .tc := ⟨.hbm, 558, rfl⟩
abbrev main_v454 : Ref sig .tc := ⟨.hbm, 559, rfl⟩
abbrev main_v455 : Ref sig .tc := ⟨.hbm, 560, rfl⟩
abbrev main_c_66 : Ref sig .tc := ⟨.hbm, 561, rfl⟩
abbrev main_v456 : Ref sig .tc := ⟨.hbm, 562, rfl⟩
abbrev main_v457 : Ref sig .tc := ⟨.hbm, 563, rfl⟩
abbrev main_v458 : Ref sig .tc := ⟨.hbm, 564, rfl⟩
abbrev main_v459 : Ref sig .tc := ⟨.hbm, 565, rfl⟩
abbrev main_v460 : Ref sig .tc := ⟨.hbm, 566, rfl⟩
abbrev main_cst_67 : Ref sig .tc := ⟨.hbm, 567, rfl⟩
abbrev main_v461 : Ref sig .tc := ⟨.hbm, 568, rfl⟩
abbrev main_cst_68 : Ref sig .tc := ⟨.hbm, 569, rfl⟩
abbrev main_v462 : Ref sig .tc := ⟨.hbm, 570, rfl⟩
abbrev main_v463 : Ref sig .tc := ⟨.hbm, 571, rfl⟩
abbrev main_cst_69 : Ref sig .tc := ⟨.hbm, 572, rfl⟩
abbrev main_v464 : Ref sig .tc := ⟨.hbm, 573, rfl⟩
abbrev main_v465 : Ref sig .tc := ⟨.hbm, 574, rfl⟩
abbrev main_v466 : Ref sig .tc := ⟨.hbm, 575, rfl⟩
abbrev main_v467 : Ref sig .tc := ⟨.hbm, 576, rfl⟩
abbrev main_v468 : Ref sig .tc := ⟨.hbm, 577, rfl⟩
abbrev main_v469 : Ref sig .tc := ⟨.hbm, 578, rfl⟩
abbrev main_v470 : Ref sig .tc := ⟨.hbm, 579, rfl⟩
abbrev main_v471 : Ref sig .tc := ⟨.hbm, 580, rfl⟩
abbrev main_v472 : Ref sig .tc := ⟨.hbm, 581, rfl⟩
abbrev main_v473 : Ref sig .tc := ⟨.hbm, 582, rfl⟩
abbrev main_call16_cst : Ref sig .tc := ⟨.hbm, 583, rfl⟩
abbrev main_call16_v0 : Ref sig .tc := ⟨.hbm, 584, rfl⟩
abbrev main_v474 : Ref sig .tc := ⟨.hbm, 585, rfl⟩
abbrev main_v475 : Ref sig .tc := ⟨.hbm, 586, rfl⟩
abbrev main_v476 : Ref sig .tc := ⟨.hbm, 587, rfl⟩
abbrev main_v477 : Ref sig .tc := ⟨.hbm, 588, rfl⟩
abbrev main_v478 : Ref sig .tc := ⟨.hbm, 589, rfl⟩
abbrev main_v479 : Ref sig .tc := ⟨.hbm, 590, rfl⟩
abbrev main_v480 : Ref sig .tc := ⟨.hbm, 591, rfl⟩
abbrev main_v481 : Ref sig .tc := ⟨.hbm, 592, rfl⟩
abbrev main_v482 : Ref sig .tc := ⟨.hbm, 593, rfl⟩
abbrev main_v483 : Ref sig .tc := ⟨.hbm, 594, rfl⟩
abbrev main_v484 : Ref sig .tc := ⟨.hbm, 595, rfl⟩
abbrev main_v485 : Ref sig .tc := ⟨.hbm, 596, rfl⟩
abbrev main_v486 : Ref sig .tc := ⟨.hbm, 597, rfl⟩
abbrev main_v487 : Ref sig .tc := ⟨.hbm, 598, rfl⟩
abbrev main_v488 : Ref sig .tc := ⟨.hbm, 599, rfl⟩
abbrev main_v489 : Ref sig .tc := ⟨.hbm, 600, rfl⟩
abbrev main_v490 : Ref sig .tc := ⟨.hbm, 601, rfl⟩
abbrev main_v491 : Ref sig .tc := ⟨.hbm, 602, rfl⟩
abbrev main_v492 : Ref sig .tc := ⟨.hbm, 603, rfl⟩
abbrev main_call17_cst : Ref sig .tc := ⟨.hbm, 604, rfl⟩
abbrev main_call17_v0 : Ref sig .tc := ⟨.hbm, 605, rfl⟩
abbrev main_v493 : Ref sig .tc := ⟨.hbm, 606, rfl⟩
abbrev main_v494 : Ref sig .tc := ⟨.hbm, 607, rfl⟩
abbrev main_v495 : Ref sig .tc := ⟨.hbm, 608, rfl⟩
abbrev main_v496 : Ref sig .tc := ⟨.hbm, 609, rfl⟩
abbrev main_v497 : Ref sig .tc := ⟨.hbm, 610, rfl⟩
abbrev main_v498 : Ref sig .tc := ⟨.hbm, 611, rfl⟩
abbrev main_v499 : Ref sig .tc := ⟨.hbm, 612, rfl⟩
abbrev main_v500 : Ref sig .tc := ⟨.hbm, 613, rfl⟩
abbrev main_v501 : Ref sig .tc := ⟨.hbm, 614, rfl⟩
abbrev main_v502 : Ref sig .tc := ⟨.hbm, 615, rfl⟩
abbrev main_v503 : Ref sig .tc := ⟨.hbm, 616, rfl⟩
abbrev main_v504 : Ref sig .tc := ⟨.hbm, 617, rfl⟩
abbrev main_v505 : Ref sig .tc := ⟨.hbm, 618, rfl⟩
abbrev main_cst_70 : Ref sig .tc := ⟨.hbm, 619, rfl⟩
abbrev main_v506 : Ref sig .tc := ⟨.hbm, 620, rfl⟩
abbrev main_v507 : Ref sig .tc := ⟨.hbm, 621, rfl⟩
abbrev main_cst_71 : Ref sig .tc := ⟨.hbm, 622, rfl⟩
abbrev main_v508 : Ref sig .tc := ⟨.hbm, 623, rfl⟩
abbrev main_v509 : Ref sig .tc := ⟨.hbm, 624, rfl⟩
abbrev main_v510 : Ref sig .tc := ⟨.hbm, 625, rfl⟩
abbrev main_v511 : Ref sig .tc := ⟨.hbm, 626, rfl⟩
abbrev main_v512 : Ref sig .tc := ⟨.hbm, 627, rfl⟩
abbrev main_c_72 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_v516 : Ref sig .tc := ⟨.hbm, 632, rfl⟩
abbrev main_v517 : Ref sig .tc := ⟨.hbm, 633, rfl⟩
abbrev main_cst_73 : Ref sig .tc := ⟨.hbm, 634, rfl⟩
abbrev main_v518 : Ref sig .tc := ⟨.hbm, 635, rfl⟩
abbrev main_cst_74 : Ref sig .tc := ⟨.hbm, 636, rfl⟩
abbrev main_v519 : Ref sig .tc := ⟨.hbm, 637, rfl⟩
abbrev main_v520 : Ref sig .tc := ⟨.hbm, 638, rfl⟩
abbrev main_cst_75 : Ref sig .tc := ⟨.hbm, 639, rfl⟩
abbrev main_v521 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_v525 : Ref sig .tc := ⟨.hbm, 644, rfl⟩
abbrev main_v526 : Ref sig .tc := ⟨.hbm, 645, rfl⟩
abbrev main_v527 : Ref sig .tc := ⟨.hbm, 646, rfl⟩
abbrev main_v528 : Ref sig .tc := ⟨.hbm, 647, rfl⟩
abbrev main_v529 : Ref sig .tc := ⟨.hbm, 648, rfl⟩
abbrev main_v530 : Ref sig .tc := ⟨.hbm, 649, rfl⟩
abbrev main_call18_cst : Ref sig .tc := ⟨.hbm, 650, rfl⟩
abbrev main_call18_v0 : Ref sig .tc := ⟨.hbm, 651, rfl⟩
abbrev main_v531 : Ref sig .tc := ⟨.hbm, 652, rfl⟩
abbrev main_v532 : Ref sig .tc := ⟨.hbm, 653, rfl⟩
abbrev main_v533 : Ref sig .tc := ⟨.hbm, 654, rfl⟩
abbrev main_v534 : Ref sig .tc := ⟨.hbm, 655, rfl⟩
abbrev main_v535 : Ref sig .tc := ⟨.hbm, 656, rfl⟩
abbrev main_v536 : Ref sig .tc := ⟨.hbm, 657, rfl⟩
abbrev main_v537 : Ref sig .tc := ⟨.hbm, 658, rfl⟩
abbrev main_v538 : Ref sig .tc := ⟨.hbm, 659, rfl⟩
abbrev main_v539 : Ref sig .tc := ⟨.hbm, 660, rfl⟩
abbrev main_v540 : Ref sig .tc := ⟨.hbm, 661, rfl⟩
abbrev main_v541 : Ref sig .tc := ⟨.hbm, 662, rfl⟩
abbrev main_v542 : Ref sig .tc := ⟨.hbm, 663, rfl⟩
abbrev main_v543 : Ref sig .tc := ⟨.hbm, 664, rfl⟩
abbrev main_v544 : Ref sig .tc := ⟨.hbm, 665, rfl⟩
abbrev main_v545 : Ref sig .tc := ⟨.hbm, 666, rfl⟩
abbrev main_v546 : Ref sig .tc := ⟨.hbm, 667, rfl⟩
abbrev main_v547 : Ref sig .tc := ⟨.hbm, 668, rfl⟩
abbrev main_v548 : Ref sig .tc := ⟨.hbm, 669, rfl⟩
abbrev main_v549 : Ref sig .tc := ⟨.hbm, 670, rfl⟩
abbrev main_call19_cst : Ref sig .tc := ⟨.hbm, 671, rfl⟩
abbrev main_call19_v0 : Ref sig .tc := ⟨.hbm, 672, rfl⟩
abbrev main_v550 : Ref sig .tc := ⟨.hbm, 673, rfl⟩
abbrev main_v551 : Ref sig .tc := ⟨.hbm, 674, rfl⟩
abbrev main_v552 : Ref sig .tc := ⟨.hbm, 675, rfl⟩
abbrev main_v553 : Ref sig .tc := ⟨.hbm, 676, rfl⟩
abbrev main_v554 : Ref sig .tc := ⟨.hbm, 677, rfl⟩
abbrev main_v555 : Ref sig .tc := ⟨.hbm, 678, rfl⟩
abbrev main_v556 : Ref sig .tc := ⟨.hbm, 679, rfl⟩
abbrev main_v557 : Ref sig .tc := ⟨.hbm, 680, rfl⟩
abbrev main_v558 : Ref sig .tc := ⟨.hbm, 681, rfl⟩
abbrev main_v559 : Ref sig .tc := ⟨.hbm, 682, rfl⟩
abbrev main_v560 : Ref sig .tc := ⟨.hbm, 683, rfl⟩
abbrev main_v561 : Ref sig .tc := ⟨.hbm, 684, rfl⟩
abbrev main_v562 : Ref sig .tc := ⟨.hbm, 685, rfl⟩
abbrev main_cst_76 : Ref sig .tc := ⟨.hbm, 686, rfl⟩
abbrev main_v563 : Ref sig .tc := ⟨.hbm, 687, rfl⟩
abbrev main_v564 : Ref sig .tc := ⟨.hbm, 688, rfl⟩
abbrev main_cst_77 : Ref sig .tc := ⟨.hbm, 689, rfl⟩
abbrev main_v565 : Ref sig .tc := ⟨.hbm, 690, rfl⟩
abbrev main_v566 : Ref sig .tc := ⟨.hbm, 691, rfl⟩
abbrev main_v567 : Ref sig .tc := ⟨.hbm, 692, rfl⟩
abbrev main_v568 : Ref sig .tc := ⟨.hbm, 693, rfl⟩
abbrev main_v569 : Ref sig .tc := ⟨.hbm, 694, rfl⟩
abbrev main_v570 : Ref sig .tc := ⟨.hbm, 695, rfl⟩

abbrev nD : Nat := 1
abbrev τ : Topo := Topo.v7x

variable {F : FTy → Type} [FloatOps F]

class Facts₀ : Prop where
  bcast_S_S5 : S_.BroadcastsInDim S5 (![] : Fin 0 → Fin S5.rank)
  bcast_S5_S5x1_0 : S5.BroadcastsInDim S5x1 (![0] : Fin 1 → Fin S5x1.rank)
  reducesTo_S64x256x64x5_S64x256_d2_3 : S64x256x64x5.ReducesTo [2, 3] S64x256
  h_S_ : 0 < S_.numel
  bcast_S_S64x256 : S_.BroadcastsInDim S64x256 (![] : Fin 0 → Fin S64x256.rank)
  slices_S10x16x256_S1x16x256_0_0_0 : S10x16x256.Slices ![0, 0, 0] S1x16x256
  shapeCasts_S1x16x256_S16x256 : S1x16x256.ShapeCasts S16x256
  transposes_S16x256_S256x16_1_0 : S16x256.Transposes [1, 0] S256x16
  slices_S10x16_S1x16_0_0 : S10x16.Slices ![0, 0] S1x16
  shapeCasts_S1x16_S16 : S1x16.ShapeCasts S16
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  bcast_S_S64x16 : S_.BroadcastsInDim S64x16 (![] : Fin 0 → Fin S64x16.rank)
  slices_S10x256x16_S1x256x16_0_0_0 : S10x256x16.Slices ![0, 0, 0] S1x256x16
  shapeCasts_S1x256x16_S256x16 : S1x256x16.ShapeCasts S256x16
  transposes_S256x16_S16x256_1_0 : S256x16.Transposes [1, 0] S16x256
  slices_S10x256_S1x256_0_0 : S10x256.Slices ![0, 0] S1x256
  shapeCasts_S1x256_S256 : S1x256.ShapeCasts S256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S64x256_S64x256x1x1_0_1 : S64x256.BroadcastsInDim S64x256x1x1 (![0, 1] : Fin 2 → Fin S64x256x1x1.rank)
  bcast_S64x256x1x1_S64x256x64x5_0_1_2_3 : S64x256x1x1.BroadcastsInDim S64x256x64x5 (![0, 1, 2, 3] : Fin 4 → Fin S64x256x64x5.rank)
  bcast_S_S6 : S_.BroadcastsInDim S6 (![] : Fin 0 → Fin S6.rank)
  bcast_S6_S6x1_0 : S6.BroadcastsInDim S6x1 (![0] : Fin 1 → Fin S6x1.rank)
  reducesTo_S64x256x64x6_S64x256_d2_3 : S64x256x64x6.ReducesTo [2, 3] S64x256
  slices_S10x16x256_S1x16x256_1_0_0 : S10x16x256.Slices ![1, 0, 0] S1x16x256
  slices_S10x16_S1x16_1_0 : S10x16.Slices ![1, 0] S1x16
  slices_S10x256x16_S1x256x16_1_0_0 : S10x256x16.Slices ![1, 0, 0] S1x256x16
  slices_S10x256_S1x256_1_0 : S10x256.Slices ![1, 0] S1x256
  bcast_S64x256x1x1_S64x256x64x6_0_1_2_3 : S64x256x1x1.BroadcastsInDim S64x256x64x6 (![0, 1, 2, 3] : Fin 4 → Fin S64x256x64x6.rank)
  bcast_S_S4 : S_.BroadcastsInDim S4 (![] : Fin 0 → Fin S4.rank)
  bcast_S4_S4x1_0 : S4.BroadcastsInDim S4x1 (![0] : Fin 1 → Fin S4x1.rank)
  reducesTo_S64x256x64x4_S64x256_d2_3 : S64x256x64x4.ReducesTo [2, 3] S64x256
  slices_S10x16x256_S1x16x256_2_0_0 : S10x16x256.Slices ![2, 0, 0] S1x16x256
  slices_S10x16_S1x16_2_0 : S10x16.Slices ![2, 0] S1x16
  slices_S10x256x16_S1x256x16_2_0_0 : S10x256x16.Slices ![2, 0, 0] S1x256x16
  slices_S10x256_S1x256_2_0 : S10x256.Slices ![2, 0] S1x256
  bcast_S64x256x1x1_S64x256x64x4_0_1_2_3 : S64x256x1x1.BroadcastsInDim S64x256x64x4 (![0, 1, 2, 3] : Fin 4 → Fin S64x256x64x4.rank)
  slices_S10x16x256_S1x16x256_3_0_0 : S10x16x256.Slices ![3, 0, 0] S1x16x256
  slices_S10x16_S1x16_3_0 : S10x16.Slices ![3, 0] S1x16
  slices_S10x256x16_S1x256x16_3_0_0 : S10x256x16.Slices ![3, 0, 0] S1x256x16
  slices_S10x256_S1x256_3_0 : S10x256.Slices ![3, 0] S1x256
  slices_S10x16x256_S1x16x256_4_0_0 : S10x16x256.Slices ![4, 0, 0] S1x16x256
  slices_S10x16_S1x16_4_0 : S10x16.Slices ![4, 0] S1x16
  slices_S10x256x16_S1x256x16_4_0_0 : S10x256x16.Slices ![4, 0, 0] S1x256x16
  slices_S10x256_S1x256_4_0 : S10x256.Slices ![4, 0] S1x256
  slices_S10x16x256_S1x16x256_5_0_0 : S10x16x256.Slices ![5, 0, 0] S1x16x256
  slices_S10x16_S1x16_5_0 : S10x16.Slices ![5, 0] S1x16
  slices_S10x256x16_S1x256x16_5_0_0 : S10x256x16.Slices ![5, 0, 0] S1x256x16
  slices_S10x256_S1x256_5_0 : S10x256.Slices ![5, 0] S1x256
  slices_S10x16x256_S1x16x256_6_0_0 : S10x16x256.Slices ![6, 0, 0] S1x16x256
  slices_S10x16_S1x16_6_0 : S10x16.Slices ![6, 0] S1x16
  slices_S10x256x16_S1x256x16_6_0_0 : S10x256x16.Slices ![6, 0, 0] S1x256x16
  slices_S10x256_S1x256_6_0 : S10x256.Slices ![6, 0] S1x256
  slices_S10x16x256_S1x16x256_7_0_0 : S10x16x256.Slices ![7, 0, 0] S1x16x256
  slices_S10x16_S1x16_7_0 : S10x16.Slices ![7, 0] S1x16
  slices_S10x256x16_S1x256x16_7_0_0 : S10x256x16.Slices ![7, 0, 0] S1x256x16
  slices_S10x256_S1x256_7_0 : S10x256.Slices ![7, 0] S1x256
  slices_S10x16x256_S1x16x256_8_0_0 : S10x16x256.Slices ![8, 0, 0] S1x16x256
  slices_S10x16_S1x16_8_0 : S10x16.Slices ![8, 0] S1x16
  slices_S10x256x16_S1x256x16_8_0_0 : S10x256x16.Slices ![8, 0, 0] S1x256x16
  slices_S10x256_S1x256_8_0 : S10x256.Slices ![8, 0] S1x256
  slices_S10x16x256_S1x16x256_9_0_0 : S10x16x256.Slices ![9, 0, 0] S1x16x256
  slices_S10x16_S1x16_9_0 : S10x16.Slices ![9, 0] S1x16
  slices_S10x256x16_S1x256x16_9_0_0 : S10x256x16.Slices ![9, 0, 0] S1x256x16
  slices_S10x256_S1x256_9_0 : S10x256.Slices ![9, 0] S1x256
  concatenates_S64x256x64x5_S64x256x64x6_S64x256x64x4_S64x256x64x6_S64x256x64x4_S64x256x64x5_S64x256x64x6_S64x256x64x4_S64x256x64x6_S64x256x64x4_S64x256x64x50_d3 : Shape.Concatenates [S64x256x64x5, S64x256x64x6, S64x256x64x4, S64x256x64x6, S64x256x64x4, S64x256x64x5, S64x256x64x6, S64x256x64x4, S64x256x64x6, S64x256x64x4] S64x256x64x50 3
  gather_S64x256x64x50_S5x1_S64x256x64x5_012_3_n_n_3_1_64256641_wf : GatherDims.WF S64x256x64x50 S5x1 S64x256x64x5 [0, 1, 2] [3] [] [3] [] 1 ![64, 256, 64, 1]
  dot_S64x256_S256x16_S64x16_1_0_0_1_n_n_wf : DotDims.WF S64x256 S256x16 S64x16 [1] [0] [0] [1] [] []
  dot_S64x16_S16x256_S64x256_1_0_0_1_n_n_wf : DotDims.WF S64x16 S16x256 S64x256 [1] [0] [0] [1] [] []
  gather_S64x256x64x50_S6x1_S64x256x64x6_012_3_n_n_3_1_64256641_wf : GatherDims.WF S64x256x64x50 S6x1 S64x256x64x6 [0, 1, 2] [3] [] [3] [] 1 ![64, 256, 64, 1]
  gather_S64x256x64x50_S4x1_S64x256x64x4_012_3_n_n_3_1_64256641_wf : GatherDims.WF S64x256x64x50 S4x1 S64x256x64x4 [0, 1, 2] [3] [] [3] [] 1 ![64, 256, 64, 1]

variable [Facts₀]

def gather_S64x256x64x50_S5x1_S64x256x64x5_012_3_n_n_3_1_64256641 : GatherDims S64x256x64x50 S5x1 S64x256x64x5 where
  offsetDims := [0, 1, 2]
  collapsedSliceDims := [3]
  operandBatchingDims := []
  startIndicesBatchingDims := []
  startIndexMap := [3]
  indexVectorDim := 1
  sliceSizes := ![64, 256, 64, 1]
  wf := gather_S64x256x64x50_S5x1_S64x256x64x5_012_3_n_n_3_1_64256641_wf
def dot_S64x256_S256x16_S64x16_1_0_0_1_n_n : DotDims S64x256 S256x16 S64x16 where
  lhsContracting := [1]
  rhsContracting := [0]
  lhsNonContracting := [0]
  rhsNonContracting := [1]
  lhsBatch := []
  rhsBatch := []
  wf := dot_S64x256_S256x16_S64x16_1_0_0_1_n_n_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf
def gather_S64x256x64x50_S6x1_S64x256x64x6_012_3_n_n_3_1_64256641 : GatherDims S64x256x64x50 S6x1 S64x256x64x6 where
  offsetDims := [0, 1, 2]
  collapsedSliceDims := [3]
  operandBatchingDims := []
  startIndicesBatchingDims := []
  startIndexMap := [3]
  indexVectorDim := 1
  sliceSizes := ![64, 256, 64, 1]
  wf := gather_S64x256x64x50_S6x1_S64x256x64x6_012_3_n_n_3_1_64256641_wf
def gather_S64x256x64x50_S4x1_S64x256x64x4_012_3_n_n_3_1_64256641 : GatherDims S64x256x64x50 S4x1 S64x256x64x4 where
  offsetDims := [0, 1, 2]
  collapsedSliceDims := [3]
  operandBatchingDims := []
  startIndicesBatchingDims := []
  startIndexMap := [3]
  indexVectorDim := 1
  sliceSizes := ![64, 256, 64, 1]
  wf := gather_S64x256x64x50_S4x1_S64x256x64x4_012_3_n_n_3_1_64256641_wf

class Facts : Prop extends Facts₀ where

variable [Facts]
-- ==== Proof.ClaimsKernel.lean ====
import proofs.«137943_j1228360647386_1_alg».proof.Defs
import proofs.«137943_j1228360647386_1_alg».proof.Proof.Gen.Kernel.Frame
import proofs.«137943_j1228360647386_1_alg».proof.Proof.Gen.KernelIdeal.Frame
import proofs.«137943_j1228360647386_1_alg».proof.Proof.Gen.Pre_finite_inputs

noncomputable section

namespace Cert.Proof.Claims

open Idealize.ShloMosaic Idealize.SL.Sem

attribute [local instance] Cert.Kernel.Gen.facts Cert.KernelIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

theorem preserves : Cert.preserves_Kernel_KernelIdeal :=
  ⟨IdealRules.named_const.statement Cert.KernelIdeal.κ "inv_320" .f32 0x3B4CCCCD#32 ((1 / 320 : ℝ) : EReal) rfl,
   IdealRules.named_const.statement Cert.KernelIdeal.κ "inv_384" .f32 0x3B2AAAAB#32 ((1 / 384 : ℝ) : EReal) rfl,
   IdealRules.named_const.statement Cert.KernelIdeal.κ "inv_384" .f32 0x3B2AAAAB#32 ((1 / 384 : ℝ) : EReal) rfl,
   IdealRules.named_const.statement Cert.KernelIdeal.κ "inv_320" .f32 0x3B4CCCCD#32 ((1 / 320 : ℝ) : EReal) rfl,
   IdealRules.named_const.statement Cert.KernelIdeal.κ "inv_384" .f32 0x3B2AAAAB#32 ((1 / 384 : ℝ) : EReal) rfl,
   IdealRules.named_const.statement Cert.KernelIdeal.κ "inv_384" .f32 0x3B2AAAAB#32 ((1 / 384 : ℝ) : EReal) rfl⟩

end Cert.Proof.Claims

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def hidden (W1 : Fin 16 → Fin 256 → EReal) (b1 : Fin 16 → EReal) (v : Fin 256 → EReal) (h : Fin 16) : EReal :=
  max ((∑ c : Fin 256, v c * W1 h c) + b1 h) 0

def mlp (W1 : Fin 16 → Fin 256 → EReal) (b1 : Fin 16 → EReal) (W2 : Fin 256 → Fin 16 → EReal) (b2 : Fin 256 → EReal)
    (v : Fin 256 → EReal) (c : Fin 256) : EReal :=
  (∑ h : Fin 16, hidden W1 b1 v h * W2 c h) + b2 c

def gate (W1 : Fin 16 → Fin 256 → EReal) (b1 : Fin 16 → EReal) (W2 : Fin 256 → Fin 16 → EReal) (b2 : Fin 256 → EReal)
    (a mx : Fin 256 → EReal) (c : Fin 256) : EReal :=
  Ideal.logistic (mlp W1 b1 W2 b2 a c + mlp W1 b1 W2 b2 mx c)

def poolSum {k : ℕ} (xs : Fin 256 → Fin 64 → Fin k → EReal) (c : Fin 256) : EReal :=
  ∑ q : Fin k, ∑ t : Fin 64, xs c t q

def poolMax {k : ℕ} (xs : Fin 256 → Fin 64 → Fin k → EReal) (c : Fin 256) : EReal :=
  ⨆ q : Fin k, ⨆ t : Fin 64, xs c t q

def rowGate {k : ℕ} (r : EReal) (W1 : Fin 16 → Fin 256 → EReal) (b1 : Fin 16 → EReal) (W2 : Fin 256 → Fin 16 → EReal)
    (b2 : Fin 256 → EReal) (xs : Fin 256 → Fin 64 → Fin k → EReal) (c : Fin 256) : EReal :=
  gate W1 b1 W2 b2 (fun c' => poolSum xs c' * r) (poolMax xs) c

def partOut {N k : ℕ} (p : Fin 10) (r : EReal)
    (W1 : (⟨3, ![10, 16, 256]⟩ : Shape).Idx → EReal) (b1 : (⟨2, ![10, 16]⟩ : Shape).Idx → EReal)
    (W2 : (⟨3, ![10, 256, 16]⟩ : Shape).Idx → EReal) (b2 : (⟨2, ![10, 256]⟩ : Shape).Idx → EReal)
    (xs : (⟨4, ![N, 256, 64, k]⟩ : Shape).Idx → EReal) : (⟨4, ![N, 256, 64, k]⟩ : Shape).Idx → EReal :=
  fun i => xs i * rowGate r (fun h c => W1 (ix3 p h c)) (fun h => b1 (ix2 p h)) (fun c h => W2 (ix3 p c h))
    (fun c => b2 (ix2 p c)) (fun c t q => xs (ix4 (i 0) c t q)) (i 1)

def pick {N k : ℕ} (cols : Fin k → Fin 50) (x : (⟨4, ![N, 256, 64, 50]⟩ : Shape).Idx → EReal) :
    (⟨4, ![N, 256, 64, k]⟩ : Shape).Idx → EReal :=
  fun i => x (ix4 (i 0) (i 1) (i 2) (cols (i 3)))

def cols0 : Fin 5 → Fin 50 := ![0, 1, 2, 3, 20]
def cols1 : Fin 6 → Fin 50 := ![8, 9, 10, 11, 23, 24]
def cols2 : Fin 4 → Fin 50 := ![16, 17, 18, 19]
def cols3 : Fin 6 → Fin 50 := ![4, 5, 6, 7, 21, 22]
def cols4 : Fin 4 → Fin 50 := ![12, 13, 14, 15]
def cols5 : Fin 5 → Fin 50 := ![25, 26, 27, 28, 45]
def cols6 : Fin 6 → Fin 50 := ![33, 34, 35, 36, 48, 49]
def cols7 : Fin 4 → Fin 50 := ![41, 42, 43, 44]
def cols8 : Fin 6 → Fin 50 := ![29, 30, 31, 32, 46, 47]
def cols9 : Fin 4 → Fin 50 := ![37, 38, 39, 40]

def r5 : EReal := ((1 / 320 : ℝ) : EReal)
def r6 : EReal := ((1 / 384 : ℝ) : EReal)
def r4 : EReal := ((1 / 256 : ℝ) : EReal)

def part {N k : ℕ} (p : Fin 10) (r : EReal) (cols : Fin k → Fin 50)
    (x : (⟨4, ![N, 256, 64, 50]⟩ : Shape).Idx → EReal)
    (W1 : (⟨3, ![10, 16, 256]⟩ : Shape).Idx → EReal) (b1 : (⟨2, ![10, 16]⟩ : Shape).Idx → EReal)
    (W2 : (⟨3, ![10, 256, 16]⟩ : Shape).Idx → EReal) (b2 : (⟨2, ![10, 256]⟩ : Shape).Idx → EReal) :
    (⟨4, ![N, 256, 64, k]⟩ : Shape).Idx → EReal :=
  partOut p r W1 b1 W2 b2 (pick cols x)

def parts {N : ℕ} (x : (⟨4, ![N, 256, 64, 50]⟩ : Shape).Idx → EReal)
    (W1 : (⟨3, ![10, 16, 256]⟩ : Shape).Idx → EReal) (b1 : (⟨2, ![10, 16]⟩ : Shape).Idx → EReal)
    (W2 : (⟨3, ![10, 256, 16]⟩ : Shape).Idx → EReal) (b2 : (⟨2, ![10, 256]⟩ : Shape).Idx → EReal) :
    List ((s : Shape) × (s.Idx → EReal)) :=
  [⟨⟨4, ![N, 256, 64, 5]⟩, part 0 r5 cols0 x W1 b1 W2 b2⟩, ⟨⟨4, ![N, 256, 64, 6]⟩, part 1 r6 cols1 x W1 b1 W2 b2⟩,
   ⟨⟨4, ![N, 256, 64, 4]⟩, part 2 r4 cols2 x W1 b1 W2 b2⟩, ⟨⟨4, ![N, 256, 64, 6]⟩, part 3 r6 cols3 x W1 b1 W2 b2⟩,
   ⟨⟨4, ![N, 256, 64, 4]⟩, part 4 r4 cols4 x W1 b1 W2 b2⟩, ⟨⟨4, ![N, 256, 64, 5]⟩, part 5 r5 cols5 x W1 b1 W2 b2⟩,
   ⟨⟨4, ![N, 256, 64, 6]⟩, part 6 r6 cols6 x W1 b1 W2 b2⟩, ⟨⟨4, ![N, 256, 64, 4]⟩, part 7 r4 cols7 x W1 b1 W2 b2⟩,
   ⟨⟨4, ![N, 256, 64, 6]⟩, part 8 r6 cols8 x W1 b1 W2 b2⟩, ⟨⟨4, ![N, 256, 64, 4]⟩, part 9 r4 cols9 x W1 b1 W2 b2⟩]

def G (h : Shape.Concatenates [⟨4, ![64, 256, 64, 5]⟩, ⟨4, ![64, 256, 64, 6]⟩, ⟨4, ![64, 256, 64, 4]⟩, ⟨4, ![64, 256, 64, 6]⟩,
      ⟨4, ![64, 256, 64, 4]⟩, ⟨4, ![64, 256, 64, 5]⟩, ⟨4, ![64, 256, 64, 6]⟩, ⟨4, ![64, 256, 64, 4]⟩, ⟨4, ![64, 256, 64, 6]⟩,
      ⟨4, ![64, 256, 64, 4]⟩] ⟨4, ![64, 256, 64, 50]⟩ 3)
    (x : (⟨4, ![64, 256, 64, 50]⟩ : Shape).Idx → EReal)
    (W1 : (⟨3, ![10, 16, 256]⟩ : Shape).Idx → EReal) (b1 : (⟨2, ![10, 16]⟩ : Shape).Idx → EReal)
    (W2 : (⟨3, ![10, 256, 16]⟩ : Shape).Idx → EReal) (b2 : (⟨2, ![10, 256]⟩ : Shape).Idx → EReal) :
    (⟨4, ![64, 256, 64, 50]⟩ : Shape).Idx → EReal :=
  concatenate ⟨4, ![64, 256, 64, 50]⟩ 3 (parts x W1 b1 W2 b2) h

end Cert.Spec

end
-- ==== Proof.SpecPiece.lean ====
import proofs.«137943_j1228360647386_1_alg».proof.Proof.Spec
import Idealize.ShloMosaic.Lib.Pipeline.Value

noncomputable section

namespace Cert.Spec

open Idealize.ShloMosaic Idealize.ShloMosaic.ValueIdx

theorem piece {N : ℕ} (h : Shape.Concatenates [⟨4, ![N, 256, 64, 5]⟩, ⟨4, ![N, 256, 64, 6]⟩, ⟨4, ![N, 256, 64, 4]⟩, ⟨4, ![N, 256, 64, 6]⟩, ⟨4, ![N, 256, 64, 4]⟩, ⟨4, ![N, 256, 64, 5]⟩, ⟨4, ![N, 256, 64, 6]⟩, ⟨4, ![N, 256, 64, 4]⟩, ⟨4, ![N, 256, 64, 6]⟩, ⟨4, ![N, 256, 64, 4]⟩] ⟨4, ![N, 256, 64, 50]⟩ 3)
    (x : (⟨4, ![N, 256, 64, 50]⟩ : Shape).Idx → EReal) (W1 : (⟨3, ![10, 16, 256]⟩ : Shape).Idx → EReal)
    (b1 : (⟨2, ![10, 16]⟩ : Shape).Idx → EReal) (W2 : (⟨3, ![10, 256, 16]⟩ : Shape).Idx → EReal)
    (b2 : (⟨2, ![10, 256]⟩ : Shape).Idx → EReal)
    (k : ℕ) (hk : k < (parts x W1 b1 W2 b2).length) (kk : ℕ) (f : (⟨4, ![N, 256, 64, kk]⟩ : Shape).Idx → EReal)
    (hxk : (parts x W1 b1 W2 b2)[k] = ⟨⟨4, ![N, 256, 64, kk]⟩, f⟩) (pre : ℕ)
    (hpre : ((((parts x W1 b1 W2 b2).take k).map (·.1)).map fun s =>
      if h : s.rank = (⟨4, ![N, 256, 64, 50]⟩ : Shape).rank then s.size ((3 : Fin 4).cast h.symm) else 0).sum = pre)
    (n : Fin N) (c : Fin 256) (t : Fin 64) (q : Fin kk) (hlt : pre + q.val < 50) :
    concatenate ⟨4, ![N, 256, 64, 50]⟩ 3 (parts x W1 b1 W2 b2) h (ix4 n c t ⟨pre + q.val, hlt⟩) = f (ix4 n c t q) :=
  concatenate_apply_piece (t := ⟨4, ![N, 256, 64, 50]⟩) (3 : Fin 4) (parts x W1 b1 W2 b2)
    (show Shape.Concatenates ((parts x W1 b1 W2 b2).map (·.1)) ⟨4, ![N, 256, 64, 50]⟩ 3 from h)
    (ix4 n c t ⟨pre + q.val, hlt⟩) k hk ⟨4, ![N, 256, 64, kk]⟩ f hxk rfl pre hpre (ix4 n c t q)
    (fun b hb => by
      match b with
      | ⟨0, _⟩ => rfl
      | ⟨1, _⟩ => rfl
      | ⟨2, _⟩ => rfl
      | ⟨3, _⟩ => exact absurd rfl hb) rfl

end Cert.Spec

end
-- ==== Proof.SpecPieces.lean ====
import proofs.«137943_j1228360647386_1_alg».proof.Proof.SpecPiece

noncomputable section

namespace Cert.Spec

open Idealize.ShloMosaic Idealize.ShloMosaic.ValueIdx

theorem part_row {N M k : ℕ} (p : Fin 10) (r : EReal) (cols : Fin k → Fin 50)
    (x : (⟨4, ![N, 256, 64, 50]⟩ : Shape).Idx → EReal) (y : (⟨4, ![M, 256, 64, 50]⟩ : Shape).Idx → EReal)
    (W1 : (⟨3, ![10, 16, 256]⟩ : Shape).Idx → EReal) (b1 : (⟨2, ![10, 16]⟩ : Shape).Idx → EReal)
    (W2 : (⟨3, ![10, 256, 16]⟩ : Shape).Idx → EReal) (b2 : (⟨2, ![10, 256]⟩ : Shape).Idx → EReal)
    (n : Fin N) (n' : Fin M) (hrow : ∀ c t j, x (ix4 n c t j) = y (ix4 n' c t j)) (c : Fin 256) (t : Fin 64) (q : Fin k) :
    part p r cols x W1 b1 W2 b2 (ix4 n c t q) = part p r cols y W1 b1 W2 b2 (ix4 n' c t q) := by
  show x (ix4 n c t (cols q)) * rowGate r _ _ _ _ (fun c' t' q' => x (ix4 n c' t' (cols q'))) c
    = y (ix4 n' c t (cols q)) * rowGate r _ _ _ _ (fun c' t' q' => y (ix4 n' c' t' (cols q'))) c
  simp only [hrow]

theorem joint_cases (j : Fin 50) (P : Fin 50 → Prop)
    (h0 : ∀ q : Fin 5, ∀ hlt, P ⟨0 + q.val, hlt⟩) (h1 : ∀ q : Fin 6, ∀ hlt, P ⟨5 + q.val, hlt⟩)
    (h2 : ∀ q : Fin 4, ∀ hlt, P ⟨11 + q.val, hlt⟩) (h3 : ∀ q : Fin 6, ∀ hlt, P ⟨15 + q.val, hlt⟩)
    (h4 : ∀ q : Fin 4, ∀ hlt, P ⟨21 + q.val, hlt⟩) (h5 : ∀ q : Fin 5, ∀ hlt, P ⟨25 + q.val, hlt⟩)
    (h6 : ∀ q : Fin 6, ∀ hlt, P ⟨30 + q.val, hlt⟩) (h7 : ∀ q : Fin 4, ∀ hlt, P ⟨36 + q.val, hlt⟩)
    (h8 : ∀ q : Fin 6, ∀ hlt, P ⟨40 + q.val, hlt⟩) (h9 : ∀ q : Fin 4, ∀ hlt, P ⟨46 + q.val, hlt⟩) : P j := by
  obtain ⟨v, hv⟩ := j
  by_cases c0 : v < 5
  · have := h0 ⟨v - 0, by omega⟩ (by simp only []; omega); simpa [show 0 + (v - 0) = v by omega] using this
  by_cases c1 : v < 11
  · have := h1 ⟨v - 5, by omega⟩ (by simp only []; omega); simpa [show 5 + (v - 5) = v by omega] using this
  by_cases c2 : v < 15
  · have := h2 ⟨v - 11, by omega⟩ (by simp only []; omega); simpa [show 11 + (v - 11) = v by omega] using this
  by_cases c3 : v < 21
  · have := h3 ⟨v - 15, by omega⟩ (by simp only []; omega); simpa [show 15 + (v - 15) = v by omega] using this
  by_cases c4 : v < 25
  · have := h4 ⟨v - 21, by omega⟩ (by simp only []; omega); simpa [show 21 + (v - 21) = v by omega] using this
  by_cases c5 : v < 30
  · have := h5 ⟨v - 25, by omega⟩ (by simp only []; omega); simpa [show 25 + (v - 25) = v by omega] using this
  by_cases c6 : v < 36
  · have := h6 ⟨v - 30, by omega⟩ (by simp only []; omega); simpa [show 30 + (v - 30) = v by omega] using this
  by_cases c7 : v < 40
  · have := h7 ⟨v - 36, by omega⟩ (by simp only []; omega); simpa [show 36 + (v - 36) = v by omega] using this
  by_cases c8 : v < 46
  · have := h8 ⟨v - 40, by omega⟩ (by simp only []; omega); simpa [show 40 + (v - 40) = v by omega] using this
  · have := h9 ⟨v - 46, by omega⟩ (by simp only []; omega); simpa [show 46 + (v - 46) = v by omega] using this

theorem parts_row {N M : ℕ} (hN : Shape.Concatenates [⟨4, ![N, 256, 64, 5]⟩, ⟨4, ![N, 256, 64, 6]⟩, ⟨4, ![N, 256, 64, 4]⟩, ⟨4, ![N, 256, 64, 6]⟩, ⟨4, ![N, 256, 64, 4]⟩, ⟨4, ![N, 256, 64, 5]⟩, ⟨4, ![N, 256, 64, 6]⟩, ⟨4, ![N, 256, 64, 4]⟩, ⟨4, ![N, 256, 64, 6]⟩, ⟨4, ![N, 256, 64, 4]⟩] ⟨4, ![N, 256, 64, 50]⟩ 3)
    (hM : Shape.Concatenates [⟨4, ![M, 256, 64, 5]⟩, ⟨4, ![M, 256, 64, 6]⟩, ⟨4, ![M, 256, 64, 4]⟩, ⟨4, ![M, 256, 64, 6]⟩, ⟨4, ![M, 256, 64, 4]⟩, ⟨4, ![M, 256, 64, 5]⟩, ⟨4, ![M, 256, 64, 6]⟩, ⟨4, ![M, 256, 64, 4]⟩, ⟨4, ![M, 256, 64, 6]⟩, ⟨4, ![M, 256, 64, 4]⟩] ⟨4, ![M, 256, 64, 50]⟩ 3)
    (x : (⟨4, ![N, 256, 64, 50]⟩ : Shape).Idx → EReal) (y : (⟨4, ![M, 256, 64, 50]⟩ : Shape).Idx → EReal)
    (W1 : (⟨3, ![10, 16, 256]⟩ : Shape).Idx → EReal) (b1 : (⟨2, ![10, 16]⟩ : Shape).Idx → EReal)
    (W2 : (⟨3, ![10, 256, 16]⟩ : Shape).Idx → EReal) (b2 : (⟨2, ![10, 256]⟩ : Shape).Idx → EReal)
    (n : Fin N) (n' : Fin M) (hrow : ∀ c t j, x (ix4 n c t j) = y (ix4 n' c t j)) (c : Fin 256) (t : Fin 64) (j : Fin 50) :
    concatenate ⟨4, ![N, 256, 64, 50]⟩ 3 (parts x W1 b1 W2 b2) hN (ix4 n c t j)
      = concatenate ⟨4, ![M, 256, 64, 50]⟩ 3 (parts y W1 b1 W2 b2) hM (ix4 n' c t j) := by
  have P := piece hN x W1 b1 W2 b2
  have Q := piece hM y W1 b1 W2 b2
  refine joint_cases j (fun j => concatenate ⟨4, ![N, 256, 64, 50]⟩ 3 (parts x W1 b1 W2 b2) hN (ix4 n c t j)
      = concatenate ⟨4, ![M, 256, 64, 50]⟩ 3 (parts y W1 b1 W2 b2) hM (ix4 n' c t j)) ?_ ?_ ?_ ?_ ?_ ?_ ?_ ?_ ?_ ?_
  · intro q hlt; rw [P 0 (by decide : 0 < 10) 5 _ rfl 0 rfl n c t q hlt, Q 0 (by decide : 0 < 10) 5 _ rfl 0 rfl n' c t q hlt]; exact part_row _ _ _ x y _ _ _ _ n n' hrow c t q
  · intro q hlt; rw [P 1 (by decide : 1 < 10) 6 _ rfl 5 rfl n c t q hlt, Q 1 (by decide : 1 < 10) 6 _ rfl 5 rfl n' c t q hlt]; exact part_row _ _ _ x y _ _ _ _ n n' hrow c t q
  · intro q hlt; rw [P 2 (by decide : 2 < 10) 4 _ rfl 11 rfl n c t q hlt, Q 2 (by decide : 2 < 10) 4 _ rfl 11 rfl n' c t q hlt]; exact part_row _ _ _ x y _ _ _ _ n n' hrow c t q
  · intro q hlt; rw [P 3 (by decide : 3 < 10) 6 _ rfl 15 rfl n c t q hlt, Q 3 (by decide : 3 < 10) 6 _ rfl 15 rfl n' c t q hlt]; exact part_row _ _ _ x y _ _ _ _ n n' hrow c t q
  · intro q hlt; rw [P 4 (by decide : 4 < 10) 4 _ rfl 21 rfl n c t q hlt, Q 4 (by decide : 4 < 10) 4 _ rfl 21 rfl n' c t q hlt]; exact part_row _ _ _ x y _ _ _ _ n n' hrow c t q
  · intro q hlt; rw [P 5 (by decide : 5 < 10) 5 _ rfl 25 rfl n c t q hlt, Q 5 (by decide : 5 < 10) 5 _ rfl 25 rfl n' c t q hlt]; exact part_row _ _ _ x y _ _ _ _ n n' hrow c t q
  · intro q hlt; rw [P 6 (by decide : 6 < 10) 6 _ rfl 30 rfl n c t q hlt, Q 6 (by decide : 6 < 10) 6 _ rfl 30 rfl n' c t q hlt]; exact part_row _ _ _ x y _ _ _ _ n n' hrow c t q
  · intro q hlt; rw [P 7 (by decide : 7 < 10) 4 _ rfl 36 rfl n c t q hlt, Q 7 (by decide : 7 < 10) 4 _ rfl 36 rfl n' c t q hlt]; exact part_row _ _ _ x y _ _ _ _ n n' hrow c t q
  · intro q hlt; rw [P 8 (by decide : 8 < 10) 6 _ rfl 40 rfl n c t q hlt, Q 8 (by decide : 8 < 10) 6 _ rfl 40 rfl n' c t q hlt]; exact part_row _ _ _ x y _ _ _ _ n n' hrow c t q
  · intro q hlt; rw [P 9 (by decide : 9 < 10) 4 _ rfl 46 rfl n c t q hlt, Q 9 (by decide : 9 < 10) 4 _ rfl 46 rfl n' c t q hlt]; exact part_row _ _ _ x y _ _ _ _ n n' hrow c t q

end Cert.Spec

end
-- ==== Proof.KernelPart.lean ====
import proofs.«137943_j1228360647386_1_alg».proof.Proof.Gen.KernelIdeal

noncomputable section

namespace Cert.KernelIdeal.Part

open Cert.KernelIdeal Idealize.ShloMosaic Idealize.SL.Sem
open Cert.KernelIdeal.Facts₀

variable {F : FTy → Type} [FloatOps F] [Named F]

def mlpK (w1l : Vec F S1x16x256 .f32) (b1l : Vec F S1x16 .f32) (w2l : Vec F S1x256x16 .f32) (b2l : Vec F S1x256 .f32)
    (v : FVec F S2x256 .f32) : FVec F S2x256 .f32 :=
  addf
    (matmul dot_S2x16_S16x256_S2x256_1_0_0_1_n_n (some .fp32)
      (maximumf
        (addf
          (matmul dot_S2x256_S256x16_S2x16_1_0_0_1_n_n (some .fp32) v
            (transpose S256x16 [1, 0] (shapeCast S16x256 w1l shapeCasts_S1x16x256_S16x256) transposes_S16x256_p1_0_S256x16)
            (constant S2x16 .f32 0x00000000#32))
          (broadcastTo S2x16 (shapeCast S1x16 (shapeCast S16 b1l shapeCasts_S1x16_S16) shapeCasts_S16_S1x16) broadcasts_S1x16_S2x16))
        (broadcast S2x16 (Scalar.ofBits .f32 0x00000000#32)))
      (transpose S16x256 [1, 0] (shapeCast S256x16 w2l shapeCasts_S1x256x16_S256x16) transposes_S256x16_p1_0_S16x256)
      (constant S2x256 .f32 0x00000000#32))
    (broadcastTo S2x256 (shapeCast S1x256 (shapeCast S256 b2l shapeCasts_S1x256_S256) shapeCasts_S256_S1x256) broadcasts_S1x256_S2x256)

def gateK (w1l : Vec F S1x16x256 .f32) (b1l : Vec F S1x16 .f32) (w2l : Vec F S1x256x16 .f32) (b2l : Vec F S1x256 .f32)
    (avg mxv : FVec F S2x256 .f32) : FVec F S2x256 .f32 :=
  logistic (addf (mlpK w1l b1l w2l b2l avg) (mlpK w1l b1l w2l b2l mxv))

def sumK {k : ℕ} (hr1 : (⟨4, ![2, 256, 64, k]⟩ : Shape).Reduces [2] ⟨3, ![2, 256, k]⟩)
    (hr2 : (⟨3, ![2, 256, k]⟩ : Shape).Reduces [2] S2x256) (xs : FVec F ⟨4, ![2, 256, 64, k]⟩ .f32) : FVec F S2x256 .f32 :=
  multiReduction .add [2] S2x256 (multiReduction .add [2] ⟨3, ![2, 256, k]⟩ xs 0x00000000#32 hr1 (.inl rfl) rfl)
    0x00000000#32 hr2 (.inl rfl) rfl

def maxK {k : ℕ} (hr1 : (⟨4, ![2, 256, 64, k]⟩ : Shape).Reduces [2] ⟨3, ![2, 256, k]⟩)
    (hr2 : (⟨3, ![2, 256, k]⟩ : Shape).Reduces [2] S2x256) (xs : FVec F ⟨4, ![2, 256, 64, k]⟩ .f32) : FVec F S2x256 .f32 :=
  multiReduction .maximumf [2] S2x256 (multiReduction .maximumf [2] ⟨3, ![2, 256, k]⟩ xs 0xFF800000#32 hr1 (.inl rfl) rfl)
    0xFF800000#32 hr2 (.inl rfl) rfl

def KPart {k : ℕ} (hr1 : (⟨4, ![2, 256, 64, k]⟩ : Shape).Reduces [2] ⟨3, ![2, 256, k]⟩)
    (hr2 : (⟨3, ![2, 256, k]⟩ : Shape).Reduces [2] S2x256) (hb : S2x256x1x1.Broadcasts ⟨4, ![2, 256, 64, k]⟩)
    (inv : F .f32) (xs : FVec F ⟨4, ![2, 256, 64, k]⟩ .f32)
    (w1l : Vec F S1x16x256 .f32) (b1l : Vec F S1x16 .f32) (w2l : Vec F S1x256x16 .f32) (b2l : Vec F S1x256 .f32) :
    FVec F ⟨4, ![2, 256, 64, k]⟩ .f32 :=
  mulf xs (broadcastTo ⟨4, ![2, 256, 64, k]⟩
    (shapeCast S2x256x1x1
      (gateK w1l b1l w2l b2l (mulf (sumK hr1 hr2 xs) (broadcast S2x256 inv)) (maxK hr1 hr2 xs))
      shapeCasts_S2x256_S2x256x1x1) hb)

end Cert.KernelIdeal.Part

end
-- ==== Proof.Consts.lean ====
import Idealize.ShloMosaic.PureOps.Ideal
import proofs.«137943_j1228360647386_1_alg».proof.Proof.Spec

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_neg_inf : Ideal.ofBits .f32 0xFF800000#32 = ⊥ := by
  simp [Ideal.ofBits, Ideal.ieee]

theorem ofBits_320 : Ideal.ofBits .f32 0x43A00000#32 = ((320 : ℝ) : EReal) := by
  simp [Ideal.ofBits, Ideal.ieee, -EReal.coe_mul]; norm_num

theorem ofBits_384 : Ideal.ofBits .f32 0x43C00000#32 = ((384 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_inv_256 : Ideal.ofBits .f32 998244352#32 = Cert.Spec.r4 := by
  unfold Cert.Spec.r4
  simp [Ideal.ofBits, Ideal.ieee, -EReal.coe_mul]; norm_num

theorem div_320 (a : EReal) : Ideal.div a (Ideal.ofBits .f32 0x43A00000#32) = a * Cert.Spec.r5 := by
  rw [ofBits_320, Ideal.div_coe (by norm_num : (320 : ℝ) ≠ 0)]; unfold Cert.Spec.r5; norm_num

theorem div_384 (a : EReal) : Ideal.div a (Ideal.ofBits .f32 0x43C00000#32) = a * Cert.Spec.r6 := by
  rw [ofBits_384, Ideal.div_coe (by norm_num : (384 : ℝ) ≠ 0)]; unfold Cert.Spec.r6; norm_num

theorem div_256 (a : EReal) : Ideal.div a (Ideal.ofBits .f32 0x43800000#32) = a * Cert.Spec.r4 := by
  rw [ofBits_256, Ideal.div_coe (by norm_num : (256 : ℝ) ≠ 0)]; unfold Cert.Spec.r4; norm_num

end Cert.Consts

end
-- ==== Proof.LibPlainMatmul.lean ====
import Idealize.ShloMosaic.PureOps.Ideal.Laws
import Idealize.ShloMosaic.Lib.ValueIdx

noncomputable section

namespace Idealize.ShloMosaic.PlainMatmul

open Idealize.ShloMosaic Idealize.ShloMosaic.ValueIdx

theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibSupFold.lean ====
import Mathlib.Data.EReal.Basic
import Mathlib.Order.CompleteLattice.Finset
import Mathlib.Data.Fintype.Prod
import Mathlib.Data.Fintype.Lattice
import Mathlib.Data.Finset.Lattice.Fold

namespace Idealize.ShloMosaic.SupFold

theorem fold_max_bot_eq_iSup {ι : Type*} [Fintype ι] (f : ι → EReal) :
    (Finset.univ : Finset ι).fold max ⊥ f = ⨆ i, f i := by
  rw [← Finset.sup_univ_eq_iSup]
  induction (Finset.univ : Finset ι) using Finset.cons_induction with
  | empty => rfl
  | cons a s ha ih => rw [Finset.fold_cons, Finset.sup_cons, ih]

theorem fold_max_eq_max_iSup {ι : Type*} [Fintype ι] (b : EReal) (f : ι → EReal) :
    (Finset.univ : Finset ι).fold max b f = max b (⨆ i, f i) := by
  rw [← fold_max_bot_eq_iSup]
  induction (Finset.univ : Finset ι) using Finset.cons_induction with
  | empty => simp
  | cons a s ha ih => rw [Finset.fold_cons, Finset.fold_cons, ih, max_left_comm]

theorem iSup_pair {α β : Type*} (f : α × β → EReal) : (⨆ p, f p) = ⨆ a, ⨆ b, f (a, b) := iSup_prod

theorem iSup_equiv {α β : Type*} (e : α ≃ β) (f : β → EReal) : (⨆ a, f (e a)) = ⨆ b, f b := e.iSup_comp

end Idealize.ShloMosaic.SupFold
-- ==== Proof.KernelValue.lean ====
import proofs.«137943_j1228360647386_1_alg».proof.Proof.Spec
import proofs.«137943_j1228360647386_1_alg».proof.Proof.KernelPart
import proofs.«137943_j1228360647386_1_alg».proof.Proof.Consts
import proofs.«137943_j1228360647386_1_alg».proof.Proof.LibPlainMatmul
import proofs.«137943_j1228360647386_1_alg».proof.Proof.LibSupFold
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Part

open Cert.KernelIdeal Idealize.ShloMosaic Idealize.ShloMosaic.ValueIdx Idealize.SL.Sem
open Cert.KernelIdeal.Facts₀
open scoped BigOperators

theorem dot1_eq : dot_S2x256_S256x16_S2x16_1_0_0_1_n_n = DotDims.plain 2 256 16 := rfl
theorem dot2_eq : dot_S2x16_S16x256_S2x256_1_0_0_1_n_n = DotDims.plain 2 16 256 := rfl

theorem mlpK_apply (w1l : Vec Ideal S1x16x256 .f32) (b1l : Vec Ideal S1x16 .f32) (w2l : Vec Ideal S1x256x16 .f32)
    (b2l : Vec Ideal S1x256 .f32) (v : FVec Ideal S2x256 .f32) (n : Fin 2) (c : Fin 256) :
    mlpK w1l b1l w2l b2l v (ix2 n c)
      = Cert.Spec.mlp (fun h c' => w1l (ix3 (0 : Fin 1) h c')) (fun h => b1l (ix2 (0 : Fin 1) h))
          (fun c' h => w2l (ix3 (0 : Fin 1) c' h)) (fun c' => b2l (ix2 (0 : Fin 1) c')) (fun c' => v (ix2 n c')) c := by
  unfold mlpK Cert.Spec.mlp
  rw [addf_apply, dot2_eq, dot1_eq]
  simp only [matmul]
  rw [PlainMatmul.matmul_plain_zero_apply]
  congr 1
  · refine Finset.sum_congr rfl fun h _ => ?_
    rw [transpose_ix2_apply, shapeCast_1ab_ab_apply, maximumf_apply, addf_apply, broadcast_apply,
      PlainMatmul.matmul_plain_zero_apply, broadcastTo_1b_ab_apply, shapeCast_a_1a_apply, shapeCast_1a_a_apply,
      show FloatOps.ofBits (F := Ideal) .f32 0x00000000#32 = 0 from Cert.Consts.ofBits_zero]
    unfold Cert.Spec.hidden
    congr 2
    congr 1
    refine Finset.sum_congr rfl fun c' _ => ?_
    rw [transpose_ix2_apply, shapeCast_1ab_ab_apply]
  · rw [broadcastTo_1b_ab_apply, shapeCast_a_1a_apply, shapeCast_1a_a_apply]

theorem lift2_eq {k : ℕ} (hr2 : (⟨3, ![2, 256, k]⟩ : Shape).Reduces [2] S2x256) (n : Fin 2) (c : Fin 256) (q : Fin k) :
    hr2.lift (ix2 n c) q = ix3 n c q :=
  funext fun a => Fin.ext (by
    match a with
    | ⟨0, _⟩ => rfl
    | ⟨1, _⟩ => rfl
    | ⟨2, _⟩ => rfl)

theorem lift1_eq {k : ℕ} (hr1 : (⟨4, ![2, 256, 64, k]⟩ : Shape).Reduces [2] ⟨3, ![2, 256, k]⟩) (n : Fin 2) (c : Fin 256)
    (q : Fin k) (t : Fin 64) : hr1.lift (ix3 n c q) t = ix4 n c t q :=
  funext fun a => Fin.ext (by
    match a with
    | ⟨0, _⟩ => rfl
    | ⟨1, _⟩ => rfl
    | ⟨2, _⟩ => rfl
    | ⟨3, _⟩ => rfl)

theorem sumK_apply {k : ℕ} (hr1 : (⟨4, ![2, 256, 64, k]⟩ : Shape).Reduces [2] ⟨3, ![2, 256, k]⟩)
    (hr2 : (⟨3, ![2, 256, k]⟩ : Shape).Reduces [2] S2x256) (xs : FVec Ideal ⟨4, ![2, 256, 64, k]⟩ .f32)
    (n : Fin 2) (c : Fin 256) :
    sumK hr1 hr2 xs (ix2 n c) = Cert.Spec.poolSum (fun c' t' q' => xs (ix4 n c' t' q')) c := by
  unfold sumK Cert.Spec.poolSum
  refine (Ideal.multiReduction_add_single _ _ hr2 _ _ _).trans ?_
  show ∑ q : Fin k, _ = _
  refine Finset.sum_congr rfl fun q _ => ?_
  rw [lift2_eq]
  refine (Ideal.multiReduction_add_single _ _ hr1 _ _ _).trans ?_
  show ∑ t : Fin 64, _ = _
  refine Finset.sum_congr rfl fun t _ => ?_
  rw [lift1_eq]

theorem maxInner_apply {k : ℕ} (hr1 : (⟨4, ![2, 256, 64, k]⟩ : Shape).Reduces [2] ⟨3, ![2, 256, k]⟩)
    (xs : FVec Ideal ⟨4, ![2, 256, 64, k]⟩ .f32) (n : Fin 2) (c : Fin 256) (q : Fin k) :
    multiReduction .maximumf [2] ⟨3, ![2, 256, k]⟩ xs 0xFF800000#32 hr1 (.inl rfl) rfl (ix3 n c q)
      = ⨆ t : Fin 64, xs (ix4 n c t q) := by
  refine (Ideal.multiReduction_maximumf_single _ _ hr1 _ _ _).trans ?_
  rw [show FloatOps.ofBits (F := Ideal) .f32 0xFF800000#32 = ⊥ from Cert.Consts.ofBits_neg_inf,
    SupFold.fold_max_bot_eq_iSup]
  show ⨆ t : Fin 64, _ = _
  refine iSup_congr fun t => ?_
  exact congrArg xs (lift1_eq hr1 n c q t)

theorem maxK_apply {k : ℕ} (hr1 : (⟨4, ![2, 256, 64, k]⟩ : Shape).Reduces [2] ⟨3, ![2, 256, k]⟩)
    (hr2 : (⟨3, ![2, 256, k]⟩ : Shape).Reduces [2] S2x256) (xs : FVec Ideal ⟨4, ![2, 256, 64, k]⟩ .f32)
    (n : Fin 2) (c : Fin 256) :
    maxK hr1 hr2 xs (ix2 n c) = Cert.Spec.poolMax (fun c' t' q' => xs (ix4 n c' t' q')) c := by
  unfold maxK Cert.Spec.poolMax
  refine (Ideal.multiReduction_maximumf_single _ _ hr2 _ _ _).trans ?_
  rw [show FloatOps.ofBits (F := Ideal) .f32 0xFF800000#32 = ⊥ from Cert.Consts.ofBits_neg_inf,
    SupFold.fold_max_bot_eq_iSup]
  show ⨆ q : Fin k, _ = _
  refine iSup_congr fun q => ?_
  exact (congrArg _ (lift2_eq hr2 n c q)).trans (maxInner_apply hr1 xs n c q)

theorem gateK_apply (w1l : Vec Ideal S1x16x256 .f32) (b1l : Vec Ideal S1x16 .f32) (w2l : Vec Ideal S1x256x16 .f32)
    (b2l : Vec Ideal S1x256 .f32) (avg mxv : FVec Ideal S2x256 .f32) (n : Fin 2) (c : Fin 256) :
    gateK w1l b1l w2l b2l avg mxv (ix2 n c)
      = Cert.Spec.gate (fun h c' => w1l (ix3 (0 : Fin 1) h c')) (fun h => b1l (ix2 (0 : Fin 1) h))
          (fun c' h => w2l (ix3 (0 : Fin 1) c' h)) (fun c' => b2l (ix2 (0 : Fin 1) c'))
          (fun c' => avg (ix2 n c')) (fun c' => mxv (ix2 n c')) c := by
  unfold gateK Cert.Spec.gate
  show Ideal.logistic (mlpK w1l b1l w2l b2l avg (ix2 n c) + mlpK w1l b1l w2l b2l mxv (ix2 n c)) = _
  rw [mlpK_apply, mlpK_apply]

theorem gateCol_apply {k : ℕ} (hb : S2x256x1x1.Broadcasts ⟨4, ![2, 256, 64, k]⟩) (g : FVec Ideal S2x256 .f32)
    (n : Fin 2) (c : Fin 256) (t : Fin 64) (q : Fin k) :
    broadcastTo ⟨4, ![2, 256, 64, k]⟩ (shapeCast S2x256x1x1 g shapeCasts_S2x256_S2x256x1x1) hb (ix4 n c t q) = g (ix2 n c) := by
  rw [broadcastTo_apply _ hb (ix4 n c t q) (ix4 n c (0 : Fin 1) (0 : Fin 1)) (fun a => by
    match a with
    | ⟨0, _⟩ => rfl
    | ⟨1, _⟩ => rfl
    | ⟨2, _⟩ => rfl
    | ⟨3, _⟩ => rfl)]
  exact shapeCast_apply g _ _ (ix2 n c) (by
    rw [Shape.rowMajor_val_two, Shape.rowMajor_val_four]
    show n.val * 256 + c.val = ((n.val * 256 + c.val) * 1 + 0) * 1 + 0
    omega)

theorem kpart_apply {k : ℕ} (hr1 : (⟨4, ![2, 256, 64, k]⟩ : Shape).Reduces [2] ⟨3, ![2, 256, k]⟩)
    (hr2 : (⟨3, ![2, 256, k]⟩ : Shape).Reduces [2] S2x256) (hb : S2x256x1x1.Broadcasts ⟨4, ![2, 256, 64, k]⟩)
    (inv : Ideal .f32) (xs : FVec Ideal ⟨4, ![2, 256, 64, k]⟩ .f32)
    (w1l : Vec Ideal S1x16x256 .f32) (b1l : Vec Ideal S1x16 .f32) (w2l : Vec Ideal S1x256x16 .f32) (b2l : Vec Ideal S1x256 .f32)
    (n : Fin 2) (c : Fin 256) (t : Fin 64) (q : Fin k) :
    KPart hr1 hr2 hb inv xs w1l b1l w2l b2l (ix4 n c t q)
      = xs (ix4 n c t q) * Cert.Spec.rowGate inv (fun h c' => w1l (ix3 (0 : Fin 1) h c')) (fun h => b1l (ix2 (0 : Fin 1) h))
          (fun c' h => w2l (ix3 (0 : Fin 1) c' h)) (fun c' => b2l (ix2 (0 : Fin 1) c')) (fun c' t' q' => xs (ix4 n c' t' q')) c := by
  unfold KPart Cert.Spec.rowGate
  rw [mulf_apply, gateCol_apply, gateK_apply]
  have e1 : (fun c' => mulf (sumK hr1 hr2 xs) (broadcast S2x256 inv) (ix2 n c'))
      = fun c' => Cert.Spec.poolSum (fun c' t' q' => xs (ix4 n c' t' q')) c' * inv :=
    funext fun c' => by rw [mulf_apply, sumK_apply, broadcast_apply]
  have e2 : (fun c' => maxK hr1 hr2 xs (ix2 n c')) = Cert.Spec.poolMax (fun c' t' q' => xs (ix4 n c' t' q')) :=
    funext fun c' => maxK_apply hr1 hr2 xs n c'
  rw [e1, e2]

end Cert.KernelIdeal.Part

end
-- ==== Proof.NamedConsts.lean ====
import proofs.«137943_j1228360647386_1_alg».proof.KernelIdeal
import proofs.«137943_j1228360647386_1_alg».proof.Proof.Spec
import Idealize.ShloMosaic.PureOps.IdealRules

noncomputable section

namespace Cert.NamedConsts

open Idealize.ShloMosaic

theorem inv_320 : Named.named (F := Ideal) Cert.KernelIdeal.κ "inv_320" (φ := .f32) 0x3B4CCCCD#32 = Cert.Spec.r5 :=
  IdealRules.named_const.ideal_named_scalar _ _ _ _ rfl

theorem inv_384 : Named.named (F := Ideal) Cert.KernelIdeal.κ "inv_384" (φ := .f32) 0x3B2AAAAB#32 = Cert.Spec.r6 :=
  IdealRules.named_const.ideal_named_scalar _ _ _ _ rfl

end Cert.NamedConsts

end
-- ==== Proof.KernelBlockBase.lean ====
import proofs.«137943_j1228360647386_1_alg».proof.Proof.Gen.KernelIdeal.Frame
import proofs.«137943_j1228360647386_1_alg».proof.Proof.KernelPart
import proofs.«137943_j1228360647386_1_alg».proof.Proof.KernelValue
import proofs.«137943_j1228360647386_1_alg».proof.Proof.Spec
import proofs.«137943_j1228360647386_1_alg».proof.Proof.SpecPiece
import proofs.«137943_j1228360647386_1_alg».proof.Proof.Consts
import proofs.«137943_j1228360647386_1_alg».proof.Proof.NamedConsts
import Idealize.ShloMosaic.Lib.ValueIdx
import Idealize.ShloMosaic.Lib.Pipeline.Value

noncomputable section
namespace Cert.KernelIdeal.Block
open Cert.KernelIdeal Cert.KernelIdeal.Gen Cert.KernelIdeal.Part Idealize.ShloMosaic Idealize.ShloMosaic.ValueIdx Idealize.SL.Sem

variable (arg1 : Memref sig .tc .vmem S2x256x64x50 .f32) (harg1 : arg1.IsWhole) (x0 : Vec Ideal S2x256x64x50 .f32)
  (arg2 : Memref sig .tc .vmem S10x16x256 .f32) (harg2 : arg2.IsWhole) (x1 : Vec Ideal S10x16x256 .f32)
  (arg3 : Memref sig .tc .vmem S10x16 .f32) (harg3 : arg3.IsWhole) (x2 : Vec Ideal S10x16 .f32)
  (arg4 : Memref sig .tc .vmem S10x256x16 .f32) (harg4 : arg4.IsWhole) (x3 : Vec Ideal S10x256x16 .f32)
  (arg5 : Memref sig .tc .vmem S10x256 .f32) (harg5 : arg5.IsWhole) (x4 : Vec Ideal S10x256 .f32)

abbrev colLd (j : ℕ) (inb : ∀ a, (![0, 0, 0, j] : Fin 4 → ℕ) a + S2x256x64x1.size a ≤ S2x256x64x50.size a) :
    Vec Ideal S2x256x64x1 .f32 :=
  View.readAt (Elt Ideal) arg1.view (Rect.unit (s := S2x256x64x50) ![0, 0, 0, j] S2x256x64x1.size inb).toLoadRect (harg1.unread x0)

-- A one-joint column loaded at joint `j` reads the block at joint `j`.
theorem ld_col (j : ℕ) (hj : j < 50) (inb) (n : Fin 2) (c : Fin 256) (t : Fin 64) (z : Fin 1) :
    colLd arg1 harg1 x0 j inb (ix4 n c t z) = x0 (ix4 n c t ⟨j, hj⟩) := by
  rw [colLd, View.readAt_eq_ld, harg1.read_unread]
  show x0 _ = x0 _
  congr 1
  funext a
  apply Fin.ext
  match a with
  | ⟨0, _⟩ => simp [LoadRect.idx]
  | ⟨1, _⟩ => simp [LoadRect.idx]
  | ⟨2, _⟩ => simp [LoadRect.idx]
  | ⟨3, _⟩ => simp [LoadRect.idx]

section
variable {B C : ℕ} (aw : Memref sig .tc .vmem ⟨3, ![10, B, C]⟩ .f32) (haw : aw.IsWhole) (xw : Vec Ideal ⟨3, ![10, B, C]⟩ .f32)
  (ab : Memref sig .tc .vmem ⟨2, ![10, B]⟩ .f32) (hab : ab.IsWhole) (xb : Vec Ideal ⟨2, ![10, B]⟩ .f32)

abbrev wLd (p : ℕ) (inb : ∀ a, (![p, 0, 0] : Fin 3 → ℕ) a + (![1, B, C] : Fin 3 → ℕ) a ≤ (⟨3, ![10, B, C]⟩ : Shape).size a) :
    Vec Ideal ⟨3, ![1, B, C]⟩ .f32 :=
  View.readAt (Elt Ideal) aw.view (Rect.unit (s := ⟨3, ![10, B, C]⟩) ![p, 0, 0] ![1, B, C] inb).toLoadRect (haw.unread xw)

abbrev bLd (p : ℕ) (inb : ∀ a, (![p, 0] : Fin 2 → ℕ) a + (![1, B] : Fin 2 → ℕ) a ≤ (⟨2, ![10, B]⟩ : Shape).size a) :
    Vec Ideal ⟨2, ![1, B]⟩ .f32 :=
  View.readAt (Elt Ideal) ab.view (Rect.unit (s := ⟨2, ![10, B]⟩) ![p, 0] ![1, B] inb).toLoadRect (hab.unread xb)

-- A weight slice loaded at row `p` reads row `p` of its array.
theorem ld_w (p : ℕ) (hp : p < 10) (inb) (z : Fin 1) (h : Fin B) (c : Fin C) :
    wLd aw haw xw p inb (ix3 z h c) = xw (ix3 ⟨p, hp⟩ h c) := by
  rw [wLd, View.readAt_eq_ld, haw.read_unread]
  show xw _ = xw _
  congr 1
  funext a
  apply Fin.ext
  match a with
  | ⟨0, _⟩ => simp [LoadRect.idx]
  | ⟨1, _⟩ => simp [LoadRect.idx]
  | ⟨2, _⟩ => simp [LoadRect.idx]

theorem ld_b (p : ℕ) (hp : p < 10) (inb) (z : Fin 1) (h : Fin B) :
    bLd ab hab xb p inb (ix2 z h) = xb (ix2 ⟨p, hp⟩ h) := by
  rw [bLd, View.readAt_eq_ld, hab.read_unread]
  show xb _ = xb _
  congr 1
  funext a
  apply Fin.ext
  match a with
  | ⟨0, _⟩ => simp [LoadRect.idx]
  | ⟨1, _⟩ => simp [LoadRect.idx]
end

-- `k` one-joint columns side by side read column `q` at joint `q`.
theorem cat_apply {α : Type} {k : ℕ} (f : Fin k → (S2x256x64x1.Idx → α))
    (h : Shape.Concatenates ((List.ofFn fun n : Fin k => (⟨S2x256x64x1, f n⟩ : (s : Shape) × (s.Idx → α))).map (·.1))
      ⟨4, ![2, 256, 64, k]⟩ 3)
    (n : Fin 2) (c : Fin 256) (t : Fin 64) (q : Fin k) :
    concatenate ⟨4, ![2, 256, 64, k]⟩ 3 (List.ofFn fun n : Fin k => (⟨S2x256x64x1, f n⟩ : (s : Shape) × (s.Idx → α))) h
      (ix4 n c t q) = f q (ix4 n c t 0) :=
  concatenate_ofFn_unit_apply (t := ⟨4, ![2, 256, 64, k]⟩) (3 : Fin 4) f h rfl rfl (ix4 n c t q) q rfl (ix4 n c t 0)
    (fun b hb => by
      match b with
      | ⟨0, _⟩ => rfl
      | ⟨1, _⟩ => rfl
      | ⟨2, _⟩ => rfl
      | ⟨3, _⟩ => exact absurd rfl hb)

-- With the columns reading joints `cols`, the slices row `p` and the constant `r`, the part's value is the specification's part `p`.
theorem piece_eq {k : ℕ} (p : Fin 10) (r : EReal) (cols : Fin k → Fin 50)
    (hr1 : (⟨4, ![2, 256, 64, k]⟩ : Shape).Reduces [2] ⟨3, ![2, 256, k]⟩)
    (hr2 : (⟨3, ![2, 256, k]⟩ : Shape).Reduces [2] S2x256) (hb : S2x256x1x1.Broadcasts ⟨4, ![2, 256, 64, k]⟩)
    (inv : Ideal .f32) (hinv : inv = r) (xs : FVec Ideal ⟨4, ![2, 256, 64, k]⟩ .f32)
    (w1l : Vec Ideal S1x16x256 .f32) (b1l : Vec Ideal S1x16 .f32) (w2l : Vec Ideal S1x256x16 .f32) (b2l : Vec Ideal S1x256 .f32)
    (hxs : ∀ n c t q, xs (ix4 n c t q) = x0 (ix4 n c t (cols q)))
    (hw1 : ∀ h c, w1l (ix3 (0 : Fin 1) h c) = x1 (ix3 p h c)) (hb1 : ∀ h, b1l (ix2 (0 : Fin 1) h) = x2 (ix2 p h))
    (hw2 : ∀ c h, w2l (ix3 (0 : Fin 1) c h) = x3 (ix3 p c h)) (hb2 : ∀ c, b2l (ix2 (0 : Fin 1) c) = x4 (ix2 p c))
    (n : Fin 2) (c : Fin 256) (t : Fin 64) (q : Fin k) :
    KPart hr1 hr2 hb inv xs w1l b1l w2l b2l (ix4 n c t q) = Cert.Spec.part p r cols x0 x1 x2 x3 x4 (ix4 n c t q) := by
  rw [kpart_apply]
  simp only [hxs, hw1, hb1, hw2, hb2, hinv]
  rfl

-- A store rectangle starting at joint `o` places its entry `q` at joint `o + q`.
theorem emb_store {k o : ℕ}
    (inb : ∀ a, (![0, 0, 0, o] : Fin 4 → ℕ) a + (![2, 256, 64, k] : Fin 4 → ℕ) a ≤ S2x256x64x50.size a)
    (n : Fin 2) (c : Fin 256) (t : Fin 64) (q : Fin k) (hlt : o + q.val < 50) :
    (Rect.unit (s := S2x256x64x50) ![0, 0, 0, o] ![2, 256, 64, k] inb).emb (ix4 n c t q) = ix4 n c t ⟨o + q.val, hlt⟩ := by
  funext a
  apply Fin.ext
  match a with
  | ⟨0, _⟩ => rw [Rect.emb_apply]; simp
  | ⟨1, _⟩ => rw [Rect.emb_apply]; simp
  | ⟨2, _⟩ => rw [Rect.emb_apply]; simp
  | ⟨3, _⟩ => rw [Rect.emb_apply]; simp

-- A rectangle of `k` joints from joint `o` lies in the block when `o + k ≤ 50`.
theorem inb4 {k o : ℕ} (h : o + k ≤ 50) (a : Fin 4) :
    (![0, 0, 0, o] : Fin 4 → ℕ) a + (![2, 256, 64, k] : Fin 4 → ℕ) a ≤ S2x256x64x50.size a :=
  match a with
  | ⟨0, _⟩ => Nat.le_refl _
  | ⟨1, _⟩ => Nat.le_refl _
  | ⟨2, _⟩ => Nat.le_refl _
  | ⟨3, _⟩ => h

theorem cat_cols {α : Type} {k : ℕ} (f : Fin k → (S2x256x64x1.Idx → α))
    (h : Shape.Concatenates (List.ofFn fun _ : Fin k => S2x256x64x1) ⟨4, ![2, 256, 64, k]⟩ 3) :
    Shape.Concatenates ((List.ofFn fun n : Fin k => (⟨S2x256x64x1, f n⟩ : (s : Shape) × (s.Idx → α))).map (·.1))
      ⟨4, ![2, 256, 64, k]⟩ 3 := by
  rw [List.map_ofFn]
  exact h

-- Part `p`'s store from its own loads (joints `cols`, row `p` of the weights) agrees with any `G` that is the specification's part `p` on the joints from `o`.
theorem block (p : Fin 10) {k o : ℕ} (cols : Fin k → Fin 50) {r : EReal} {inv : Ideal .f32} (hinv : inv = r)
    {hr1 : (⟨4, ![2, 256, 64, k]⟩ : Shape).Reduces [2] ⟨3, ![2, 256, k]⟩}
    {hr2 : (⟨3, ![2, 256, k]⟩ : Shape).Reduces [2] S2x256} {hb : S2x256x1x1.Broadcasts ⟨4, ![2, 256, 64, k]⟩}
    (hc : Shape.Concatenates (List.ofFn fun _ : Fin k => S2x256x64x1) ⟨4, ![2, 256, 64, k]⟩ 3)
    {i1 i2 i3 i4} {G : S2x256x64x50.Idx → EReal}
    (hG : ∀ n c t (q : Fin k) (hlt : o + q.val < 50),
      G (ix4 n c t ⟨o + q.val, hlt⟩) = Cert.Spec.part p r cols x0 x1 x2 x3 x4 (ix4 n c t q))
    (ho : o + k ≤ 50) (x : (⟨4, ![2, 256, 64, k]⟩ : Shape).Idx) :
    KPart hr1 hr2 hb inv
        (concatenate ⟨4, ![2, 256, 64, k]⟩ 3 (List.ofFn fun q : Fin k =>
          (⟨S2x256x64x1, colLd arg1 harg1 x0 (cols q) (inb4 (k := 1) (cols q).isLt)⟩ : (s : Shape) × (s.Idx → Ideal .f32)))
          (cat_cols _ hc))
        (wLd arg2 harg2 x1 p i1) (bLd arg3 harg3 x2 p i2) (wLd arg4 harg4 x3 p i3) (bLd arg5 harg5 x4 p i4) x
      = G ((Rect.unit (s := S2x256x64x50) ![0, 0, 0, o] ![2, 256, 64, k] (inb4 ho)).emb x) := by
  obtain ⟨n, c, t, q, rfl⟩ : ∃ (n : Fin 2) (c : Fin 256) (t : Fin 64) (q : Fin k), x = ix4 n c t q :=
    ⟨x 0, x 1, x 2, x 3, eq_ix4 x⟩
  rw [emb_store _ n c t q (Nat.lt_of_lt_of_le (Nat.add_lt_add_left q.isLt o) ho), hG]
  exact piece_eq x0 x1 x2 x3 x4 p r cols hr1 hr2 hb inv hinv _ _ _ _ _
    (fun n c t q => by rw [cat_apply]; exact ld_col arg1 harg1 x0 _ (cols q).isLt _ n c t 0)
    (ld_w arg2 harg2 x1 p p.isLt i1 0) (ld_b arg3 harg3 x2 p p.isLt i2 0)
    (ld_w arg4 harg4 x3 p p.isLt i3 0) (ld_b arg5 harg5 x4 p p.isLt i4 0) n c t q

end Cert.KernelIdeal.Block

end
-- ==== Proof.KernelBlock.lean ====
import proofs.«137943_j1228360647386_1_alg».proof.Proof.KernelBlockBase

set_option maxRecDepth 16384

noncomputable section

namespace Cert.KernelIdeal.Block

open Cert.KernelIdeal Cert.KernelIdeal.Gen Cert.KernelIdeal.Part Idealize.ShloMosaic Idealize.ShloMosaic.ValueIdx Idealize.ShloMosaic.TcCoe Idealize.SL.Sem Idealize.ShloMosaic.Tactic

-- The ten stores cover the block and each holds the specification's part on its joints, so the block holds the ten parts side by side.
theorem out0_eq (h2 : Shape.Concatenates [⟨4, ![2, 256, 64, 5]⟩, ⟨4, ![2, 256, 64, 6]⟩, ⟨4, ![2, 256, 64, 4]⟩, ⟨4, ![2, 256, 64, 6]⟩, ⟨4, ![2, 256, 64, 4]⟩, ⟨4, ![2, 256, 64, 5]⟩, ⟨4, ![2, 256, 64, 6]⟩, ⟨4, ![2, 256, 64, 4]⟩, ⟨4, ![2, 256, 64, 6]⟩, ⟨4, ![2, 256, 64, 4]⟩] ⟨4, ![2, 256, 64, 50]⟩ 3) (c : Dev nD) (i : grid0.Coords) (arg1 : Memref sig .tc .vmem S2x256x64x50 .f32) (harg1 : arg1.IsWhole) (arg2 : Memref sig .tc .vmem S10x16x256 .f32) (harg2 : arg2.IsWhole) (arg3 : Memref sig .tc .vmem S10x16 .f32) (harg3 : arg3.IsWhole) (arg4 : Memref sig .tc .vmem S10x256x16 .f32) (harg4 : arg4.IsWhole) (arg5 : Memref sig .tc .vmem S10x256 .f32) (harg5 : arg5.IsWhole) (arg6 : Memref sig .tc .vmem S2x256x64x50 .f32) (harg6 : arg6.IsWhole) (x0 : Vec Ideal S2x256x64x50 .f32) (x1 : Vec Ideal S10x16x256 .f32) (x2 : Vec Ideal S10x16 .f32) (x3 : Vec Ideal S10x256x16 .f32) (x4 : Vec Ideal S10x256 .f32) :
    out0_A_5 (F := Ideal) c i arg1 harg1 arg2 harg2 arg3 harg3 arg4 harg4 arg5 harg5 arg6 harg6 x0 x1 x2 x3 x4 = concatenate ⟨4, ![2, 256, 64, 50]⟩ 3 (Cert.Spec.parts (N := 2) x0 x1 x2 x3 x4) h2 := by
  have hc := cover0_A_5 c i arg1 harg1 arg2 harg2 arg3 harg3 arg4 harg4 arg5 harg5 arg6 harg6 x0 x1 x2 x3 x4
  unfold out0_A_5
  rw [View.read_writes_eq_canon _ _ _ hc]
  funext y
  refine View.canon_apply_of_pieces (concatenate (α := EReal) ⟨4, ![2, 256, 64, 50]⟩ 3 (Cert.Spec.parts (N := 2) x0 x1 x2 x3 x4) h2) _ ?_ y (hc y)
  unfold kernelRun0_A
  dsimp only
  sl_unfold_words
  have S := Cert.Spec.piece h2 x0 x1 x2 x3 x4
  have B := block arg1 harg1 x0 arg2 harg2 x1 arg3 harg3 x2 arg4 harg4 x3 arg5 harg5 x4
  refine List.forall_mem_cons.2 ⟨B 9 Cert.Spec.cols9 Cert.Consts.ofBits_inv_256 (by decide) (S 9 (by decide : 9 < 10) 4 _ rfl 46 rfl) (by decide), ?_⟩
  refine List.forall_mem_cons.2 ⟨B 8 Cert.Spec.cols8 Cert.NamedConsts.inv_384 (by decide) (S 8 (by decide : 8 < 10) 6 _ rfl 40 rfl) (by decide), ?_⟩
  refine List.forall_mem_cons.2 ⟨B 7 Cert.Spec.cols7 Cert.Consts.ofBits_inv_256 (by decide) (S 7 (by decide : 7 < 10) 4 _ rfl 36 rfl) (by decide), ?_⟩
  refine List.forall_mem_cons.2 ⟨B 6 Cert.Spec.cols6 Cert.NamedConsts.inv_384 (by decide) (S 6 (by decide : 6 < 10) 6 _ rfl 30 rfl) (by decide), ?_⟩
  refine List.forall_mem_cons.2 ⟨B 5 Cert.Spec.cols5 Cert.NamedConsts.inv_320 (by decide) (S 5 (by decide : 5 < 10) 5 _ rfl 25 rfl) (by decide), ?_⟩
  refine List.forall_mem_cons.2 ⟨B 4 Cert.Spec.cols4 Cert.Consts.ofBits_inv_256 (by decide) (S 4 (by decide : 4 < 10) 4 _ rfl 21 rfl) (by decide), ?_⟩
  refine List.forall_mem_cons.2 ⟨B 3 Cert.Spec.cols3 Cert.NamedConsts.inv_384 (by decide) (S 3 (by decide : 3 < 10) 6 _ rfl 15 rfl) (by decide), ?_⟩
  refine List.forall_mem_cons.2 ⟨B 2 Cert.Spec.cols2 Cert.Consts.ofBits_inv_256 (by decide) (S 2 (by decide : 2 < 10) 4 _ rfl 11 rfl) (by decide), ?_⟩
  refine List.forall_mem_cons.2 ⟨B 1 Cert.Spec.cols1 Cert.NamedConsts.inv_384 (by decide) (S 1 (by decide : 1 < 10) 6 _ rfl 5 rfl) (by decide), ?_⟩
  refine List.forall_mem_cons.2 ⟨B 0 Cert.Spec.cols0 Cert.NamedConsts.inv_320 (by decide) (S 0 (by decide : 0 < 10) 5 _ rfl 0 rfl) (by decide), ?_⟩
  exact fun _ hp => nomatch hp

end Cert.KernelIdeal.Block

end
-- ==== Proof.KernelArray.lean ====
import proofs.«137943_j1228360647386_1_alg».proof.Proof.Gen.KernelIdeal.Value
import proofs.«137943_j1228360647386_1_alg».proof.Proof.Spec
import proofs.«137943_j1228360647386_1_alg».proof.Proof.SpecPieces
import proofs.«137943_j1228360647386_1_alg».proof.Proof.KernelBlock
import Idealize.ShloMosaic.Lib.Pipeline.Value
import Idealize.ShloMosaic.Lib.ValueIdx

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hcat : Shape.Concatenates [⟨4, ![64, 256, 64, 5]⟩, ⟨4, ![64, 256, 64, 6]⟩, ⟨4, ![64, 256, 64, 4]⟩, ⟨4, ![64, 256, 64, 6]⟩, ⟨4, ![64, 256, 64, 4]⟩, ⟨4, ![64, 256, 64, 5]⟩, ⟨4, ![64, 256, 64, 6]⟩, ⟨4, ![64, 256, 64, 4]⟩, ⟨4, ![64, 256, 64, 6]⟩, ⟨4, ![64, 256, 64, 4]⟩] ⟨4, ![64, 256, 64, 50]⟩ 3 := by decide
theorem hcat2 : Shape.Concatenates [⟨4, ![2, 256, 64, 5]⟩, ⟨4, ![2, 256, 64, 6]⟩, ⟨4, ![2, 256, 64, 4]⟩, ⟨4, ![2, 256, 64, 6]⟩, ⟨4, ![2, 256, 64, 4]⟩, ⟨4, ![2, 256, 64, 5]⟩, ⟨4, ![2, 256, 64, 6]⟩, ⟨4, ![2, 256, 64, 4]⟩, ⟨4, ![2, 256, 64, 6]⟩, ⟨4, ![2, 256, 64, 4]⟩] ⟨4, ![2, 256, 64, 50]⟩ 3 := by decide

theorem block_point (T : ℕ)
    (x0 : (⟨4, ![2, 256, 64, 50]⟩ : Shape).Idx → EReal) (A : (⟨4, ![64, 256, 64, 50]⟩ : Shape).Idx → EReal)
    (x1 W1 : (⟨3, ![10, 16, 256]⟩ : Shape).Idx → EReal) (x2 b1 : (⟨2, ![10, 16]⟩ : Shape).Idx → EReal)
    (x3 W2 : (⟨3, ![10, 256, 16]⟩ : Shape).Idx → EReal) (x4 b2 : (⟨2, ![10, 256]⟩ : Shape).Idx → EReal)
    (h0 : ∀ (n : Fin 2) (c : Fin 256) (f : Fin 64) (j : Fin 50) (n' : Fin 64), n'.val = 2 * T + n.val →
      x0 (ix4 n c f j) = A (ix4 n' c f j))
    (h1 : x1 = W1) (h2 : x2 = b1) (h3 : x3 = W2) (h4 : x4 = b2)
    (p : (⟨4, ![2, 256, 64, 50]⟩ : Shape).Idx) (q : (⟨4, ![64, 256, 64, 50]⟩ : Shape).Idx)
    (e0 : (q 0).val = 2 * T + (p 0).val) (e1 : (q 1).val = (p 1).val) (e2 : (q 2).val = (p 2).val)
    (e3 : (q 3).val = (p 3).val) :
    concatenate ⟨4, ![2, 256, 64, 50]⟩ 3 (Cert.Spec.parts x0 x1 x2 x3 x4) hcat2 p = Cert.Spec.G hcat A W1 b1 W2 b2 q := by
  subst h1 h2 h3 h4
  have hq : q = ix4 (q 0) (p 1) (p 2) (p 3) := by
    rw [eq_ix4 q]
    exact congr (congr (congrArg (ix4 (q 0)) (Fin.ext e1)) (Fin.ext e2)) (Fin.ext e3)
  rw [eq_ix4 p, hq]
  unfold Cert.Spec.G
  exact Cert.Spec.parts_row hcat2 hcat x0 A x1 x2 x3 x4 (p 0) (q 0) (fun c f j => h0 (p 0) c f j (q 0) e0) (p 1) (p 2) (p 3)

theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_5.index t (0 : Fin 4) = t.val ∧ win0_5.index t (1 : Fin 4) = 0 ∧ win0_5.index t (2 : Fin 4) = 0
    ∧ win0_5.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

theorem flushed_eq (c : Dev nD) (t : Fin cfg0.N) :
    (dats m 0 c).flushed 5 t = ((cfg0.win 5).blk t).view.read (Elt Ideal)
      (Cert.Spec.G hcat (V m c main_arg0) (V m c main_arg1) (V m c main_arg2) (V m c main_arg3) (V m c main_arg4)) := by
  rw [Value.flushed5_A, Block.out0_eq hcat2]
  obtain ⟨a0, a1, a2, a3, o0, o1, o2, o3, w10, w11, w12, w20, w21, w30, w31, w32, w40, w41⟩ := idx_facts t
  funext y
  refine block_point t.val (iblk m c 0 t) (V m c main_arg0) (iblk m c 1 t) (V m c main_arg1) (iblk m c 2 t)
    (V m c main_arg2) (iblk m c 3 t) (V m c main_arg3) (iblk m c 4 t) (V m c main_arg4) ?_ ?_ ?_ ?_ ?_
    ((cfg0.win 5).xinj (grid0.coords t) y) (((cfg0.win 5).blk t).view.emb y) ?_ ?_ ?_ ?_
  · intro n c' f j n' hn
    show V m c main_arg0 (((cfg0.win 0).blk t).view.emb (ix4 n c' f j)) = V m c main_arg0 (ix4 n' c' f j)
    refine congrArg _ (funext fun a => Fin.ext ?_)
    match a with
    | ⟨0, _⟩ => show win0_0.index t (0 : Fin 4) * 2 + 1 * n.val = n'.val; rw [a0]; omega
    | ⟨1, _⟩ => show win0_0.index t (1 : Fin 4) * 256 + 1 * c'.val = c'.val; rw [a1]; omega
    | ⟨2, _⟩ => show win0_0.index t (2 : Fin 4) * 64 + 1 * f.val = f.val; rw [a2]; omega
    | ⟨3, _⟩ => show win0_0.index t (3 : Fin 4) * 50 + 1 * j.val = j.val; rw [a3]; omega
  · funext z
    show V m c main_arg1 (((cfg0.win 1).blk t).view.emb z) = V m c main_arg1 z
    refine congrArg _ (funext fun a => Fin.ext ?_)
    match a with
    | ⟨0, _⟩ => show win0_1.index t (0 : Fin 3) * 10 + 1 * (z 0).val = (z 0).val; rw [w10]; omega
    | ⟨1, _⟩ => show win0_1.index t (1 : Fin 3) * 16 + 1 * (z 1).val = (z 1).val; rw [w11]; omega
    | ⟨2, _⟩ => show win0_1.index t (2 : Fin 3) * 256 + 1 * (z 2).val = (z 2).val; rw [w12]; omega
  · funext z
    show V m c main_arg2 (((cfg0.win 2).blk t).view.emb z) = V m c main_arg2 z
    refine congrArg _ (funext fun a => Fin.ext ?_)
    match a with
    | ⟨0, _⟩ => show win0_2.index t (0 : Fin 2) * 10 + 1 * (z 0).val = (z 0).val; rw [w20]; omega
    | ⟨1, _⟩ => show win0_2.index t (1 : Fin 2) * 16 + 1 * (z 1).val = (z 1).val; rw [w21]; omega
  · funext z
    show V m c main_arg3 (((cfg0.win 3).blk t).view.emb z) = V m c main_arg3 z
    refine congrArg _ (funext fun a => Fin.ext ?_)
    match a with
    | ⟨0, _⟩ => show win0_3.index t (0 : Fin 3) * 10 + 1 * (z 0).val = (z 0).val; rw [w30]; omega
    | ⟨1, _⟩ => show win0_3.index t (1 : Fin 3) * 256 + 1 * (z 1).val = (z 1).val; rw [w31]; omega
    | ⟨2, _⟩ => show win0_3.index t (2 : Fin 3) * 16 + 1 * (z 2).val = (z 2).val; rw [w32]; omega
  · funext z
    show V m c main_arg4 (((cfg0.win 4).blk t).view.emb z) = V m c main_arg4 z
    refine congrArg _ (funext fun a => Fin.ext ?_)
    match a with
    | ⟨0, _⟩ => show win0_4.index t (0 : Fin 2) * 10 + 1 * (z 0).val = (z 0).val; rw [w40]; omega
    | ⟨1, _⟩ => show win0_4.index t (1 : Fin 2) * 256 + 1 * (z 1).val = (z 1).val; rw [w41]; omega
  · show win0_5.index t (0 : Fin 4) * 2 + 1 * (y 0).val = 2 * t.val + (y 0).val; rw [o0]; omega
  · show win0_5.index t (1 : Fin 4) * 256 + 1 * (y 1).val = (y 1).val; rw [o1]; omega
  · show win0_5.index t (2 : Fin 4) * 64 + 1 * (y 2).val = (y 2).val; rw [o2]; omega
  · show win0_5.index t (3 : Fin 4) * 50 + 1 * (y 3).val = (y 3).val; rw [o3]; omega

theorem mem_blk (t : Fin cfg0.N) (i : S64x256x64x50.Idx) :
    i ∈ ((cfg0.win 5).blk t).view.set ↔ ∀ a : Fin 4, win0_5.index t a * S2x256x64x50.size a ≤ (i a).val
      ∧ (i a).val < win0_5.index t a * S2x256x64x50.size a + S2x256x64x50.size a := by
  show i ∈ ((View.whole main_v0).slice (win0_5.rect t)).set ↔ _
  rw [View.set_slice_whole, Rect.mem_set_unit]
  exact Iff.rfl

theorem cover (i : S64x256x64x50.Idx) :
    ∃ t : Fin cfg0.N, (cfg0.win 5).flush t = true ∧ i ∈ ((cfg0.win 5).blk t).view.set := by
  have h0 : (i 0).val < 64 := (i 0).isLt
  have h1 : (i 1).val < 256 := (i 1).isLt
  have h2 : (i 2).val < 64 := (i 2).isLt
  have h3 : (i 3).val < 50 := (i 3).isLt
  have hlt : (i 0).val / 2 < grid0.N := by rw [N_0]; omega
  refine ⟨⟨(i 0).val / 2, hlt⟩, flush0_5 _, ?_⟩
  obtain ⟨-, -, -, -, o0, o1, o2, o3, -⟩ := idx_facts ⟨(i 0).val / 2, hlt⟩
  have o0' : win0_5.index ⟨(i 0).val / 2, hlt⟩ (0 : Fin 4) = (i 0).val / 2 := o0
  rw [mem_blk]
  intro a
  match a with
  | ⟨0, _⟩ =>
    show win0_5.index _ (0 : Fin 4) * 2 ≤ (i 0).val ∧ (i 0).val < win0_5.index _ (0 : Fin 4) * 2 + 2
    rw [o0']; omega
  | ⟨1, _⟩ =>
    show win0_5.index _ (1 : Fin 4) * 256 ≤ (i 1).val ∧ (i 1).val < win0_5.index _ (1 : Fin 4) * 256 + 256
    rw [o1]; omega
  | ⟨2, _⟩ =>
    show win0_5.index _ (2 : Fin 4) * 64 ≤ (i 2).val ∧ (i 2).val < win0_5.index _ (2 : Fin 4) * 64 + 64
    rw [o2]; omega
  | ⟨3, _⟩ =>
    show win0_5.index _ (3 : Fin 4) * 50 ≤ (i 3).val ∧ (i 3).val < win0_5.index _ (3 : Fin 4) * 50 + 50
    rw [o3]; omega

theorem final (c : Dev nD) : (dats m 0 c).arrAt 5 cfg0.N = Cert.Spec.G hcat (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq m c t) cover

theorem run : θ_run defs (onTc (τ := τ) (main (F := Ideal))) ⟨m, fun _ => 0, ρ⟩ fun r => ∀ c : Dev nD,
      r.2.mem ((c : Thread nD τ).loc main_v0) = Cert.Spec.G hcat (m ((c : Thread nD τ).loc main_arg0)) (m ((c : Thread nD τ).loc main_arg1))
      (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Array

end
-- ==== Proof.RefOps.lean ====
import proofs.«137943_j1228360647386_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev pre : List (HloOp τ sig (Elt F)) :=
  [ nullary main_c (fun i => lit0 (S5.rowMajor i)),
    nullary main_c_0 (constantI S5 1 0#1),
    nullary main_c_1 (fun i => lit1 (S6.rowMajor i)),
    nullary main_c_2 (constantI S6 1 0#1),
    nullary main_c_3 (fun i => lit2 (S4.rowMajor i)),
    nullary main_c_4 (constantI S4 1 0#1),
    nullary main_c_5 (fun i => lit3 (S6.rowMajor i)),
    nullary main_c_6 (constantI S6 1 0#1),
    nullary main_c_7 (fun i => lit4 (S4.rowMajor i)),
    nullary main_c_8 (constantI S4 1 0#1),
    nullary main_c_9 (fun i => lit5 (S5.rowMajor i)),
    nullary main_c_10 (constantI S5 1 0#1),
    nullary main_c_11 (fun i => lit6 (S6.rowMajor i)),
    nullary main_c_12 (constantI S6 1 0#1),
    nullary main_c_13 (fun i => lit7 (S4.rowMajor i)),
    nullary main_c_14 (constantI S4 1 0#1),
    nullary main_c_15 (fun i => lit8 (S6.rowMajor i)),
    nullary main_c_16 (constantI S6 1 0#1),
    nullary main_c_17 (fun i => lit9 (S4.rowMajor i)),
    nullary main_c_18 (constantI S4 1 0#1) ]

abbrev seg0 : List (HloOp τ sig (Elt F)) :=
  [ nullary main_c_19 (constantI S_ 32 50#32),
    unary main_c_19 main_v0 (broadcastInDim S5 ![] bcast_S_S5),
    binary main_c main_v0 main_v1 addi,
    ternary main_c_0 main_v1 main_c main_v2 select,
    unary main_v2 main_v3 (broadcastInDim S5x1 ![0] bcast_S5_S5x1_0),
    binary main_arg0 main_v3 main_v4 (fun x i => Host.gather gather_S64x256x64x50_S5x1_S64x256x64x5_012_3_n_n_3_1_64256641 x i),
    nullary main_cst (constant S_ .f32 0x00000000#32),
    binary main_v4 main_cst main_v5 (fun x v => Host.reduceAdd x v reducesTo_S64x256x64x5_S64x256_d2_3 h_S_),
    nullary main_cst_20 (constant S_ .f32 0x43A00000#32),
    unary main_cst_20 main_v6 (broadcastInDim S64x256 ![] bcast_S_S64x256),
    binary main_v5 main_v6 main_v7 Host.divf,
    nullary main_cst_21 (constant S_ .f32 0xFF800000#32),
    binary main_v4 main_cst_21 main_v8 (fun x v => Host.reduce FloatOps.maximumf x v reducesTo_S64x256x64x5_S64x256_d2_3 h_S_),
    unary main_arg1 main_v9 (extractStridedSlice S1x16x256 ![0, 0, 0] · slices_S10x16x256_S1x16x256_0_0_0),
    reshape main_v9 main_v10 rfl shapeCasts_S1x16x256_S16x256,
    unary main_v10 main_v11 (transpose S256x16 [1, 0] · transposes_S16x256_S256x16_1_0),
    binary main_v7 main_v11 main_v12 (fun l r => Host.dotGeneral dot_S64x256_S256x16_S64x16_1_0_0_1_n_n none l r),
    unary main_arg2 main_v13 (extractStridedSlice S1x16 ![0, 0] · slices_S10x16_S1x16_0_0),
    reshape main_v13 main_v14 rfl shapeCasts_S1x16_S16,
    unary main_v14 main_v15 (broadcastInDim S1x16 ![1] bcast_S16_S1x16_1),
    unary main_v15 main_v16 (broadcastInDim S64x16 ![0, 1] bcast_S1x16_S64x16_0_1),
    binary main_v12 main_v16 main_v17 addf,
    nullary main_call0_cst (constant S_ .f32 0x00000000#32),
    unary main_call0_cst main_call0_v0 (broadcastInDim S64x16 ![] bcast_S_S64x16),
    binary main_v17 main_call0_v0 main_v18 maximumf,
    unary main_arg3 main_v19 (extractStridedSlice S1x256x16 ![0, 0, 0] · slices_S10x256x16_S1x256x16_0_0_0),
    reshape main_v19 main_v20 rfl shapeCasts_S1x256x16_S256x16,
    unary main_v20 main_v21 (transpose S16x256 [1, 0] · transposes_S256x16_S16x256_1_0),
    binary main_v18 main_v21 main_v22 (fun l r => Host.dotGeneral dot_S64x16_S16x256_S64x256_1_0_0_1_n_n none l r),
    unary main_arg4 main_v23 (extractStridedSlice S1x256 ![0, 0] · slices_S10x256_S1x256_0_0),
    reshape main_v23 main_v24 rfl shapeCasts_S1x256_S256,
    unary main_v24 main_v25 (broadcastInDim S1x256 ![1] bcast_S256_S1x256_1),
    unary main_v25 main_v26 (broadcastInDim S64x256 ![0, 1] bcast_S1x256_S64x256_0_1),
    binary main_v22 main_v26 main_v27 addf,
    unary main_arg1 main_v28 (extractStridedSlice S1x16x256 ![0, 0, 0] · slices_S10x16x256_S1x16x256_0_0_0),
    reshape main_v28 main_v29 rfl shapeCasts_S1x16x256_S16x256,
    unary main_v29 main_v30 (transpose S256x16 [1, 0] · transposes_S16x256_S256x16_1_0),
    binary main_v8 main_v30 main_v31 (fun l r => Host.dotGeneral dot_S64x256_S256x16_S64x16_1_0_0_1_n_n none l r),
    unary main_arg2 main_v32 (extractStridedSlice S1x16 ![0, 0] · slices_S10x16_S1x16_0_0),
    reshape main_v32 main_v33 rfl shapeCasts_S1x16_S16,
    unary main_v33 main_v34 (broadcastInDim S1x16 ![1] bcast_S16_S1x16_1),
    unary main_v34 main_v35 (broadcastInDim S64x16 ![0, 1] bcast_S1x16_S64x16_0_1),
    binary main_v31 main_v35 main_v36 addf,
    nullary main_call1_cst (constant S_ .f32 0x00000000#32),
    unary main_call1_cst main_call1_v0 (broadcastInDim S64x16 ![] bcast_S_S64x16),
    binary main_v36 main_call1_v0 main_v37 maximumf,
    unary main_arg3 main_v38 (extractStridedSlice S1x256x16 ![0, 0, 0] · slices_S10x256x16_S1x256x16_0_0_0),
    reshape main_v38 main_v39 rfl shapeCasts_S1x256x16_S256x16,
    unary main_v39 main_v40 (transpose S16x256 [1, 0] · transposes_S256x16_S16x256_1_0),
    binary main_v37 main_v40 main_v41 (fun l r => Host.dotGeneral dot_S64x16_S16x256_S64x256_1_0_0_1_n_n none l r),
    unary main_arg4 main_v42 (extractStridedSlice S1x256 ![0, 0] · slices_S10x256_S1x256_0_0),
    reshape main_v42 main_v43 rfl shapeCasts_S1x256_S256,
    unary main_v43 main_v44 (broadcastInDim S1x256 ![1] bcast_S256_S1x256_1),
    unary main_v44 main_v45 (broadcastInDim S64x256 ![0, 1] bcast_S1x256_S64x256_0_1),
    binary main_v41 main_v45 main_v46 addf,
    binary main_v27 main_v46 main_v47 addf,
    unary main_v47 main_v48 Host.negf,
    unary main_v48 main_v49 Host.exp,
    nullary main_cst_22 (constant S_ .f32 0x3F800000#32),
    unary main_cst_22 main_v50 (broadcastInDim S64x256 ![] bcast_S_S64x256),
    binary main_v50 main_v49 main_v51 addf,
    nullary main_cst_23 (constant S_ .f32 0x3F800000#32),
    unary main_cst_23 main_v52 (broadcastInDim S64x256 ![] bcast_S_S64x256),
    binary main_v52 main_v51 main_v53 Host.divf,
    unary main_v53 main_v54 (broadcastInDim S64x256x1x1 ![0, 1] bcast_S64x256_S64x256x1x1_0_1),
    unary main_v54 main_v55 (broadcastInDim S64x256x64x5 ![0, 1, 2, 3] bcast_S64x256x1x1_S64x256x64x5_0_1_2_3),
    binary main_v4 main_v55 main_v56 mulf ]

abbrev seg1 : List (HloOp τ sig (Elt F)) :=
  [ nullary main_c_24 (constantI S_ 32 50#32),
    unary main_c_24 main_v57 (broadcastInDim S6 ![] bcast_S_S6),
    binary main_c_1 main_v57 main_v58 addi,
    ternary main_c_2 main_v58 main_c_1 main_v59 select,
    unary main_v59 main_v60 (broadcastInDim S6x1 ![0] bcast_S6_S6x1_0),
    binary main_arg0 main_v60 main_v61 (fun x i => Host.gather gather_S64x256x64x50_S6x1_S64x256x64x6_012_3_n_n_3_1_64256641 x i),
    nullary main_cst_25 (constant S_ .f32 0x00000000#32),
    binary main_v61 main_cst_25 main_v62 (fun x v => Host.reduceAdd x v reducesTo_S64x256x64x6_S64x256_d2_3 h_S_),
    nullary main_cst_26 (constant S_ .f32 0x43C00000#32),
    unary main_cst_26 main_v63 (broadcastInDim S64x256 ![] bcast_S_S64x256),
    binary main_v62 main_v63 main_v64 Host.divf,
    nullary main_cst_27 (constant S_ .f32 0xFF800000#32),
    binary main_v61 main_cst_27 main_v65 (fun x v => Host.reduce FloatOps.maximumf x v reducesTo_S64x256x64x6_S64x256_d2_3 h_S_),
    unary main_arg1 main_v66 (extractStridedSlice S1x16x256 ![1, 0, 0] · slices_S10x16x256_S1x16x256_1_0_0),
    reshape main_v66 main_v67 rfl shapeCasts_S1x16x256_S16x256,
    unary main_v67 main_v68 (transpose S256x16 [1, 0] · transposes_S16x256_S256x16_1_0),
    binary main_v64 main_v68 main_v69 (fun l r => Host.dotGeneral dot_S64x256_S256x16_S64x16_1_0_0_1_n_n none l r),
    unary main_arg2 main_v70 (extractStridedSlice S1x16 ![1, 0] · slices_S10x16_S1x16_1_0),
    reshape main_v70 main_v71 rfl shapeCasts_S1x16_S16,
    unary main_v71 main_v72 (broadcastInDim S1x16 ![1] bcast_S16_S1x16_1),
    unary main_v72 main_v73 (broadcastInDim S64x16 ![0, 1] bcast_S1x16_S64x16_0_1),
    binary main_v69 main_v73 main_v74 addf,
    nullary main_call2_cst (constant S_ .f32 0x00000000#32),
    unary main_call2_cst main_call2_v0 (broadcastInDim S64x16 ![] bcast_S_S64x16),
    binary main_v74 main_call2_v0 main_v75 maximumf,
    unary main_arg3 main_v76 (extractStridedSlice S1x256x16 ![1, 0, 0] · slices_S10x256x16_S1x256x16_1_0_0),
    reshape main_v76 main_v77 rfl shapeCasts_S1x256x16_S256x16,
    unary main_v77 main_v78 (transpose S16x256 [1, 0] · transposes_S256x16_S16x256_1_0),
    binary main_v75 main_v78 main_v79 (fun l r => Host.dotGeneral dot_S64x16_S16x256_S64x256_1_0_0_1_n_n none l r),
    unary main_arg4 main_v80 (extractStridedSlice S1x256 ![1, 0] · slices_S10x256_S1x256_1_0),
    reshape main_v80 main_v81 rfl shapeCasts_S1x256_S256,
    unary main_v81 main_v82 (broadcastInDim S1x256 ![1] bcast_S256_S1x256_1),
    unary main_v82 main_v83 (broadcastInDim S64x256 ![0, 1] bcast_S1x256_S64x256_0_1),
    binary main_v79 main_v83 main_v84 addf,
    unary main_arg1 main_v85 (extractStridedSlice S1x16x256 ![1, 0, 0] · slices_S10x16x256_S1x16x256_1_0_0),
    reshape main_v85 main_v86 rfl shapeCasts_S1x16x256_S16x256,
    unary main_v86 main_v87 (transpose S256x16 [1, 0] · transposes_S16x256_S256x16_1_0),
    binary main_v65 main_v87 main_v88 (fun l r => Host.dotGeneral dot_S64x256_S256x16_S64x16_1_0_0_1_n_n none l r),
    unary main_arg2 main_v89 (extractStridedSlice S1x16 ![1, 0] · slices_S10x16_S1x16_1_0),
    reshape main_v89 main_v90 rfl shapeCasts_S1x16_S16,
    unary main_v90 main_v91 (broadcastInDim S1x16 ![1] bcast_S16_S1x16_1),
    unary main_v91 main_v92 (broadcastInDim S64x16 ![0, 1] bcast_S1x16_S64x16_0_1),
    binary main_v88 main_v92 main_v93 addf,
    nullary main_call3_cst (constant S_ .f32 0x00000000#32),
    unary main_call3_cst main_call3_v0 (broadcastInDim S64x16 ![] bcast_S_S64x16),
    binary main_v93 main_call3_v0 main_v94 maximumf,
    unary main_arg3 main_v95 (extractStridedSlice S1x256x16 ![1, 0, 0] · slices_S10x256x16_S1x256x16_1_0_0),
    reshape main_v95 main_v96 rfl shapeCasts_S1x256x16_S256x16,
    unary main_v96 main_v97 (transpose S16x256 [1, 0] · transposes_S256x16_S16x256_1_0),
    binary main_v94 main_v97 main_v98 (fun l r => Host.dotGeneral dot_S64x16_S16x256_S64x256_1_0_0_1_n_n none l r),
    unary main_arg4 main_v99 (extractStridedSlice S1x256 ![1, 0] · slices_S10x256_S1x256_1_0),
    reshape main_v99 main_v100 rfl shapeCasts_S1x256_S256,
    unary main_v100 main_v101 (broadcastInDim S1x256 ![1] bcast_S256_S1x256_1),
    unary main_v101 main_v102 (broadcastInDim S64x256 ![0, 1] bcast_S1x256_S64x256_0_1),
    binary main_v98 main_v102 main_v103 addf,
    binary main_v84 main_v103 main_v104 addf,
    unary main_v104 main_v105 Host.negf,
    unary main_v105 main_v106 Host.exp,
    nullary main_cst_28 (constant S_ .f32 0x3F800000#32),
    unary main_cst_28 main_v107 (broadcastInDim S64x256 ![] bcast_S_S64x256),
    binary main_v107 main_v106 main_v108 addf,
    nullary main_cst_29 (constant S_ .f32 0x3F800000#32),
    unary main_cst_29 main_v109 (broadcastInDim S64x256 ![] bcast_S_S64x256),
    binary main_v109 main_v108 main_v110 Host.divf,
    unary main_v110 main_v111 (broadcastInDim S64x256x1x1 ![0, 1] bcast_S64x256_S64x256x1x1_0_1),
    unary main_v111 main_v112 (broadcastInDim S64x256x64x6 ![0, 1, 2, 3] bcast_S64x256x1x1_S64x256x64x6_0_1_2_3),
    binary main_v61 main_v112 main_v113 mulf ]

abbrev seg2 : List (HloOp τ sig (Elt F)) :=
  [ nullary main_c_30 (constantI S_ 32 50#32),
    unary main_c_30 main_v114 (broadcastInDim S4 ![] bcast_S_S4),
    binary main_c_3 main_v114 main_v115 addi,
    ternary main_c_4 main_v115 main_c_3 main_v116 select,
    unary main_v116 main_v117 (broadcastInDim S4x1 ![0] bcast_S4_S4x1_0),
    binary main_arg0 main_v117 main_v118 (fun x i => Host.gather gather_S64x256x64x50_S4x1_S64x256x64x4_012_3_n_n_3_1_64256641 x i),
    nullary main_cst_31 (constant S_ .f32 0x00000000#32),
    binary main_v118 main_cst_31 main_v119 (fun x v => Host.reduceAdd x v reducesTo_S64x256x64x4_S64x256_d2_3 h_S_),
    nullary main_cst_32 (constant S_ .f32 0x43800000#32),
    unary main_cst_32 main_v120 (broadcastInDim S64x256 ![] bcast_S_S64x256),
    binary main_v119 main_v120 main_v121 Host.divf,
    nullary main_cst_33 (constant S_ .f32 0xFF800000#32),
    binary main_v118 main_cst_33 main_v122 (fun x v => Host.reduce FloatOps.maximumf x v reducesTo_S64x256x64x4_S64x256_d2_3 h_S_),
    unary main_arg1 main_v123 (extractStridedSlice S1x16x256 ![2, 0, 0] · slices_S10x16x256_S1x16x256_2_0_0),
    reshape main_v123 main_v124 rfl shapeCasts_S1x16x256_S16x256,
    unary main_v124 main_v125 (transpose S256x16 [1, 0] · transposes_S16x256_S256x16_1_0),
    binary main_v121 main_v125 main_v126 (fun l r => Host.dotGeneral dot_S64x256_S256x16_S64x16_1_0_0_1_n_n none l r),
    unary main_arg2 main_v127 (extractStridedSlice S1x16 ![2, 0] · slices_S10x16_S1x16_2_0),
    reshape main_v127 main_v128 rfl shapeCasts_S1x16_S16,
    unary main_v128 main_v129 (broadcastInDim S1x16 ![1] bcast_S16_S1x16_1),
    unary main_v129 main_v130 (broadcastInDim S64x16 ![0, 1] bcast_S1x16_S64x16_0_1),
    binary main_v126 main_v130 main_v131 addf,
    nullary main_call4_cst (constant S_ .f32 0x00000000#32),
    unary main_call4_cst main_call4_v0 (broadcastInDim S64x16 ![] bcast_S_S64x16),
    binary main_v131 main_call4_v0 main_v132 maximumf,
    unary main_arg3 main_v133 (extractStridedSlice S1x256x16 ![2, 0, 0] · slices_S10x256x16_S1x256x16_2_0_0),
    reshape main_v133 main_v134 rfl shapeCasts_S1x256x16_S256x16,
    unary main_v134 main_v135 (transpose S16x256 [1, 0] · transposes_S256x16_S16x256_1_0),
    binary main_v132 main_v135 main_v136 (fun l r => Host.dotGeneral dot_S64x16_S16x256_S64x256_1_0_0_1_n_n none l r),
    unary main_arg4 main_v137 (extractStridedSlice S1x256 ![2, 0] · slices_S10x256_S1x256_2_0),
    reshape main_v137 main_v138 rfl shapeCasts_S1x256_S256,
    unary main_v138 main_v139 (broadcastInDim S1x256 ![1] bcast_S256_S1x256_1),
    unary main_v139 main_v140 (broadcastInDim S64x256 ![0, 1] bcast_S1x256_S64x256_0_1),
    binary main_v136 main_v140 main_v141 addf,
    unary main_arg1 main_v142 (extractStridedSlice S1x16x256 ![2, 0, 0] · slices_S10x16x256_S1x16x256_2_0_0),
    reshape main_v142 main_v143 rfl shapeCasts_S1x16x256_S16x256,
    unary main_v143 main_v144 (transpose S256x16 [1, 0] · transposes_S16x256_S256x16_1_0),
    binary main_v122 main_v144 main_v145 (fun l r => Host.dotGeneral dot_S64x256_S256x16_S64x16_1_0_0_1_n_n none l r),
    unary main_arg2 main_v146 (extractStridedSlice S1x16 ![2, 0] · slices_S10x16_S1x16_2_0),
    reshape main_v146 main_v147 rfl shapeCasts_S1x16_S16,
    unary main_v147 main_v148 (broadcastInDim S1x16 ![1] bcast_S16_S1x16_1),
    unary main_v148 main_v149 (broadcastInDim S64x16 ![0, 1] bcast_S1x16_S64x16_0_1),
    binary main_v145 main_v149 main_v150 addf,
    nullary main_call5_cst (constant S_ .f32 0x00000000#32),
    unary main_call5_cst main_call5_v0 (broadcastInDim S64x16 ![] bcast_S_S64x16),
    binary main_v150 main_call5_v0 main_v151 maximumf,
    unary main_arg3 main_v152 (extractStridedSlice S1x256x16 ![2, 0, 0] · slices_S10x256x16_S1x256x16_2_0_0),
    reshape main_v152 main_v153 rfl shapeCasts_S1x256x16_S256x16,
    unary main_v153 main_v154 (transpose S16x256 [1, 0] · transposes_S256x16_S16x256_1_0),
    binary main_v151 main_v154 main_v155 (fun l r => Host.dotGeneral dot_S64x16_S16x256_S64x256_1_0_0_1_n_n none l r),
    unary main_arg4 main_v156 (extractStridedSlice S1x256 ![2, 0] · slices_S10x256_S1x256_2_0),
    reshape main_v156 main_v157 rfl shapeCasts_S1x256_S256,
    unary main_v157 main_v158 (broadcastInDim S1x256 ![1] bcast_S256_S1x256_1),
    unary main_v158 main_v159 (broadcastInDim S64x256 ![0, 1] bcast_S1x256_S64x256_0_1),
    binary main_v155 main_v159 main_v160 addf,
    binary main_v141 main_v160 main_v161 addf,
    unary main_v161 main_v162 Host.negf,
    unary main_v162 main_v163 Host.exp,
    nullary main_cst_34 (constant S_ .f32 0x3F800000#32),
    unary main_cst_34 main_v164 (broadcastInDim S64x256 ![] bcast_S_S64x256),
    binary main_v164 main_v163 main_v165 addf,
    nullary main_cst_35 (constant S_ .f32 0x3F800000#32),
    unary main_cst_35 main_v166 (broadcastInDim S64x256 ![] bcast_S_S64x256),
    binary main_v166 main_v165 main_v167 Host.divf,
    unary main_v167 main_v168 (broadcastInDim S64x256x1x1 ![0, 1] bcast_S64x256_S64x256x1x1_0_1),
    unary main_v168 main_v169 (broadcastInDim S64x256x64x4 ![0, 1, 2, 3] bcast_S64x256x1x1_S64x256x64x4_0_1_2_3),
    binary main_v118 main_v169 main_v170 mulf ]

abbrev seg3 : List (HloOp τ sig (Elt F)) :=
  [ nullary main_c_36 (constantI S_ 32 50#32),
    unary main_c_36 main_v171 (broadcastInDim S6 ![] bcast_S_S6),
    binary main_c_5 main_v171 main_v172 addi,
    ternary main_c_6 main_v172 main_c_5 main_v173 select,
    unary main_v173 main_v174 (broadcastInDim S6x1 ![0] bcast_S6_S6x1_0),
    binary main_arg0 main_v174 main_v175 (fun x i => Host.gather gather_S64x256x64x50_S6x1_S64x256x64x6_012_3_n_n_3_1_64256641 x i),
    nullary main_cst_37 (constant S_ .f32 0x00000000#32),
    binary main_v175 main_cst_37 main_v176 (fun x v => Host.reduceAdd x v reducesTo_S64x256x64x6_S64x256_d2_3 h_S_),
    nullary main_cst_38 (constant S_ .f32 0x43C00000#32),
    unary main_cst_38 main_v177 (broadcastInDim S64x256 ![] bcast_S_S64x256),
    binary main_v176 main_v177 main_v178 Host.divf,
    nullary main_cst_39 (constant S_ .f32 0xFF800000#32),
    binary main_v175 main_cst_39 main_v179 (fun x v => Host.reduce FloatOps.maximumf x v reducesTo_S64x256x64x6_S64x256_d2_3 h_S_),
    unary main_arg1 main_v180 (extractStridedSlice S1x16x256 ![3, 0, 0] · slices_S10x16x256_S1x16x256_3_0_0),
    reshape main_v180 main_v181 rfl shapeCasts_S1x16x256_S16x256,
    unary main_v181 main_v182 (transpose S256x16 [1, 0] · transposes_S16x256_S256x16_1_0),
    binary main_v178 main_v182 main_v183 (fun l r => Host.dotGeneral dot_S64x256_S256x16_S64x16_1_0_0_1_n_n none l r),
    unary main_arg2 main_v184 (extractStridedSlice S1x16 ![3, 0] · slices_S10x16_S1x16_3_0),
    reshape main_v184 main_v185 rfl shapeCasts_S1x16_S16,
    unary main_v185 main_v186 (broadcastInDim S1x16 ![1] bcast_S16_S1x16_1),
    unary main_v186 main_v187 (broadcastInDim S64x16 ![0, 1] bcast_S1x16_S64x16_0_1),
    binary main_v183 main_v187 main_v188 addf,
    nullary main_call6_cst (constant S_ .f32 0x00000000#32),
    unary main_call6_cst main_call6_v0 (broadcastInDim S64x16 ![] bcast_S_S64x16),
    binary main_v188 main_call6_v0 main_v189 maximumf,
    unary main_arg3 main_v190 (extractStridedSlice S1x256x16 ![3, 0, 0] · slices_S10x256x16_S1x256x16_3_0_0),
    reshape main_v190 main_v191 rfl shapeCasts_S1x256x16_S256x16,
    unary main_v191 main_v192 (transpose S16x256 [1, 0] · transposes_S256x16_S16x256_1_0),
    binary main_v189 main_v192 main_v193 (fun l r => Host.dotGeneral dot_S64x16_S16x256_S64x256_1_0_0_1_n_n none l r),
    unary main_arg4 main_v194 (extractStridedSlice S1x256 ![3, 0] · slices_S10x256_S1x256_3_0),
    reshape main_v194 main_v195 rfl shapeCasts_S1x256_S256,
    unary main_v195 main_v196 (broadcastInDim S1x256 ![1] bcast_S256_S1x256_1),
    unary main_v196 main_v197 (broadcastInDim S64x256 ![0, 1] bcast_S1x256_S64x256_0_1),
    binary main_v193 main_v197 main_v198 addf,
    unary main_arg1 main_v199 (extractStridedSlice S1x16x256 ![3, 0, 0] · slices_S10x16x256_S1x16x256_3_0_0),
    reshape main_v199 main_v200 rfl shapeCasts_S1x16x256_S16x256,
    unary main_v200 main_v201 (transpose S256x16 [1, 0] · transposes_S16x256_S256x16_1_0),
    binary main_v179 main_v201 main_v202 (fun l r => Host.dotGeneral dot_S64x256_S256x16_S64x16_1_0_0_1_n_n none l r),
    unary main_arg2 main_v203 (extractStridedSlice S1x16 ![3, 0] · slices_S10x16_S1x16_3_0),
    reshape main_v203 main_v204 rfl shapeCasts_S1x16_S16,
    unary main_v204 main_v205 (broadcastInDim S1x16 ![1] bcast_S16_S1x16_1),
    unary main_v205 main_v206 (broadcastInDim S64x16 ![0, 1] bcast_S1x16_S64x16_0_1),
    binary main_v202 main_v206 main_v207 addf,
    nullary main_call7_cst (constant S_ .f32 0x00000000#32),
    unary main_call7_cst main_call7_v0 (broadcastInDim S64x16 ![] bcast_S_S64x16),
    binary main_v207 main_call7_v0 main_v208 maximumf,
    unary main_arg3 main_v209 (extractStridedSlice S1x256x16 ![3, 0, 0] · slices_S10x256x16_S1x256x16_3_0_0),
    reshape main_v209 main_v210 rfl shapeCasts_S1x256x16_S256x16,
    unary main_v210 main_v211 (transpose S16x256 [1, 0] · transposes_S256x16_S16x256_1_0),
    binary main_v208 main_v211 main_v212 (fun l r => Host.dotGeneral dot_S64x16_S16x256_S64x256_1_0_0_1_n_n none l r),
    unary main_arg4 main_v213 (extractStridedSlice S1x256 ![3, 0] · slices_S10x256_S1x256_3_0),
    reshape main_v213 main_v214 rfl shapeCasts_S1x256_S256,
    unary main_v214 main_v215 (broadcastInDim S1x256 ![1] bcast_S256_S1x256_1),
    unary main_v215 main_v216 (broadcastInDim S64x256 ![0, 1] bcast_S1x256_S64x256_0_1),
    binary main_v212 main_v216 main_v217 addf,
    binary main_v198 main_v217 main_v218 addf,
    unary main_v218 main_v219 Host.negf,
    unary main_v219 main_v220 Host.exp,
    nullary main_cst_40 (constant S_ .f32 0x3F800000#32),
    unary main_cst_40 main_v221 (broadcastInDim S64x256 ![] bcast_S_S64x256),
    binary main_v221 main_v220 main_v222 addf,
    nullary main_cst_41 (constant S_ .f32 0x3F800000#32),
    unary main_cst_41 main_v223 (broadcastInDim S64x256 ![] bcast_S_S64x256),
    binary main_v223 main_v222 main_v224 Host.divf,
    unary main_v224 main_v225 (broadcastInDim S64x256x1x1 ![0, 1] bcast_S64x256_S64x256x1x1_0_1),
    unary main_v225 main_v226 (broadcastInDim S64x256x64x6 ![0, 1, 2, 3] bcast_S64x256x1x1_S64x256x64x6_0_1_2_3),
    binary main_v175 main_v226 main_v227 mulf ]

abbrev seg4 : List (HloOp τ sig (Elt F)) :=
  [ nullary main_c_42 (constantI S_ 32 50#32),
    unary main_c_42 main_v228 (broadcastInDim S4 ![] bcast_S_S4),
    binary main_c_7 main_v228 main_v229 addi,
    ternary main_c_8 main_v229 main_c_7 main_v230 select,
    unary main_v230 main_v231 (broadcastInDim S4x1 ![0] bcast_S4_S4x1_0),
    binary main_arg0 main_v231 main_v232 (fun x i => Host.gather gather_S64x256x64x50_S4x1_S64x256x64x4_012_3_n_n_3_1_64256641 x i),
    nullary main_cst_43 (constant S_ .f32 0x00000000#32),
    binary main_v232 main_cst_43 main_v233 (fun x v => Host.reduceAdd x v reducesTo_S64x256x64x4_S64x256_d2_3 h_S_),
    nullary main_cst_44 (constant S_ .f32 0x43800000#32),
    unary main_cst_44 main_v234 (broadcastInDim S64x256 ![] bcast_S_S64x256),
    binary main_v233 main_v234 main_v235 Host.divf,
    nullary main_cst_45 (constant S_ .f32 0xFF800000#32),
    binary main_v232 main_cst_45 main_v236 (fun x v => Host.reduce FloatOps.maximumf x v reducesTo_S64x256x64x4_S64x256_d2_3 h_S_),
    unary main_arg1 main_v237 (extractStridedSlice S1x16x256 ![4, 0, 0] · slices_S10x16x256_S1x16x256_4_0_0),
    reshape main_v237 main_v238 rfl shapeCasts_S1x16x256_S16x256,
    unary main_v238 main_v239 (transpose S256x16 [1, 0] · transposes_S16x256_S256x16_1_0),
    binary main_v235 main_v239 main_v240 (fun l r => Host.dotGeneral dot_S64x256_S256x16_S64x16_1_0_0_1_n_n none l r),
    unary main_arg2 main_v241 (extractStridedSlice S1x16 ![4, 0] · slices_S10x16_S1x16_4_0),
    reshape main_v241 main_v242 rfl shapeCasts_S1x16_S16,
    unary main_v242 main_v243 (broadcastInDim S1x16 ![1] bcast_S16_S1x16_1),
    unary main_v243 main_v244 (broadcastInDim S64x16 ![0, 1] bcast_S1x16_S64x16_0_1),
    binary main_v240 main_v244 main_v245 addf,
    nullary main_call8_cst (constant S_ .f32 0x00000000#32),
    unary main_call8_cst main_call8_v0 (broadcastInDim S64x16 ![] bcast_S_S64x16),
    binary main_v245 main_call8_v0 main_v246 maximumf,
    unary main_arg3 main_v247 (extractStridedSlice S1x256x16 ![4, 0, 0] · slices_S10x256x16_S1x256x16_4_0_0),
    reshape main_v247 main_v248 rfl shapeCasts_S1x256x16_S256x16,
    unary main_v248 main_v249 (transpose S16x256 [1, 0] · transposes_S256x16_S16x256_1_0),
    binary main_v246 main_v249 main_v250 (fun l r => Host.dotGeneral dot_S64x16_S16x256_S64x256_1_0_0_1_n_n none l r),
    unary main_arg4 main_v251 (extractStridedSlice S1x256 ![4, 0] · slices_S10x256_S1x256_4_0),
    reshape main_v251 main_v252 rfl shapeCasts_S1x256_S256,
    unary main_v252 main_v253 (broadcastInDim S1x256 ![1] bcast_S256_S1x256_1),
    unary main_v253 main_v254 (broadcastInDim S64x256 ![0, 1] bcast_S1x256_S64x256_0_1),
    binary main_v250 main_v254 main_v255 addf,
    unary main_arg1 main_v256 (extractStridedSlice S1x16x256 ![4, 0, 0] · slices_S10x16x256_S1x16x256_4_0_0),
    reshape main_v256 main_v257 rfl shapeCasts_S1x16x256_S16x256,
    unary main_v257 main_v258 (transpose S256x16 [1, 0] · transposes_S16x256_S256x16_1_0),
    binary main_v236 main_v258 main_v259 (fun l r => Host.dotGeneral dot_S64x256_S256x16_S64x16_1_0_0_1_n_n none l r),
    unary main_arg2 main_v260 (extractStridedSlice S1x16 ![4, 0] · slices_S10x16_S1x16_4_0),
    reshape main_v260 main_v261 rfl shapeCasts_S1x16_S16,
    unary main_v261 main_v262 (broadcastInDim S1x16 ![1] bcast_S16_S1x16_1),
    unary main_v262 main_v263 (broadcastInDim S64x16 ![0, 1] bcast_S1x16_S64x16_0_1),
    binary main_v259 main_v263 main_v264 addf,
    nullary main_call9_cst (constant S_ .f32 0x00000000#32),
    unary main_call9_cst main_call9_v0 (broadcastInDim S64x16 ![] bcast_S_S64x16),
    binary main_v264 main_call9_v0 main_v265 maximumf,
    unary main_arg3 main_v266 (extractStridedSlice S1x256x16 ![4, 0, 0] · slices_S10x256x16_S1x256x16_4_0_0),
    reshape main_v266 main_v267 rfl shapeCasts_S1x256x16_S256x16,
    unary main_v267 main_v268 (transpose S16x256 [1, 0] · transposes_S256x16_S16x256_1_0),
    binary main_v265 main_v268 main_v269 (fun l r => Host.dotGeneral dot_S64x16_S16x256_S64x256_1_0_0_1_n_n none l r),
    unary main_arg4 main_v270 (extractStridedSlice S1x256 ![4, 0] · slices_S10x256_S1x256_4_0),
    reshape main_v270 main_v271 rfl shapeCasts_S1x256_S256,
    unary main_v271 main_v272 (broadcastInDim S1x256 ![1] bcast_S256_S1x256_1),
    unary main_v272 main_v273 (broadcastInDim S64x256 ![0, 1] bcast_S1x256_S64x256_0_1),
    binary main_v269 main_v273 main_v274 addf,
    binary main_v255 main_v274 main_v275 addf,
    unary main_v275 main_v276 Host.negf,
    unary main_v276 main_v277 Host.exp,
    nullary main_cst_46 (constant S_ .f32 0x3F800000#32),
    unary main_cst_46 main_v278 (broadcastInDim S64x256 ![] bcast_S_S64x256),
    binary main_v278 main_v277 main_v279 addf,
    nullary main_cst_47 (constant S_ .f32 0x3F800000#32),
    unary main_cst_47 main_v280 (broadcastInDim S64x256 ![] bcast_S_S64x256),
    binary main_v280 main_v279 main_v281 Host.divf,
    unary main_v281 main_v282 (broadcastInDim S64x256x1x1 ![0, 1] bcast_S64x256_S64x256x1x1_0_1),
    unary main_v282 main_v283 (broadcastInDim S64x256x64x4 ![0, 1, 2, 3] bcast_S64x256x1x1_S64x256x64x4_0_1_2_3),
    binary main_v232 main_v283 main_v284 mulf ]

abbrev seg5 : List (HloOp τ sig (Elt F)) :=
  [ nullary main_c_48 (constantI S_ 32 50#32),
    unary main_c_48 main_v285 (broadcastInDim S5 ![] bcast_S_S5),
    binary main_c_9 main_v285 main_v286 addi,
    ternary main_c_10 main_v286 main_c_9 main_v287 select,
    unary main_v287 main_v288 (broadcastInDim S5x1 ![0] bcast_S5_S5x1_0),
    binary main_arg0 main_v288 main_v289 (fun x i => Host.gather gather_S64x256x64x50_S5x1_S64x256x64x5_012_3_n_n_3_1_64256641 x i),
    nullary main_cst_49 (constant S_ .f32 0x00000000#32),
    binary main_v289 main_cst_49 main_v290 (fun x v => Host.reduceAdd x v reducesTo_S64x256x64x5_S64x256_d2_3 h_S_),
    nullary main_cst_50 (constant S_ .f32 0x43A00000#32),
    unary main_cst_50 main_v291 (broadcastInDim S64x256 ![] bcast_S_S64x256),
    binary main_v290 main_v291 main_v292 Host.divf,
    nullary main_cst_51 (constant S_ .f32 0xFF800000#32),
    binary main_v289 main_cst_51 main_v293 (fun x v => Host.reduce FloatOps.maximumf x v reducesTo_S64x256x64x5_S64x256_d2_3 h_S_),
    unary main_arg1 main_v294 (extractStridedSlice S1x16x256 ![5, 0, 0] · slices_S10x16x256_S1x16x256_5_0_0),
    reshape main_v294 main_v295 rfl shapeCasts_S1x16x256_S16x256,
    unary main_v295 main_v296 (transpose S256x16 [1, 0] · transposes_S16x256_S256x16_1_0),
    binary main_v292 main_v296 main_v297 (fun l r => Host.dotGeneral dot_S64x256_S256x16_S64x16_1_0_0_1_n_n none l r),
    unary main_arg2 main_v298 (extractStridedSlice S1x16 ![5, 0] · slices_S10x16_S1x16_5_0),
    reshape main_v298 main_v299 rfl shapeCasts_S1x16_S16,
    unary main_v299 main_v300 (broadcastInDim S1x16 ![1] bcast_S16_S1x16_1),
    unary main_v300 main_v301 (broadcastInDim S64x16 ![0, 1] bcast_S1x16_S64x16_0_1),
    binary main_v297 main_v301 main_v302 addf,
    nullary main_call10_cst (constant S_ .f32 0x00000000#32),
    unary main_call10_cst main_call10_v0 (broadcastInDim S64x16 ![] bcast_S_S64x16),
    binary main_v302 main_call10_v0 main_v303 maximumf,
    unary main_arg3 main_v304 (extractStridedSlice S1x256x16 ![5, 0, 0] · slices_S10x256x16_S1x256x16_5_0_0),
    reshape main_v304 main_v305 rfl shapeCasts_S1x256x16_S256x16,
    unary main_v305 main_v306 (transpose S16x256 [1, 0] · transposes_S256x16_S16x256_1_0),
    binary main_v303 main_v306 main_v307 (fun l r => Host.dotGeneral dot_S64x16_S16x256_S64x256_1_0_0_1_n_n none l r),
    unary main_arg4 main_v308 (extractStridedSlice S1x256 ![5, 0] · slices_S10x256_S1x256_5_0),
    reshape main_v308 main_v309 rfl shapeCasts_S1x256_S256,
    unary main_v309 main_v310 (broadcastInDim S1x256 ![1] bcast_S256_S1x256_1),
    unary main_v310 main_v311 (broadcastInDim S64x256 ![0, 1] bcast_S1x256_S64x256_0_1),
    binary main_v307 main_v311 main_v312 addf,
    unary main_arg1 main_v313 (extractStridedSlice S1x16x256 ![5, 0, 0] · slices_S10x16x256_S1x16x256_5_0_0),
    reshape main_v313 main_v314 rfl shapeCasts_S1x16x256_S16x256,
    unary main_v314 main_v315 (transpose S256x16 [1, 0] · transposes_S16x256_S256x16_1_0),
    binary main_v293 main_v315 main_v316 (fun l r => Host.dotGeneral dot_S64x256_S256x16_S64x16_1_0_0_1_n_n none l r),
    unary main_arg2 main_v317 (extractStridedSlice S1x16 ![5, 0] · slices_S10x16_S1x16_5_0),
    reshape main_v317 main_v318 rfl shapeCasts_S1x16_S16,
    unary main_v318 main_v319 (broadcastInDim S1x16 ![1] bcast_S16_S1x16_1),
    unary main_v319 main_v320 (broadcastInDim S64x16 ![0, 1] bcast_S1x16_S64x16_0_1),
    binary main_v316 main_v320 main_v321 addf,
    nullary main_call11_cst (constant S_ .f32 0x00000000#32),
    unary main_call11_cst main_call11_v0 (broadcastInDim S64x16 ![] bcast_S_S64x16),
    binary main_v321 main_call11_v0 main_v322 maximumf,
    unary main_arg3 main_v323 (extractStridedSlice S1x256x16 ![5, 0, 0] · slices_S10x256x16_S1x256x16_5_0_0),
    reshape main_v323 main_v324 rfl shapeCasts_S1x256x16_S256x16,
    unary main_v324 main_v325 (transpose S16x256 [1, 0] · transposes_S256x16_S16x256_1_0),
    binary main_v322 main_v325 main_v326 (fun l r => Host.dotGeneral dot_S64x16_S16x256_S64x256_1_0_0_1_n_n none l r),
    unary main_arg4 main_v327 (extractStridedSlice S1x256 ![5, 0] · slices_S10x256_S1x256_5_0),
    reshape main_v327 main_v328 rfl shapeCasts_S1x256_S256,
    unary main_v328 main_v329 (broadcastInDim S1x256 ![1] bcast_S256_S1x256_1),
    unary main_v329 main_v330 (broadcastInDim S64x256 ![0, 1] bcast_S1x256_S64x256_0_1),
    binary main_v326 main_v330 main_v331 addf,
    binary main_v312 main_v331 main_v332 addf,
    unary main_v332 main_v333 Host.negf,
    unary main_v333 main_v334 Host.exp,
    nullary main_cst_52 (constant S_ .f32 0x3F800000#32),
    unary main_cst_52 main_v335 (broadcastInDim S64x256 ![] bcast_S_S64x256),
    binary main_v335 main_v334 main_v336 addf,
    nullary main_cst_53 (constant S_ .f32 0x3F800000#32),
    unary main_cst_53 main_v337 (broadcastInDim S64x256 ![] bcast_S_S64x256),
    binary main_v337 main_v336 main_v338 Host.divf,
    unary main_v338 main_v339 (broadcastInDim S64x256x1x1 ![0, 1] bcast_S64x256_S64x256x1x1_0_1),
    unary main_v339 main_v340 (broadcastInDim S64x256x64x5 ![0, 1, 2, 3] bcast_S64x256x1x1_S64x256x64x5_0_1_2_3),
    binary main_v289 main_v340 main_v341 mulf ]

abbrev seg6 : List (HloOp τ sig (Elt F)) :=
  [ nullary main_c_54 (constantI S_ 32 50#32),
    unary main_c_54 main_v342 (broadcastInDim S6 ![] bcast_S_S6),
    binary main_c_11 main_v342 main_v343 addi,
    ternary main_c_12 main_v343 main_c_11 main_v344 select,
    unary main_v344 main_v345 (broadcastInDim S6x1 ![0] bcast_S6_S6x1_0),
    binary main_arg0 main_v345 main_v346 (fun x i => Host.gather gather_S64x256x64x50_S6x1_S64x256x64x6_012_3_n_n_3_1_64256641 x i),
    nullary main_cst_55 (constant S_ .f32 0x00000000#32),
    binary main_v346 main_cst_55 main_v347 (fun x v => Host.reduceAdd x v reducesTo_S64x256x64x6_S64x256_d2_3 h_S_),
    nullary main_cst_56 (constant S_ .f32 0x43C00000#32),
    unary main_cst_56 main_v348 (broadcastInDim S64x256 ![] bcast_S_S64x256),
    binary main_v347 main_v348 main_v349 Host.divf,
    nullary main_cst_57 (constant S_ .f32 0xFF800000#32),
    binary main_v346 main_cst_57 main_v350 (fun x v => Host.reduce FloatOps.maximumf x v reducesTo_S64x256x64x6_S64x256_d2_3 h_S_),
    unary main_arg1 main_v351 (extractStridedSlice S1x16x256 ![6, 0, 0] · slices_S10x16x256_S1x16x256_6_0_0),
    reshape main_v351 main_v352 rfl shapeCasts_S1x16x256_S16x256,
    unary main_v352 main_v353 (transpose S256x16 [1, 0] · transposes_S16x256_S256x16_1_0),
    binary main_v349 main_v353 main_v354 (fun l r => Host.dotGeneral dot_S64x256_S256x16_S64x16_1_0_0_1_n_n none l r),
    unary main_arg2 main_v355 (extractStridedSlice S1x16 ![6, 0] · slices_S10x16_S1x16_6_0),
    reshape main_v355 main_v356 rfl shapeCasts_S1x16_S16,
    unary main_v356 main_v357 (broadcastInDim S1x16 ![1] bcast_S16_S1x16_1),
    unary main_v357 main_v358 (broadcastInDim S64x16 ![0, 1] bcast_S1x16_S64x16_0_1),
    binary main_v354 main_v358 main_v359 addf,
    nullary main_call12_cst (constant S_ .f32 0x00000000#32),
    unary main_call12_cst main_call12_v0 (broadcastInDim S64x16 ![] bcast_S_S64x16),
    binary main_v359 main_call12_v0 main_v360 maximumf,
    unary main_arg3 main_v361 (extractStridedSlice S1x256x16 ![6, 0, 0] · slices_S10x256x16_S1x256x16_6_0_0),
    reshape main_v361 main_v362 rfl shapeCasts_S1x256x16_S256x16,
    unary main_v362 main_v363 (transpose S16x256 [1, 0] · transposes_S256x16_S16x256_1_0),
    binary main_v360 main_v363 main_v364 (fun l r => Host.dotGeneral dot_S64x16_S16x256_S64x256_1_0_0_1_n_n none l r),
    unary main_arg4 main_v365 (extractStridedSlice S1x256 ![6, 0] · slices_S10x256_S1x256_6_0),
    reshape main_v365 main_v366 rfl shapeCasts_S1x256_S256,
    unary main_v366 main_v367 (broadcastInDim S1x256 ![1] bcast_S256_S1x256_1),
    unary main_v367 main_v368 (broadcastInDim S64x256 ![0, 1] bcast_S1x256_S64x256_0_1),
    binary main_v364 main_v368 main_v369 addf,
    unary main_arg1 main_v370 (extractStridedSlice S1x16x256 ![6, 0, 0] · slices_S10x16x256_S1x16x256_6_0_0),
    reshape main_v370 main_v371 rfl shapeCasts_S1x16x256_S16x256,
    unary main_v371 main_v372 (transpose S256x16 [1, 0] · transposes_S16x256_S256x16_1_0),
    binary main_v350 main_v372 main_v373 (fun l r => Host.dotGeneral dot_S64x256_S256x16_S64x16_1_0_0_1_n_n none l r),
    unary main_arg2 main_v374 (extractStridedSlice S1x16 ![6, 0] · slices_S10x16_S1x16_6_0),
    reshape main_v374 main_v375 rfl shapeCasts_S1x16_S16,
    unary main_v375 main_v376 (broadcastInDim S1x16 ![1] bcast_S16_S1x16_1),
    unary main_v376 main_v377 (broadcastInDim S64x16 ![0, 1] bcast_S1x16_S64x16_0_1),
    binary main_v373 main_v377 main_v378 addf,
    nullary main_call13_cst (constant S_ .f32 0x00000000#32),
    unary main_call13_cst main_call13_v0 (broadcastInDim S64x16 ![] bcast_S_S64x16),
    binary main_v378 main_call13_v0 main_v379 maximumf,
    unary main_arg3 main_v380 (extractStridedSlice S1x256x16 ![6, 0, 0] · slices_S10x256x16_S1x256x16_6_0_0),
    reshape main_v380 main_v381 rfl shapeCasts_S1x256x16_S256x16,
    unary main_v381 main_v382 (transpose S16x256 [1, 0] · transposes_S256x16_S16x256_1_0),
    binary main_v379 main_v382 main_v383 (fun l r => Host.dotGeneral dot_S64x16_S16x256_S64x256_1_0_0_1_n_n none l r),
    unary main_arg4 main_v384 (extractStridedSlice S1x256 ![6, 0] · slices_S10x256_S1x256_6_0),
    reshape main_v384 main_v385 rfl shapeCasts_S1x256_S256,
    unary main_v385 main_v386 (broadcastInDim S1x256 ![1] bcast_S256_S1x256_1),
    unary main_v386 main_v387 (broadcastInDim S64x256 ![0, 1] bcast_S1x256_S64x256_0_1),
    binary main_v383 main_v387 main_v388 addf,
    binary main_v369 main_v388 main_v389 addf,
    unary main_v389 main_v390 Host.negf,
    unary main_v390 main_v391 Host.exp,
    nullary main_cst_58 (constant S_ .f32 0x3F800000#32),
    unary main_cst_58 main_v392 (broadcastInDim S64x256 ![] bcast_S_S64x256),
    binary main_v392 main_v391 main_v393 addf,
    nullary main_cst_59 (constant S_ .f32 0x3F800000#32),
    unary main_cst_59 main_v394 (broadcastInDim S64x256 ![] bcast_S_S64x256),
    binary main_v394 main_v393 main_v395 Host.divf,
    unary main_v395 main_v396 (broadcastInDim S64x256x1x1 ![0, 1] bcast_S64x256_S64x256x1x1_0_1),
    unary main_v396 main_v397 (broadcastInDim S64x256x64x6 ![0, 1, 2, 3] bcast_S64x256x1x1_S64x256x64x6_0_1_2_3),
    binary main_v346 main_v397 main_v398 mulf ]

abbrev seg7 : List (HloOp τ sig (Elt F)) :=
  [ nullary main_c_60 (constantI S_ 32 50#32),
    unary main_c_60 main_v399 (broadcastInDim S4 ![] bcast_S_S4),
    binary main_c_13 main_v399 main_v400 addi,
    ternary main_c_14 main_v400 main_c_13 main_v401 select,
    unary main_v401 main_v402 (broadcastInDim S4x1 ![0] bcast_S4_S4x1_0),
    binary main_arg0 main_v402 main_v403 (fun x i => Host.gather gather_S64x256x64x50_S4x1_S64x256x64x4_012_3_n_n_3_1_64256641 x i),
    nullary main_cst_61 (constant S_ .f32 0x00000000#32),
    binary main_v403 main_cst_61 main_v404 (fun x v => Host.reduceAdd x v reducesTo_S64x256x64x4_S64x256_d2_3 h_S_),
    nullary main_cst_62 (constant S_ .f32 0x43800000#32),
    unary main_cst_62 main_v405 (broadcastInDim S64x256 ![] bcast_S_S64x256),
    binary main_v404 main_v405 main_v406 Host.divf,
    nullary main_cst_63 (constant S_ .f32 0xFF800000#32),
    binary main_v403 main_cst_63 main_v407 (fun x v => Host.reduce FloatOps.maximumf x v reducesTo_S64x256x64x4_S64x256_d2_3 h_S_),
    unary main_arg1 main_v408 (extractStridedSlice S1x16x256 ![7, 0, 0] · slices_S10x16x256_S1x16x256_7_0_0),
    reshape main_v408 main_v409 rfl shapeCasts_S1x16x256_S16x256,
    unary main_v409 main_v410 (transpose S256x16 [1, 0] · transposes_S16x256_S256x16_1_0),
    binary main_v406 main_v410 main_v411 (fun l r => Host.dotGeneral dot_S64x256_S256x16_S64x16_1_0_0_1_n_n none l r),
    unary main_arg2 main_v412 (extractStridedSlice S1x16 ![7, 0] · slices_S10x16_S1x16_7_0),
    reshape main_v412 main_v413 rfl shapeCasts_S1x16_S16,
    unary main_v413 main_v414 (broadcastInDim S1x16 ![1] bcast_S16_S1x16_1),
    unary main_v414 main_v415 (broadcastInDim S64x16 ![0, 1] bcast_S1x16_S64x16_0_1),
    binary main_v411 main_v415 main_v416 addf,
    nullary main_call14_cst (constant S_ .f32 0x00000000#32),
    unary main_call14_cst main_call14_v0 (broadcastInDim S64x16 ![] bcast_S_S64x16),
    binary main_v416 main_call14_v0 main_v417 maximumf,
    unary main_arg3 main_v418 (extractStridedSlice S1x256x16 ![7, 0, 0] · slices_S10x256x16_S1x256x16_7_0_0),
    reshape main_v418 main_v419 rfl shapeCasts_S1x256x16_S256x16,
    unary main_v419 main_v420 (transpose S16x256 [1, 0] · transposes_S256x16_S16x256_1_0),
    binary main_v417 main_v420 main_v421 (fun l r => Host.dotGeneral dot_S64x16_S16x256_S64x256_1_0_0_1_n_n none l r),
    unary main_arg4 main_v422 (extractStridedSlice S1x256 ![7, 0] · slices_S10x256_S1x256_7_0),
    reshape main_v422 main_v423 rfl shapeCasts_S1x256_S256,
    unary main_v423 main_v424 (broadcastInDim S1x256 ![1] bcast_S256_S1x256_1),
    unary main_v424 main_v425 (broadcastInDim S64x256 ![0, 1] bcast_S1x256_S64x256_0_1),
    binary main_v421 main_v425 main_v426 addf,
    unary main_arg1 main_v427 (extractStridedSlice S1x16x256 ![7, 0, 0] · slices_S10x16x256_S1x16x256_7_0_0),
    reshape main_v427 main_v428 rfl shapeCasts_S1x16x256_S16x256,
    unary main_v428 main_v429 (transpose S256x16 [1, 0] · transposes_S16x256_S256x16_1_0),
    binary main_v407 main_v429 main_v430 (fun l r => Host.dotGeneral dot_S64x256_S256x16_S64x16_1_0_0_1_n_n none l r),
    unary main_arg2 main_v431 (extractStridedSlice S1x16 ![7, 0] · slices_S10x16_S1x16_7_0),
    reshape main_v431 main_v432 rfl shapeCasts_S1x16_S16,
    unary main_v432 main_v433 (broadcastInDim S1x16 ![1] bcast_S16_S1x16_1),
    unary main_v433 main_v434 (broadcastInDim S64x16 ![0, 1] bcast_S1x16_S64x16_0_1),
    binary main_v430 main_v434 main_v435 addf,
    nullary main_call15_cst (constant S_ .f32 0x00000000#32),
    unary main_call15_cst main_call15_v0 (broadcastInDim S64x16 ![] bcast_S_S64x16),
    binary main_v435 main_call15_v0 main_v436 maximumf,
    unary main_arg3 main_v437 (extractStridedSlice S1x256x16 ![7, 0, 0] · slices_S10x256x16_S1x256x16_7_0_0),
    reshape main_v437 main_v438 rfl shapeCasts_S1x256x16_S256x16,
    unary main_v438 main_v439 (transpose S16x256 [1, 0] · transposes_S256x16_S16x256_1_0),
    binary main_v436 main_v439 main_v440 (fun l r => Host.dotGeneral dot_S64x16_S16x256_S64x256_1_0_0_1_n_n none l r),
    unary main_arg4 main_v441 (extractStridedSlice S1x256 ![7, 0] · slices_S10x256_S1x256_7_0),
    reshape main_v441 main_v442 rfl shapeCasts_S1x256_S256,
    unary main_v442 main_v443 (broadcastInDim S1x256 ![1] bcast_S256_S1x256_1),
    unary main_v443 main_v444 (broadcastInDim S64x256 ![0, 1] bcast_S1x256_S64x256_0_1),
    binary main_v440 main_v444 main_v445 addf,
    binary main_v426 main_v445 main_v446 addf,
    unary main_v446 main_v447 Host.negf,
    unary main_v447 main_v448 Host.exp,
    nullary main_cst_64 (constant S_ .f32 0x3F800000#32),
    unary main_cst_64 main_v449 (broadcastInDim S64x256 ![] bcast_S_S64x256),
    binary main_v449 main_v448 main_v450 addf,
    nullary main_cst_65 (constant S_ .f32 0x3F800000#32),
    unary main_cst_65 main_v451 (broadcastInDim S64x256 ![] bcast_S_S64x256),
    binary main_v451 main_v450 main_v452 Host.divf,
    unary main_v452 main_v453 (broadcastInDim S64x256x1x1 ![0, 1] bcast_S64x256_S64x256x1x1_0_1),
    unary main_v453 main_v454 (broadcastInDim S64x256x64x4 ![0, 1, 2, 3] bcast_S64x256x1x1_S64x256x64x4_0_1_2_3),
    binary main_v403 main_v454 main_v455 mulf ]

abbrev seg8 : List (HloOp τ sig (Elt F)) :=
  [ nullary main_c_66 (constantI S_ 32 50#32),
    unary main_c_66 main_v456 (broadcastInDim S6 ![] bcast_S_S6),
    binary main_c_15 main_v456 main_v457 addi,
    ternary main_c_16 main_v457 main_c_15 main_v458 select,
    unary main_v458 main_v459 (broadcastInDim S6x1 ![0] bcast_S6_S6x1_0),
    binary main_arg0 main_v459 main_v460 (fun x i => Host.gather gather_S64x256x64x50_S6x1_S64x256x64x6_012_3_n_n_3_1_64256641 x i),
    nullary main_cst_67 (constant S_ .f32 0x00000000#32),
    binary main_v460 main_cst_67 main_v461 (fun x v => Host.reduceAdd x v reducesTo_S64x256x64x6_S64x256_d2_3 h_S_),
    nullary main_cst_68 (constant S_ .f32 0x43C00000#32),
    unary main_cst_68 main_v462 (broadcastInDim S64x256 ![] bcast_S_S64x256),
    binary main_v461 main_v462 main_v463 Host.divf,
    nullary main_cst_69 (constant S_ .f32 0xFF800000#32),
    binary main_v460 main_cst_69 main_v464 (fun x v => Host.reduce FloatOps.maximumf x v reducesTo_S64x256x64x6_S64x256_d2_3 h_S_),
    unary main_arg1 main_v465 (extractStridedSlice S1x16x256 ![8, 0, 0] · slices_S10x16x256_S1x16x256_8_0_0),
    reshape main_v465 main_v466 rfl shapeCasts_S1x16x256_S16x256,
    unary main_v466 main_v467 (transpose S256x16 [1, 0] · transposes_S16x256_S256x16_1_0),
    binary main_v463 main_v467 main_v468 (fun l r => Host.dotGeneral dot_S64x256_S256x16_S64x16_1_0_0_1_n_n none l r),
    unary main_arg2 main_v469 (extractStridedSlice S1x16 ![8, 0] · slices_S10x16_S1x16_8_0),
    reshape main_v469 main_v470 rfl shapeCasts_S1x16_S16,
    unary main_v470 main_v471 (broadcastInDim S1x16 ![1] bcast_S16_S1x16_1),
    unary main_v471 main_v472 (broadcastInDim S64x16 ![0, 1] bcast_S1x16_S64x16_0_1),
    binary main_v468 main_v472 main_v473 addf,
    nullary main_call16_cst (constant S_ .f32 0x00000000#32),
    unary main_call16_cst main_call16_v0 (broadcastInDim S64x16 ![] bcast_S_S64x16),
    binary main_v473 main_call16_v0 main_v474 maximumf,
    unary main_arg3 main_v475 (extractStridedSlice S1x256x16 ![8, 0, 0] · slices_S10x256x16_S1x256x16_8_0_0),
    reshape main_v475 main_v476 rfl shapeCasts_S1x256x16_S256x16,
    unary main_v476 main_v477 (transpose S16x256 [1, 0] · transposes_S256x16_S16x256_1_0),
    binary main_v474 main_v477 main_v478 (fun l r => Host.dotGeneral dot_S64x16_S16x256_S64x256_1_0_0_1_n_n none l r),
    unary main_arg4 main_v479 (extractStridedSlice S1x256 ![8, 0] · slices_S10x256_S1x256_8_0),
    reshape main_v479 main_v480 rfl shapeCasts_S1x256_S256,
    unary main_v480 main_v481 (broadcastInDim S1x256 ![1] bcast_S256_S1x256_1),
    unary main_v481 main_v482 (broadcastInDim S64x256 ![0, 1] bcast_S1x256_S64x256_0_1),
    binary main_v478 main_v482 main_v483 addf,
    unary main_arg1 main_v484 (extractStridedSlice S1x16x256 ![8, 0, 0] · slices_S10x16x256_S1x16x256_8_0_0),
    reshape main_v484 main_v485 rfl shapeCasts_S1x16x256_S16x256,
    unary main_v485 main_v486 (transpose S256x16 [1, 0] · transposes_S16x256_S256x16_1_0),
    binary main_v464 main_v486 main_v487 (fun l r => Host.dotGeneral dot_S64x256_S256x16_S64x16_1_0_0_1_n_n none l r),
    unary main_arg2 main_v488 (extractStridedSlice S1x16 ![8, 0] · slices_S10x16_S1x16_8_0),
    reshape main_v488 main_v489 rfl shapeCasts_S1x16_S16,
    unary main_v489 main_v490 (broadcastInDim S1x16 ![1] bcast_S16_S1x16_1),
    unary main_v490 main_v491 (broadcastInDim S64x16 ![0, 1] bcast_S1x16_S64x16_0_1),
    binary main_v487 main_v491 main_v492 addf,
    nullary main_call17_cst (constant S_ .f32 0x00000000#32),
    unary main_call17_cst main_call17_v0 (broadcastInDim S64x16 ![] bcast_S_S64x16),
    binary main_v492 main_call17_v0 main_v493 maximumf,
    unary main_arg3 main_v494 (extractStridedSlice S1x256x16 ![8, 0, 0] · slices_S10x256x16_S1x256x16_8_0_0),
    reshape main_v494 main_v495 rfl shapeCasts_S1x256x16_S256x16,
    unary main_v495 main_v496 (transpose S16x256 [1, 0] · transposes_S256x16_S16x256_1_0),
    binary main_v493 main_v496 main_v497 (fun l r => Host.dotGeneral dot_S64x16_S16x256_S64x256_1_0_0_1_n_n none l r),
    unary main_arg4 main_v498 (extractStridedSlice S1x256 ![8, 0] · slices_S10x256_S1x256_8_0),
    reshape main_v498 main_v499 rfl shapeCasts_S1x256_S256,
    unary main_v499 main_v500 (broadcastInDim S1x256 ![1] bcast_S256_S1x256_1),
    unary main_v500 main_v501 (broadcastInDim S64x256 ![0, 1] bcast_S1x256_S64x256_0_1),
    binary main_v497 main_v501 main_v502 addf,
    binary main_v483 main_v502 main_v503 addf,
    unary main_v503 main_v504 Host.negf,
    unary main_v504 main_v505 Host.exp,
    nullary main_cst_70 (constant S_ .f32 0x3F800000#32),
    unary main_cst_70 main_v506 (broadcastInDim S64x256 ![] bcast_S_S64x256),
    binary main_v506 main_v505 main_v507 addf,
    nullary main_cst_71 (constant S_ .f32 0x3F800000#32),
    unary main_cst_71 main_v508 (broadcastInDim S64x256 ![] bcast_S_S64x256),
    binary main_v508 main_v507 main_v509 Host.divf,
    unary main_v509 main_v510 (broadcastInDim S64x256x1x1 ![0, 1] bcast_S64x256_S64x256x1x1_0_1),
    unary main_v510 main_v511 (broadcastInDim S64x256x64x6 ![0, 1, 2, 3] bcast_S64x256x1x1_S64x256x64x6_0_1_2_3),
    binary main_v460 main_v511 main_v512 mulf ]

abbrev seg9 : List (HloOp τ sig (Elt F)) :=
  [ nullary main_c_72 (constantI S_ 32 50#32),
    unary main_c_72 main_v513 (broadcastInDim S4 ![] bcast_S_S4),
    binary main_c_17 main_v513 main_v514 addi,
    ternary main_c_18 main_v514 main_c_17 main_v515 select,
    unary main_v515 main_v516 (broadcastInDim S4x1 ![0] bcast_S4_S4x1_0),
    binary main_arg0 main_v516 main_v517 (fun x i => Host.gather gather_S64x256x64x50_S4x1_S64x256x64x4_012_3_n_n_3_1_64256641 x i),
    nullary main_cst_73 (constant S_ .f32 0x00000000#32),
    binary main_v517 main_cst_73 main_v518 (fun x v => Host.reduceAdd x v reducesTo_S64x256x64x4_S64x256_d2_3 h_S_),
    nullary main_cst_74 (constant S_ .f32 0x43800000#32),
    unary main_cst_74 main_v519 (broadcastInDim S64x256 ![] bcast_S_S64x256),
    binary main_v518 main_v519 main_v520 Host.divf,
    nullary main_cst_75 (constant S_ .f32 0xFF800000#32),
    binary main_v517 main_cst_75 main_v521 (fun x v => Host.reduce FloatOps.maximumf x v reducesTo_S64x256x64x4_S64x256_d2_3 h_S_),
    unary main_arg1 main_v522 (extractStridedSlice S1x16x256 ![9, 0, 0] · slices_S10x16x256_S1x16x256_9_0_0),
    reshape main_v522 main_v523 rfl shapeCasts_S1x16x256_S16x256,
    unary main_v523 main_v524 (transpose S256x16 [1, 0] · transposes_S16x256_S256x16_1_0),
    binary main_v520 main_v524 main_v525 (fun l r => Host.dotGeneral dot_S64x256_S256x16_S64x16_1_0_0_1_n_n none l r),
    unary main_arg2 main_v526 (extractStridedSlice S1x16 ![9, 0] · slices_S10x16_S1x16_9_0),
    reshape main_v526 main_v527 rfl shapeCasts_S1x16_S16,
    unary main_v527 main_v528 (broadcastInDim S1x16 ![1] bcast_S16_S1x16_1),
    unary main_v528 main_v529 (broadcastInDim S64x16 ![0, 1] bcast_S1x16_S64x16_0_1),
    binary main_v525 main_v529 main_v530 addf,
    nullary main_call18_cst (constant S_ .f32 0x00000000#32),
    unary main_call18_cst main_call18_v0 (broadcastInDim S64x16 ![] bcast_S_S64x16),
    binary main_v530 main_call18_v0 main_v531 maximumf,
    unary main_arg3 main_v532 (extractStridedSlice S1x256x16 ![9, 0, 0] · slices_S10x256x16_S1x256x16_9_0_0),
    reshape main_v532 main_v533 rfl shapeCasts_S1x256x16_S256x16,
    unary main_v533 main_v534 (transpose S16x256 [1, 0] · transposes_S256x16_S16x256_1_0),
    binary main_v531 main_v534 main_v535 (fun l r => Host.dotGeneral dot_S64x16_S16x256_S64x256_1_0_0_1_n_n none l r),
    unary main_arg4 main_v536 (extractStridedSlice S1x256 ![9, 0] · slices_S10x256_S1x256_9_0),
    reshape main_v536 main_v537 rfl shapeCasts_S1x256_S256,
    unary main_v537 main_v538 (broadcastInDim S1x256 ![1] bcast_S256_S1x256_1),
    unary main_v538 main_v539 (broadcastInDim S64x256 ![0, 1] bcast_S1x256_S64x256_0_1),
    binary main_v535 main_v539 main_v540 addf,
    unary main_arg1 main_v541 (extractStridedSlice S1x16x256 ![9, 0, 0] · slices_S10x16x256_S1x16x256_9_0_0),
    reshape main_v541 main_v542 rfl shapeCasts_S1x16x256_S16x256,
    unary main_v542 main_v543 (transpose S256x16 [1, 0] · transposes_S16x256_S256x16_1_0),
    binary main_v521 main_v543 main_v544 (fun l r => Host.dotGeneral dot_S64x256_S256x16_S64x16_1_0_0_1_n_n none l r),
    unary main_arg2 main_v545 (extractStridedSlice S1x16 ![9, 0] · slices_S10x16_S1x16_9_0),
    reshape main_v545 main_v546 rfl shapeCasts_S1x16_S16,
    unary main_v546 main_v547 (broadcastInDim S1x16 ![1] bcast_S16_S1x16_1),
    unary main_v547 main_v548 (broadcastInDim S64x16 ![0, 1] bcast_S1x16_S64x16_0_1),
    binary main_v544 main_v548 main_v549 addf,
    nullary main_call19_cst (constant S_ .f32 0x00000000#32),
    unary main_call19_cst main_call19_v0 (broadcastInDim S64x16 ![] bcast_S_S64x16),
    binary main_v549 main_call19_v0 main_v550 maximumf,
    unary main_arg3 main_v551 (extractStridedSlice S1x256x16 ![9, 0, 0] · slices_S10x256x16_S1x256x16_9_0_0),
    reshape main_v551 main_v552 rfl shapeCasts_S1x256x16_S256x16,
    unary main_v552 main_v553 (transpose S16x256 [1, 0] · transposes_S256x16_S16x256_1_0),
    binary main_v550 main_v553 main_v554 (fun l r => Host.dotGeneral dot_S64x16_S16x256_S64x256_1_0_0_1_n_n none l r),
    unary main_arg4 main_v555 (extractStridedSlice S1x256 ![9, 0] · slices_S10x256_S1x256_9_0),
    reshape main_v555 main_v556 rfl shapeCasts_S1x256_S256,
    unary main_v556 main_v557 (broadcastInDim S1x256 ![1] bcast_S256_S1x256_1),
    unary main_v557 main_v558 (broadcastInDim S64x256 ![0, 1] bcast_S1x256_S64x256_0_1),
    binary main_v554 main_v558 main_v559 addf,
    binary main_v540 main_v559 main_v560 addf,
    unary main_v560 main_v561 Host.negf,
    unary main_v561 main_v562 Host.exp,
    nullary main_cst_76 (constant S_ .f32 0x3F800000#32),
    unary main_cst_76 main_v563 (broadcastInDim S64x256 ![] bcast_S_S64x256),
    binary main_v563 main_v562 main_v564 addf,
    nullary main_cst_77 (constant S_ .f32 0x3F800000#32),
    unary main_cst_77 main_v565 (broadcastInDim S64x256 ![] bcast_S_S64x256),
    binary main_v565 main_v564 main_v566 Host.divf,
    unary main_v566 main_v567 (broadcastInDim S64x256x1x1 ![0, 1] bcast_S64x256_S64x256x1x1_0_1),
    unary main_v567 main_v568 (broadcastInDim S64x256x64x4 ![0, 1, 2, 3] bcast_S64x256x1x1_S64x256x64x4_0_1_2_3),
    binary main_v517 main_v568 main_v569 mulf ]

abbrev fin : List (HloOp τ sig (Elt F)) :=
  [ nary ![main_v56, main_v113, main_v170, main_v227, main_v284, main_v341, main_v398, main_v455, main_v512, main_v569] main_v570 (fun u => concatenate S64x256x64x50 3 [⟨S64x256x64x5, u 0⟩, ⟨S64x256x64x6, u 1⟩, ⟨S64x256x64x4, u 2⟩, ⟨S64x256x64x6, u 3⟩, ⟨S64x256x64x4, u 4⟩, ⟨S64x256x64x5, u 5⟩, ⟨S64x256x64x6, u 6⟩, ⟨S64x256x64x4, u 7⟩, ⟨S64x256x64x6, u 8⟩, ⟨S64x256x64x4, u 9⟩] concatenates_S64x256x64x5_S64x256x64x6_S64x256x64x4_S64x256x64x6_S64x256x64x4_S64x256x64x5_S64x256x64x6_S64x256x64x4_S64x256x64x6_S64x256x64x4_S64x256x64x50_d3) ]

abbrev ops : List (HloOp τ sig (Elt F)) :=
  pre ++ seg0 ++ seg1 ++ seg2 ++ seg3 ++ seg4 ++ seg5 ++ seg6 ++ seg7 ++ seg8 ++ seg9 ++ fin

end Cert.ReferenceIdeal.Run

end
-- ==== Proof.RefRun.lean ====
import proofs.«137943_j1228360647386_1_alg».proof.Proof.RefOps
import Mathlib.Data.List.Basic

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

-- A printed block of sixty statements: the rest of one stretch from position `a`, then the head `r` of the next.
def win (l : List (HloOp τ sig (Elt F))) (a : ℕ) (r : List (HloOp τ sig (Elt F))) : List (HloOp τ sig (Elt F)) := l.drop a ++ r

theorem take_drop_append {α : Type*} (l r : List α) (n : ℕ) : l.take n ++ (l.drop n ++ r) = l ++ r := by
  rw [← List.append_assoc, List.take_append_drop]

set_option maxRecDepth 8192 in
set_option maxHeartbeats 4000000 in
theorem part0_eq (c : Dev nD) : main_part0 (F := F) c = seq (win pre 0 (seg0.take 42)) := rfl

set_option maxRecDepth 8192 in
set_option maxHeartbeats 4000000 in
theorem part1_eq (c : Dev nD) : main_part1 (F := F) c = seq (win seg0 42 (seg1.take 39)) := rfl

set_option maxRecDepth 8192 in
set_option maxHeartbeats 4000000 in
theorem part2_eq (c : Dev nD) : main_part2 (F := F) c = seq (win seg1 39 (seg2.take 36)) := rfl

set_option maxRecDepth 8192 in
set_option maxHeartbeats 4000000 in
theorem part3_eq (c : Dev nD) : main_part3 (F := F) c = seq (win seg2 36 (seg3.take 33)) := rfl

set_option maxRecDepth 8192 in
set_option maxHeartbeats 4000000 in
theorem part4_eq (c : Dev nD) : main_part4 (F := F) c = seq (win seg3 33 (seg4.take 30)) := rfl

set_option maxRecDepth 8192 in
set_option maxHeartbeats 4000000 in
theorem part5_eq (c : Dev nD) : main_part5 (F := F) c = seq (win seg4 30 (seg5.take 27)) := rfl

set_option maxRecDepth 8192 in
set_option maxHeartbeats 4000000 in
theorem part6_eq (c : Dev nD) : main_part6 (F := F) c = seq (win seg5 27 (seg6.take 22)) := rfl

set_option maxRecDepth 8192 in
set_option maxHeartbeats 4000000 in
theorem part7_eq (c : Dev nD) : main_part7 (F := F) c = seq (win seg6 22 (seg7.take 19)) := rfl

set_option maxRecDepth 8192 in
set_option maxHeartbeats 4000000 in
theorem part8_eq (c : Dev nD) : main_part8 (F := F) c = seq (win seg7 19 (seg8.take 16)) := rfl

set_option maxRecDepth 8192 in
set_option maxHeartbeats 4000000 in
theorem part9_eq (c : Dev nD) : main_part9 (F := F) c = seq (win seg8 16 (seg9.take 13)) := rfl

set_option maxRecDepth 8192 in
set_option maxHeartbeats 4000000 in
theorem part10_eq (c : Dev nD) : main_part10 (F := F) c = seq (win seg9 13 fin) := rfl

-- Cutting every stretch in two and laying the pieces end to end gives the stretches back.
theorem wins_eq : (win pre 0 (seg0.take 42) ++ win seg0 42 (seg1.take 39) ++ win seg1 39 (seg2.take 36) ++ win seg2 36 (seg3.take 33) ++ win seg3 33 (seg4.take 30) ++ win seg4 30 (seg5.take 27) ++ win seg5 27 (seg6.take 22) ++ win seg6 22 (seg7.take 19) ++ win seg7 19 (seg8.take 16) ++ win seg8 16 (seg9.take 13) ++ win seg9 13 fin : List (HloOp τ sig (Elt F))) = ops := by
  simp only [win, ops, List.append_assoc, take_drop_append, List.drop_zero]

-- Blocks run one after the other are their concatenation run as one.
theorem main_eq (c : Dev nD) : main (F := F) c = seq ops := by
  rw [← wins_eq]
  simp only [seq_append, bind_assoc, ← part0_eq c, ← part1_eq c, ← part2_eq c, ← part3_eq c, ← part4_eq c, ← part5_eq c, ← part6_eq c, ← part7_eq c, ← part8_eq c, ← part9_eq c, ← part10_eq c]
  rfl

theorem scopedRefs_eq : (Finset.univ.filter fun b : Ref sig .tc => b.isScoped) = ∅ := by decide
theorem scopedSems_eq : (Finset.univ.filter fun sm : SemLoc sig => sm.isScoped .tc) = ∅ := by decide

theorem pre_sub : (pre : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg0_sub : (seg0 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg1_sub : (seg1 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg2_sub : (seg2 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg3_sub : (seg3 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg4_sub : (seg4 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg5_sub : (seg5 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg6_sub : (seg6 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg7_sub : (seg7 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg8_sub : (seg8 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem seg9_sub : (seg9 : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem fin_sub : (fin : List (HloOp τ sig (Elt F))).Forall fun op => op.bufs ⊆ tcRefs τ sig := by
  simp only [List.Forall]
  repeat' apply And.intro
  all_goals with_reducible first | exact unary_bufs_sub .. | exact binary_bufs_sub .. | exact nullary_bufs_sub .. | exact reshape_bufs_sub .. | exact ternary_bufs_sub .. | exact nary_bufs_sub ..

theorem ops_sub : (ops : List (HloOp τ sig (Elt F))).Forall fun op => op.bufs ⊆ tcRefs τ sig := by
  simp only [ops, List.forall_append]
  exact ⟨⟨⟨⟨⟨⟨⟨⟨⟨⟨⟨pre_sub, seg0_sub⟩, seg1_sub⟩, seg2_sub⟩, seg3_sub⟩, seg4_sub⟩, seg5_sub⟩, seg6_sub⟩, seg7_sub⟩, seg8_sub⟩, seg9_sub⟩, fin_sub⟩

theorem ops_fresh : ∀ op ∈ (ops : List (HloOp τ sig (Elt F))), op.fresh = ∅ := by
  refine List.forall_iff_forall_mem.mp ?_
  simp only [ops, List.forall_append, List.Forall]
  repeat' apply And.intro
  all_goals rfl

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Run

end
-- ==== Proof.RefPart.lean ====
import proofs.«137943_j1228360647386_1_alg».proof.Proof.Gen.ReferenceIdeal

noncomputable section

namespace Cert.ReferenceIdeal.Part

open Cert.ReferenceIdeal Idealize.ShloMosaic Idealize.SL.Sem
open Cert.ReferenceIdeal.Facts₀

variable {F : FTy → Type} [FloatOps F]

def mlpR (W1s : FVec F S1x16x256 .f32) (b1s : FVec F S1x16 .f32) (W2s : FVec F S1x256x16 .f32) (b2s : FVec F S1x256 .f32)
    (v : FVec F S64x256 .f32) : FVec F S64x256 .f32 :=
  addf
    (Host.dotGeneral dot_S64x16_S16x256_S64x256_1_0_0_1_n_n none
      (maximumf
        (addf
          (Host.dotGeneral dot_S64x256_S256x16_S64x16_1_0_0_1_n_n none v
            (transpose S256x16 [1, 0] (shapeCast S16x256 W1s shapeCasts_S1x16x256_S16x256) transposes_S16x256_S256x16_1_0))
          (broadcastInDim S64x16 ![0, 1] bcast_S1x16_S64x16_0_1
            (broadcastInDim S1x16 ![1] bcast_S16_S1x16_1 (shapeCast S16 b1s shapeCasts_S1x16_S16))))
        (broadcastInDim S64x16 ![] bcast_S_S64x16 (constant S_ .f32 0x00000000#32)))
      (transpose S16x256 [1, 0] (shapeCast S256x16 W2s shapeCasts_S1x256x16_S256x16) transposes_S256x16_S16x256_1_0))
    (broadcastInDim S64x256 ![0, 1] bcast_S1x256_S64x256_0_1
      (broadcastInDim S1x256 ![1] bcast_S256_S1x256_1 (shapeCast S256 b2s shapeCasts_S1x256_S256)))

def gateR (W1s : FVec F S1x16x256 .f32) (b1s : FVec F S1x16 .f32) (W2s : FVec F S1x256x16 .f32) (b2s : FVec F S1x256 .f32)
    (avg mx : FVec F S64x256 .f32) : FVec F S64x256 .f32 :=
  Host.divf (broadcastInDim S64x256 ![] bcast_S_S64x256 (constant S_ .f32 0x3F800000#32))
    (addf (broadcastInDim S64x256 ![] bcast_S_S64x256 (constant S_ .f32 0x3F800000#32))
      (Host.exp (Host.negf (addf (mlpR W1s b1s W2s b2s avg) (mlpR W1s b1s W2s b2s mx)))))

def startIdx {k : ℕ} (hb50 : S_.BroadcastsInDim ⟨1, ![k]⟩ (![] : Fin 0 → Fin 1))
    (hcol : (⟨1, ![k]⟩ : Shape).BroadcastsInDim ⟨2, ![k, 1]⟩ (![0] : Fin 1 → Fin 2))
    (joints : IVec ⟨1, ![k]⟩ 32) : IVec ⟨2, ![k, 1]⟩ 32 :=
  broadcastInDim ⟨2, ![k, 1]⟩ ![0] hcol
    (select (constantI ⟨1, ![k]⟩ 1 0#1) (addi joints (broadcastInDim ⟨1, ![k]⟩ ![] hb50 (constantI S_ 32 50#32))) joints)

def RPart {k : ℕ} (gd : GatherDims S64x256x64x50 ⟨2, ![k, 1]⟩ ⟨4, ![64, 256, 64, k]⟩)
    (hR : (⟨4, ![64, 256, 64, k]⟩ : Shape).ReducesTo [2, 3] S64x256)
    (hbk : S64x256x1x1.BroadcastsInDim ⟨4, ![64, 256, 64, k]⟩ (![0, 1, 2, 3] : Fin 4 → Fin 4))
    (cnt : BitVec 32) (idx : IVec ⟨2, ![k, 1]⟩ 32) (x : FVec F S64x256x64x50 .f32)
    (W1s : FVec F S1x16x256 .f32) (b1s : FVec F S1x16 .f32) (W2s : FVec F S1x256x16 .f32) (b2s : FVec F S1x256 .f32) :
    FVec F ⟨4, ![64, 256, 64, k]⟩ .f32 :=
  mulf (Host.gather gd x idx)
    (broadcastInDim ⟨4, ![64, 256, 64, k]⟩ ![0, 1, 2, 3] hbk
      (broadcastInDim S64x256x1x1 ![0, 1] bcast_S64x256_S64x256x1x1_0_1
        (gateR W1s b1s W2s b2s
          (Host.divf (Host.reduceAdd (Host.gather gd x idx) (constant S_ .f32 0x00000000#32) hR h_S_)
            (broadcastInDim S64x256 ![] bcast_S_S64x256 (constant S_ .f32 cnt)))
          (Host.reduce FloatOps.maximumf (Host.gather gd x idx) (constant S_ .f32 0xFF800000#32) hR h_S_))))

end Cert.ReferenceIdeal.Part

end
-- ==== Proof.RefOut.lean ====
import proofs.«137943_j1228360647386_1_alg».proof.Proof.RefPart

noncomputable section

namespace Cert.ReferenceIdeal.Part

open Cert.ReferenceIdeal Idealize.ShloMosaic Idealize.SL.Sem
open Cert.ReferenceIdeal.Facts₀

variable {F : FTy → Type} [FloatOps F]

def refParts (x : FVec F S64x256x64x50 .f32) (W1 : FVec F S10x16x256 .f32) (b1 : FVec F S10x16 .f32)
    (W2 : FVec F S10x256x16 .f32) (b2 : FVec F S10x256 .f32) : List ((s : Shape) × (s.Idx → Elt F .f32)) :=
  [⟨S64x256x64x5, RPart gather_S64x256x64x50_S5x1_S64x256x64x5_012_3_n_n_3_1_64256641 reducesTo_S64x256x64x5_S64x256_d2_3 bcast_S64x256x1x1_S64x256x64x5_0_1_2_3 0x43A00000#32
      (startIdx bcast_S_S5 bcast_S5_S5x1_0 (fun i => lit0 (S5.rowMajor i))) x
      (extractStridedSlice S1x16x256 ![0, 0, 0] W1 slices_S10x16x256_S1x16x256_0_0_0) (extractStridedSlice S1x16 ![0, 0] b1 slices_S10x16_S1x16_0_0)
      (extractStridedSlice S1x256x16 ![0, 0, 0] W2 slices_S10x256x16_S1x256x16_0_0_0) (extractStridedSlice S1x256 ![0, 0] b2 slices_S10x256_S1x256_0_0)⟩,
   ⟨S64x256x64x6, RPart gather_S64x256x64x50_S6x1_S64x256x64x6_012_3_n_n_3_1_64256641 reducesTo_S64x256x64x6_S64x256_d2_3 bcast_S64x256x1x1_S64x256x64x6_0_1_2_3 0x43C00000#32
      (startIdx bcast_S_S6 bcast_S6_S6x1_0 (fun i => lit1 (S6.rowMajor i))) x
      (extractStridedSlice S1x16x256 ![1, 0, 0] W1 slices_S10x16x256_S1x16x256_1_0_0) (extractStridedSlice S1x16 ![1, 0] b1 slices_S10x16_S1x16_1_0)
      (extractStridedSlice S1x256x16 ![1, 0, 0] W2 slices_S10x256x16_S1x256x16_1_0_0) (extractStridedSlice S1x256 ![1, 0] b2 slices_S10x256_S1x256_1_0)⟩,
   ⟨S64x256x64x4, RPart gather_S64x256x64x50_S4x1_S64x256x64x4_012_3_n_n_3_1_64256641 reducesTo_S64x256x64x4_S64x256_d2_3 bcast_S64x256x1x1_S64x256x64x4_0_1_2_3 0x43800000#32
      (startIdx bcast_S_S4 bcast_S4_S4x1_0 (fun i => lit2 (S4.rowMajor i))) x
      (extractStridedSlice S1x16x256 ![2, 0, 0] W1 slices_S10x16x256_S1x16x256_2_0_0) (extractStridedSlice S1x16 ![2, 0] b1 slices_S10x16_S1x16_2_0)
      (extractStridedSlice S1x256x16 ![2, 0, 0] W2 slices_S10x256x16_S1x256x16_2_0_0) (extractStridedSlice S1x256 ![2, 0] b2 slices_S10x256_S1x256_2_0)⟩,
   ⟨S64x256x64x6, RPart gather_S64x256x64x50_S6x1_S64x256x64x6_012_3_n_n_3_1_64256641 reducesTo_S64x256x64x6_S64x256_d2_3 bcast_S64x256x1x1_S64x256x64x6_0_1_2_3 0x43C00000#32
      (startIdx bcast_S_S6 bcast_S6_S6x1_0 (fun i => lit3 (S6.rowMajor i))) x
      (extractStridedSlice S1x16x256 ![3, 0, 0] W1 slices_S10x16x256_S1x16x256_3_0_0) (extractStridedSlice S1x16 ![3, 0] b1 slices_S10x16_S1x16_3_0)
      (extractStridedSlice S1x256x16 ![3, 0, 0] W2 slices_S10x256x16_S1x256x16_3_0_0) (extractStridedSlice S1x256 ![3, 0] b2 slices_S10x256_S1x256_3_0)⟩,
   ⟨S64x256x64x4, RPart gather_S64x256x64x50_S4x1_S64x256x64x4_012_3_n_n_3_1_64256641 reducesTo_S64x256x64x4_S64x256_d2_3 bcast_S64x256x1x1_S64x256x64x4_0_1_2_3 0x43800000#32
      (startIdx bcast_S_S4 bcast_S4_S4x1_0 (fun i => lit4 (S4.rowMajor i))) x
      (extractStridedSlice S1x16x256 ![4, 0, 0] W1 slices_S10x16x256_S1x16x256_4_0_0) (extractStridedSlice S1x16 ![4, 0] b1 slices_S10x16_S1x16_4_0)
      (extractStridedSlice S1x256x16 ![4, 0, 0] W2 slices_S10x256x16_S1x256x16_4_0_0) (extractStridedSlice S1x256 ![4, 0] b2 slices_S10x256_S1x256_4_0)⟩,
   ⟨S64x256x64x5, RPart gather_S64x256x64x50_S5x1_S64x256x64x5_012_3_n_n_3_1_64256641 reducesTo_S64x256x64x5_S64x256_d2_3 bcast_S64x256x1x1_S64x256x64x5_0_1_2_3 0x43A00000#32
      (startIdx bcast_S_S5 bcast_S5_S5x1_0 (fun i => lit5 (S5.rowMajor i))) x
      (extractStridedSlice S1x16x256 ![5, 0, 0] W1 slices_S10x16x256_S1x16x256_5_0_0) (extractStridedSlice S1x16 ![5, 0] b1 slices_S10x16_S1x16_5_0)
      (extractStridedSlice S1x256x16 ![5, 0, 0] W2 slices_S10x256x16_S1x256x16_5_0_0) (extractStridedSlice S1x256 ![5, 0] b2 slices_S10x256_S1x256_5_0)⟩,
   ⟨S64x256x64x6, RPart gather_S64x256x64x50_S6x1_S64x256x64x6_012_3_n_n_3_1_64256641 reducesTo_S64x256x64x6_S64x256_d2_3 bcast_S64x256x1x1_S64x256x64x6_0_1_2_3 0x43C00000#32
      (startIdx bcast_S_S6 bcast_S6_S6x1_0 (fun i => lit6 (S6.rowMajor i))) x
      (extractStridedSlice S1x16x256 ![6, 0, 0] W1 slices_S10x16x256_S1x16x256_6_0_0) (extractStridedSlice S1x16 ![6, 0] b1 slices_S10x16_S1x16_6_0)
      (extractStridedSlice S1x256x16 ![6, 0, 0] W2 slices_S10x256x16_S1x256x16_6_0_0) (extractStridedSlice S1x256 ![6, 0] b2 slices_S10x256_S1x256_6_0)⟩,
   ⟨S64x256x64x4, RPart gather_S64x256x64x50_S4x1_S64x256x64x4_012_3_n_n_3_1_64256641 reducesTo_S64x256x64x4_S64x256_d2_3 bcast_S64x256x1x1_S64x256x64x4_0_1_2_3 0x43800000#32
      (startIdx bcast_S_S4 bcast_S4_S4x1_0 (fun i => lit7 (S4.rowMajor i))) x
      (extractStridedSlice S1x16x256 ![7, 0, 0] W1 slices_S10x16x256_S1x16x256_7_0_0) (extractStridedSlice S1x16 ![7, 0] b1 slices_S10x16_S1x16_7_0)
      (extractStridedSlice S1x256x16 ![7, 0, 0] W2 slices_S10x256x16_S1x256x16_7_0_0) (extractStridedSlice S1x256 ![7, 0] b2 slices_S10x256_S1x256_7_0)⟩,
   ⟨S64x256x64x6, RPart gather_S64x256x64x50_S6x1_S64x256x64x6_012_3_n_n_3_1_64256641 reducesTo_S64x256x64x6_S64x256_d2_3 bcast_S64x256x1x1_S64x256x64x6_0_1_2_3 0x43C00000#32
      (startIdx bcast_S_S6 bcast_S6_S6x1_0 (fun i => lit8 (S6.rowMajor i))) x
      (extractStridedSlice S1x16x256 ![8, 0, 0] W1 slices_S10x16x256_S1x16x256_8_0_0) (extractStridedSlice S1x16 ![8, 0] b1 slices_S10x16_S1x16_8_0)
      (extractStridedSlice S1x256x16 ![8, 0, 0] W2 slices_S10x256x16_S1x256x16_8_0_0) (extractStridedSlice S1x256 ![8, 0] b2 slices_S10x256_S1x256_8_0)⟩,
   ⟨S64x256x64x4, RPart gather_S64x256x64x50_S4x1_S64x256x64x4_012_3_n_n_3_1_64256641 reducesTo_S64x256x64x4_S64x256_d2_3 bcast_S64x256x1x1_S64x256x64x4_0_1_2_3 0x43800000#32
      (startIdx bcast_S_S4 bcast_S4_S4x1_0 (fun i => lit9 (S4.rowMajor i))) x
      (extractStridedSlice S1x16x256 ![9, 0, 0] W1 slices_S10x16x256_S1x16x256_9_0_0) (extractStridedSlice S1x16 ![9, 0] b1 slices_S10x16_S1x16_9_0)
      (extractStridedSlice S1x256x16 ![9, 0, 0] W2 slices_S10x256x16_S1x256x16_9_0_0) (extractStridedSlice S1x256 ![9, 0] b2 slices_S10x256_S1x256_9_0)⟩]

def refOut (x : FVec F S64x256x64x50 .f32) (W1 : FVec F S10x16x256 .f32) (b1 : FVec F S10x16 .f32)
    (W2 : FVec F S10x256x16 .f32) (b2 : FVec F S10x256 .f32) : FVec F S64x256x64x50 .f32 :=
  concatenate S64x256x64x50 3 (refParts x W1 b1 W2 b2) concatenates_S64x256x64x5_S64x256x64x6_S64x256x64x4_S64x256x64x6_S64x256x64x4_S64x256x64x5_S64x256x64x6_S64x256x64x4_S64x256x64x6_S64x256x64x4_S64x256x64x50_d3

end Cert.ReferenceIdeal.Part

end
-- ==== Proof.RefRead0.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg0_W : List (Ref sig .tc) := [main_c_19, main_v0, main_v1, main_v2, main_v3, main_v4, main_cst, main_v5, main_cst_20, main_v6, main_v7, main_cst_21, main_v8, main_v9, main_v10, main_v11, main_v12, main_v13, main_v14, main_v15, main_v16, main_v17, main_call0_cst, main_call0_v0, main_v18, main_v19, main_v20, main_v21, main_v22, main_v23, main_v24, main_v25, main_v26, main_v27, main_v28, main_v29, main_v30, main_v31, main_v32, main_v33, main_v34, main_v35, main_v36, main_call1_cst, main_call1_v0, main_v37, main_v38, main_v39, main_v40, main_v41, main_v42, main_v43, main_v44, main_v45, main_v46, main_v47, main_v48, main_v49, main_cst_22, main_v50, main_v51, main_cst_23, main_v52, main_v53, main_v54, main_v55, main_v56]

theorem seg0_writes : (seg0 : List (HloOp τ sig (Elt F))).Forall fun op => op.writes ⊆ (seg0_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg0_keep (V : Valuation τ sig (Elt F)) (r : Ref sig .tc) (h : r ∉ seg0_W) :
    after seg0 V (Proc.devRef .tc r) = V (Proc.devRef .tc r) :=
  after_of_writes_sub seg0 _ seg0_writes h

attribute [local irreducible] Host.gather Host.reduce Host.reduceAdd in
set_option maxHeartbeats 2000000 in
theorem seg0_out (V : Valuation τ sig (Elt F)) (hm : V (Proc.devRef .tc main_c_0) = constantI S5 1 0#1) :
    after seg0 V (Proc.devRef .tc main_v56)
      = RPart gather_S64x256x64x50_S5x1_S64x256x64x5_012_3_n_n_3_1_64256641 reducesTo_S64x256x64x5_S64x256_d2_3 bcast_S64x256x1x1_S64x256x64x5_0_1_2_3 0x43A00000#32
          (startIdx bcast_S_S5 bcast_S5_S5x1_0 (V (Proc.devRef .tc main_c))) (V (Proc.devRef .tc main_arg0))
          (extractStridedSlice S1x16x256 ![0, 0, 0] (V (Proc.devRef .tc main_arg1)) slices_S10x16x256_S1x16x256_0_0_0)
          (extractStridedSlice S1x16 ![0, 0] (V (Proc.devRef .tc main_arg2)) slices_S10x16_S1x16_0_0)
          (extractStridedSlice S1x256x16 ![0, 0, 0] (V (Proc.devRef .tc main_arg3)) slices_S10x256x16_S1x256x16_0_0_0)
          (extractStridedSlice S1x256 ![0, 0] (V (Proc.devRef .tc main_arg4)) slices_S10x256_S1x256_0_0) := by
  delta seg0
  after_results_simp
  rw [hm]
  rfl

end Cert.ReferenceIdeal.Run

end
-- ==== Proof.RefRead1.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg1_W : List (Ref sig .tc) := [main_c_24, main_v57, main_v58, main_v59, main_v60, main_v61, main_cst_25, main_v62, main_cst_26, main_v63, main_v64, main_cst_27, main_v65, main_v66, main_v67, main_v68, main_v69, main_v70, main_v71, main_v72, main_v73, main_v74, main_call2_cst, main_call2_v0, main_v75, main_v76, main_v77, main_v78, main_v79, main_v80, main_v81, main_v82, main_v83, main_v84, main_v85, main_v86, main_v87, main_v88, main_v89, main_v90, main_v91, main_v92, main_v93, main_call3_cst, main_call3_v0, main_v94, main_v95, main_v96, main_v97, main_v98, main_v99, main_v100, main_v101, main_v102, main_v103, main_v104, main_v105, main_v106, main_cst_28, main_v107, main_v108, main_cst_29, main_v109, main_v110, main_v111, main_v112, main_v113]

theorem seg1_writes : (seg1 : List (HloOp τ sig (Elt F))).Forall fun op => op.writes ⊆ (seg1_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg1_keep (V : Valuation τ sig (Elt F)) (r : Ref sig .tc) (h : r ∉ seg1_W) :
    after seg1 V (Proc.devRef .tc r) = V (Proc.devRef .tc r) :=
  after_of_writes_sub seg1 _ seg1_writes h

attribute [local irreducible] Host.gather Host.reduce Host.reduceAdd in
set_option maxHeartbeats 2000000 in
theorem seg1_out (V : Valuation τ sig (Elt F)) (hm : V (Proc.devRef .tc main_c_2) = constantI S6 1 0#1) :
    after seg1 V (Proc.devRef .tc main_v113)
      = RPart gather_S64x256x64x50_S6x1_S64x256x64x6_012_3_n_n_3_1_64256641 reducesTo_S64x256x64x6_S64x256_d2_3 bcast_S64x256x1x1_S64x256x64x6_0_1_2_3 0x43C00000#32
          (startIdx bcast_S_S6 bcast_S6_S6x1_0 (V (Proc.devRef .tc main_c_1))) (V (Proc.devRef .tc main_arg0))
          (extractStridedSlice S1x16x256 ![1, 0, 0] (V (Proc.devRef .tc main_arg1)) slices_S10x16x256_S1x16x256_1_0_0)
          (extractStridedSlice S1x16 ![1, 0] (V (Proc.devRef .tc main_arg2)) slices_S10x16_S1x16_1_0)
          (extractStridedSlice S1x256x16 ![1, 0, 0] (V (Proc.devRef .tc main_arg3)) slices_S10x256x16_S1x256x16_1_0_0)
          (extractStridedSlice S1x256 ![1, 0] (V (Proc.devRef .tc main_arg4)) slices_S10x256_S1x256_1_0) := by
  delta seg1
  after_results_simp
  rw [hm]
  rfl

end Cert.ReferenceIdeal.Run

end
-- ==== Proof.RefRead2.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg2_W : List (Ref sig .tc) := [main_c_30, main_v114, main_v115, main_v116, main_v117, main_v118, main_cst_31, main_v119, main_cst_32, main_v120, main_v121, main_cst_33, main_v122, main_v123, main_v124, main_v125, main_v126, main_v127, main_v128, main_v129, main_v130, main_v131, main_call4_cst, main_call4_v0, main_v132, main_v133, main_v134, main_v135, main_v136, main_v137, main_v138, main_v139, main_v140, main_v141, main_v142, main_v143, main_v144, main_v145, main_v146, main_v147, main_v148, main_v149, main_v150, main_call5_cst, main_call5_v0, main_v151, main_v152, main_v153, main_v154, main_v155, main_v156, main_v157, main_v158, main_v159, main_v160, main_v161, main_v162, main_v163, main_cst_34, main_v164, main_v165, main_cst_35, main_v166, main_v167, main_v168, main_v169, main_v170]

theorem seg2_writes : (seg2 : List (HloOp τ sig (Elt F))).Forall fun op => op.writes ⊆ (seg2_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg2_keep (V : Valuation τ sig (Elt F)) (r : Ref sig .tc) (h : r ∉ seg2_W) :
    after seg2 V (Proc.devRef .tc r) = V (Proc.devRef .tc r) :=
  after_of_writes_sub seg2 _ seg2_writes h

attribute [local irreducible] Host.gather Host.reduce Host.reduceAdd in
set_option maxHeartbeats 2000000 in
theorem seg2_out (V : Valuation τ sig (Elt F)) (hm : V (Proc.devRef .tc main_c_4) = constantI S4 1 0#1) :
    after seg2 V (Proc.devRef .tc main_v170)
      = RPart gather_S64x256x64x50_S4x1_S64x256x64x4_012_3_n_n_3_1_64256641 reducesTo_S64x256x64x4_S64x256_d2_3 bcast_S64x256x1x1_S64x256x64x4_0_1_2_3 0x43800000#32
          (startIdx bcast_S_S4 bcast_S4_S4x1_0 (V (Proc.devRef .tc main_c_3))) (V (Proc.devRef .tc main_arg0))
          (extractStridedSlice S1x16x256 ![2, 0, 0] (V (Proc.devRef .tc main_arg1)) slices_S10x16x256_S1x16x256_2_0_0)
          (extractStridedSlice S1x16 ![2, 0] (V (Proc.devRef .tc main_arg2)) slices_S10x16_S1x16_2_0)
          (extractStridedSlice S1x256x16 ![2, 0, 0] (V (Proc.devRef .tc main_arg3)) slices_S10x256x16_S1x256x16_2_0_0)
          (extractStridedSlice S1x256 ![2, 0] (V (Proc.devRef .tc main_arg4)) slices_S10x256_S1x256_2_0) := by
  delta seg2
  after_results_simp
  rw [hm]
  rfl

end Cert.ReferenceIdeal.Run

end
-- ==== Proof.RefRead3.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg3_W : List (Ref sig .tc) := [main_c_36, main_v171, main_v172, main_v173, main_v174, main_v175, main_cst_37, main_v176, main_cst_38, main_v177, main_v178, main_cst_39, main_v179, main_v180, main_v181, main_v182, main_v183, main_v184, main_v185, main_v186, main_v187, main_v188, main_call6_cst, main_call6_v0, main_v189, main_v190, main_v191, main_v192, main_v193, main_v194, main_v195, main_v196, main_v197, main_v198, main_v199, main_v200, main_v201, main_v202, main_v203, main_v204, main_v205, main_v206, main_v207, main_call7_cst, main_call7_v0, main_v208, main_v209, main_v210, main_v211, main_v212, main_v213, main_v214, main_v215, main_v216, main_v217, main_v218, main_v219, main_v220, main_cst_40, main_v221, main_v222, main_cst_41, main_v223, main_v224, main_v225, main_v226, main_v227]

theorem seg3_writes : (seg3 : List (HloOp τ sig (Elt F))).Forall fun op => op.writes ⊆ (seg3_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg3_keep (V : Valuation τ sig (Elt F)) (r : Ref sig .tc) (h : r ∉ seg3_W) :
    after seg3 V (Proc.devRef .tc r) = V (Proc.devRef .tc r) :=
  after_of_writes_sub seg3 _ seg3_writes h

attribute [local irreducible] Host.gather Host.reduce Host.reduceAdd in
set_option maxHeartbeats 2000000 in
theorem seg3_out (V : Valuation τ sig (Elt F)) (hm : V (Proc.devRef .tc main_c_6) = constantI S6 1 0#1) :
    after seg3 V (Proc.devRef .tc main_v227)
      = RPart gather_S64x256x64x50_S6x1_S64x256x64x6_012_3_n_n_3_1_64256641 reducesTo_S64x256x64x6_S64x256_d2_3 bcast_S64x256x1x1_S64x256x64x6_0_1_2_3 0x43C00000#32
          (startIdx bcast_S_S6 bcast_S6_S6x1_0 (V (Proc.devRef .tc main_c_5))) (V (Proc.devRef .tc main_arg0))
          (extractStridedSlice S1x16x256 ![3, 0, 0] (V (Proc.devRef .tc main_arg1)) slices_S10x16x256_S1x16x256_3_0_0)
          (extractStridedSlice S1x16 ![3, 0] (V (Proc.devRef .tc main_arg2)) slices_S10x16_S1x16_3_0)
          (extractStridedSlice S1x256x16 ![3, 0, 0] (V (Proc.devRef .tc main_arg3)) slices_S10x256x16_S1x256x16_3_0_0)
          (extractStridedSlice S1x256 ![3, 0] (V (Proc.devRef .tc main_arg4)) slices_S10x256_S1x256_3_0) := by
  delta seg3
  after_results_simp
  rw [hm]
  rfl

end Cert.ReferenceIdeal.Run

end
-- ==== Proof.RefRead4.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg4_W : List (Ref sig .tc) := [main_c_42, main_v228, main_v229, main_v230, main_v231, main_v232, main_cst_43, main_v233, main_cst_44, main_v234, main_v235, main_cst_45, main_v236, main_v237, main_v238, main_v239, main_v240, main_v241, main_v242, main_v243, main_v244, main_v245, main_call8_cst, main_call8_v0, main_v246, main_v247, main_v248, main_v249, main_v250, main_v251, main_v252, main_v253, main_v254, main_v255, main_v256, main_v257, main_v258, main_v259, main_v260, main_v261, main_v262, main_v263, main_v264, main_call9_cst, main_call9_v0, main_v265, main_v266, main_v267, main_v268, main_v269, main_v270, main_v271, main_v272, main_v273, main_v274, main_v275, main_v276, main_v277, main_cst_46, main_v278, main_v279, main_cst_47, main_v280, main_v281, main_v282, main_v283, main_v284]

theorem seg4_writes : (seg4 : List (HloOp τ sig (Elt F))).Forall fun op => op.writes ⊆ (seg4_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg4_keep (V : Valuation τ sig (Elt F)) (r : Ref sig .tc) (h : r ∉ seg4_W) :
    after seg4 V (Proc.devRef .tc r) = V (Proc.devRef .tc r) :=
  after_of_writes_sub seg4 _ seg4_writes h

attribute [local irreducible] Host.gather Host.reduce Host.reduceAdd in
set_option maxHeartbeats 2000000 in
theorem seg4_out (V : Valuation τ sig (Elt F)) (hm : V (Proc.devRef .tc main_c_8) = constantI S4 1 0#1) :
    after seg4 V (Proc.devRef .tc main_v284)
      = RPart gather_S64x256x64x50_S4x1_S64x256x64x4_012_3_n_n_3_1_64256641 reducesTo_S64x256x64x4_S64x256_d2_3 bcast_S64x256x1x1_S64x256x64x4_0_1_2_3 0x43800000#32
          (startIdx bcast_S_S4 bcast_S4_S4x1_0 (V (Proc.devRef .tc main_c_7))) (V (Proc.devRef .tc main_arg0))
          (extractStridedSlice S1x16x256 ![4, 0, 0] (V (Proc.devRef .tc main_arg1)) slices_S10x16x256_S1x16x256_4_0_0)
          (extractStridedSlice S1x16 ![4, 0] (V (Proc.devRef .tc main_arg2)) slices_S10x16_S1x16_4_0)
          (extractStridedSlice S1x256x16 ![4, 0, 0] (V (Proc.devRef .tc main_arg3)) slices_S10x256x16_S1x256x16_4_0_0)
          (extractStridedSlice S1x256 ![4, 0] (V (Proc.devRef .tc main_arg4)) slices_S10x256_S1x256_4_0) := by
  delta seg4
  after_results_simp
  rw [hm]
  rfl

end Cert.ReferenceIdeal.Run

end
-- ==== Proof.RefRead5.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg5_W : List (Ref sig .tc) := [main_c_48, main_v285, main_v286, main_v287, main_v288, main_v289, main_cst_49, main_v290, main_cst_50, main_v291, main_v292, main_cst_51, main_v293, main_v294, main_v295, main_v296, main_v297, main_v298, main_v299, main_v300, main_v301, main_v302, main_call10_cst, main_call10_v0, main_v303, main_v304, main_v305, main_v306, main_v307, main_v308, main_v309, main_v310, main_v311, main_v312, main_v313, main_v314, main_v315, main_v316, main_v317, main_v318, main_v319, main_v320, main_v321, main_call11_cst, main_call11_v0, main_v322, main_v323, main_v324, main_v325, main_v326, main_v327, main_v328, main_v329, main_v330, main_v331, main_v332, main_v333, main_v334, main_cst_52, main_v335, main_v336, main_cst_53, main_v337, main_v338, main_v339, main_v340, main_v341]

theorem seg5_writes : (seg5 : List (HloOp τ sig (Elt F))).Forall fun op => op.writes ⊆ (seg5_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg5_keep (V : Valuation τ sig (Elt F)) (r : Ref sig .tc) (h : r ∉ seg5_W) :
    after seg5 V (Proc.devRef .tc r) = V (Proc.devRef .tc r) :=
  after_of_writes_sub seg5 _ seg5_writes h

attribute [local irreducible] Host.gather Host.reduce Host.reduceAdd in
set_option maxHeartbeats 2000000 in
theorem seg5_out (V : Valuation τ sig (Elt F)) (hm : V (Proc.devRef .tc main_c_10) = constantI S5 1 0#1) :
    after seg5 V (Proc.devRef .tc main_v341)
      = RPart gather_S64x256x64x50_S5x1_S64x256x64x5_012_3_n_n_3_1_64256641 reducesTo_S64x256x64x5_S64x256_d2_3 bcast_S64x256x1x1_S64x256x64x5_0_1_2_3 0x43A00000#32
          (startIdx bcast_S_S5 bcast_S5_S5x1_0 (V (Proc.devRef .tc main_c_9))) (V (Proc.devRef .tc main_arg0))
          (extractStridedSlice S1x16x256 ![5, 0, 0] (V (Proc.devRef .tc main_arg1)) slices_S10x16x256_S1x16x256_5_0_0)
          (extractStridedSlice S1x16 ![5, 0] (V (Proc.devRef .tc main_arg2)) slices_S10x16_S1x16_5_0)
          (extractStridedSlice S1x256x16 ![5, 0, 0] (V (Proc.devRef .tc main_arg3)) slices_S10x256x16_S1x256x16_5_0_0)
          (extractStridedSlice S1x256 ![5, 0] (V (Proc.devRef .tc main_arg4)) slices_S10x256_S1x256_5_0) := by
  delta seg5
  after_results_simp
  rw [hm]
  rfl

end Cert.ReferenceIdeal.Run

end
-- ==== Proof.RefRead6.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg6_W : List (Ref sig .tc) := [main_c_54, main_v342, main_v343, main_v344, main_v345, main_v346, main_cst_55, main_v347, main_cst_56, main_v348, main_v349, main_cst_57, main_v350, main_v351, main_v352, main_v353, main_v354, main_v355, main_v356, main_v357, main_v358, main_v359, main_call12_cst, main_call12_v0, main_v360, main_v361, main_v362, main_v363, main_v364, main_v365, main_v366, main_v367, main_v368, main_v369, main_v370, main_v371, main_v372, main_v373, main_v374, main_v375, main_v376, main_v377, main_v378, main_call13_cst, main_call13_v0, main_v379, main_v380, main_v381, main_v382, main_v383, main_v384, main_v385, main_v386, main_v387, main_v388, main_v389, main_v390, main_v391, main_cst_58, main_v392, main_v393, main_cst_59, main_v394, main_v395, main_v396, main_v397, main_v398]

theorem seg6_writes : (seg6 : List (HloOp τ sig (Elt F))).Forall fun op => op.writes ⊆ (seg6_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg6_keep (V : Valuation τ sig (Elt F)) (r : Ref sig .tc) (h : r ∉ seg6_W) :
    after seg6 V (Proc.devRef .tc r) = V (Proc.devRef .tc r) :=
  after_of_writes_sub seg6 _ seg6_writes h

attribute [local irreducible] Host.gather Host.reduce Host.reduceAdd in
set_option maxHeartbeats 2000000 in
theorem seg6_out (V : Valuation τ sig (Elt F)) (hm : V (Proc.devRef .tc main_c_12) = constantI S6 1 0#1) :
    after seg6 V (Proc.devRef .tc main_v398)
      = RPart gather_S64x256x64x50_S6x1_S64x256x64x6_012_3_n_n_3_1_64256641 reducesTo_S64x256x64x6_S64x256_d2_3 bcast_S64x256x1x1_S64x256x64x6_0_1_2_3 0x43C00000#32
          (startIdx bcast_S_S6 bcast_S6_S6x1_0 (V (Proc.devRef .tc main_c_11))) (V (Proc.devRef .tc main_arg0))
          (extractStridedSlice S1x16x256 ![6, 0, 0] (V (Proc.devRef .tc main_arg1)) slices_S10x16x256_S1x16x256_6_0_0)
          (extractStridedSlice S1x16 ![6, 0] (V (Proc.devRef .tc main_arg2)) slices_S10x16_S1x16_6_0)
          (extractStridedSlice S1x256x16 ![6, 0, 0] (V (Proc.devRef .tc main_arg3)) slices_S10x256x16_S1x256x16_6_0_0)
          (extractStridedSlice S1x256 ![6, 0] (V (Proc.devRef .tc main_arg4)) slices_S10x256_S1x256_6_0) := by
  delta seg6
  after_results_simp
  rw [hm]
  rfl

end Cert.ReferenceIdeal.Run

end
-- ==== Proof.RefRead7.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg7_W : List (Ref sig .tc) := [main_c_60, main_v399, main_v400, main_v401, main_v402, main_v403, main_cst_61, main_v404, main_cst_62, main_v405, main_v406, main_cst_63, main_v407, main_v408, main_v409, main_v410, main_v411, main_v412, main_v413, main_v414, main_v415, main_v416, main_call14_cst, main_call14_v0, main_v417, main_v418, main_v419, main_v420, main_v421, main_v422, main_v423, main_v424, main_v425, main_v426, main_v427, main_v428, main_v429, main_v430, main_v431, main_v432, main_v433, main_v434, main_v435, main_call15_cst, main_call15_v0, main_v436, main_v437, main_v438, main_v439, main_v440, main_v441, main_v442, main_v443, main_v444, main_v445, main_v446, main_v447, main_v448, main_cst_64, main_v449, main_v450, main_cst_65, main_v451, main_v452, main_v453, main_v454, main_v455]

theorem seg7_writes : (seg7 : List (HloOp τ sig (Elt F))).Forall fun op => op.writes ⊆ (seg7_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg7_keep (V : Valuation τ sig (Elt F)) (r : Ref sig .tc) (h : r ∉ seg7_W) :
    after seg7 V (Proc.devRef .tc r) = V (Proc.devRef .tc r) :=
  after_of_writes_sub seg7 _ seg7_writes h

attribute [local irreducible] Host.gather Host.reduce Host.reduceAdd in
set_option maxHeartbeats 2000000 in
theorem seg7_out (V : Valuation τ sig (Elt F)) (hm : V (Proc.devRef .tc main_c_14) = constantI S4 1 0#1) :
    after seg7 V (Proc.devRef .tc main_v455)
      = RPart gather_S64x256x64x50_S4x1_S64x256x64x4_012_3_n_n_3_1_64256641 reducesTo_S64x256x64x4_S64x256_d2_3 bcast_S64x256x1x1_S64x256x64x4_0_1_2_3 0x43800000#32
          (startIdx bcast_S_S4 bcast_S4_S4x1_0 (V (Proc.devRef .tc main_c_13))) (V (Proc.devRef .tc main_arg0))
          (extractStridedSlice S1x16x256 ![7, 0, 0] (V (Proc.devRef .tc main_arg1)) slices_S10x16x256_S1x16x256_7_0_0)
          (extractStridedSlice S1x16 ![7, 0] (V (Proc.devRef .tc main_arg2)) slices_S10x16_S1x16_7_0)
          (extractStridedSlice S1x256x16 ![7, 0, 0] (V (Proc.devRef .tc main_arg3)) slices_S10x256x16_S1x256x16_7_0_0)
          (extractStridedSlice S1x256 ![7, 0] (V (Proc.devRef .tc main_arg4)) slices_S10x256_S1x256_7_0) := by
  delta seg7
  after_results_simp
  rw [hm]
  rfl

end Cert.ReferenceIdeal.Run

end
-- ==== Proof.RefRead8.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg8_W : List (Ref sig .tc) := [main_c_66, main_v456, main_v457, main_v458, main_v459, main_v460, main_cst_67, main_v461, main_cst_68, main_v462, main_v463, main_cst_69, main_v464, main_v465, main_v466, main_v467, main_v468, main_v469, main_v470, main_v471, main_v472, main_v473, main_call16_cst, main_call16_v0, main_v474, main_v475, main_v476, main_v477, main_v478, main_v479, main_v480, main_v481, main_v482, main_v483, main_v484, main_v485, main_v486, main_v487, main_v488, main_v489, main_v490, main_v491, main_v492, main_call17_cst, main_call17_v0, main_v493, main_v494, main_v495, main_v496, main_v497, main_v498, main_v499, main_v500, main_v501, main_v502, main_v503, main_v504, main_v505, main_cst_70, main_v506, main_v507, main_cst_71, main_v508, main_v509, main_v510, main_v511, main_v512]

theorem seg8_writes : (seg8 : List (HloOp τ sig (Elt F))).Forall fun op => op.writes ⊆ (seg8_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg8_keep (V : Valuation τ sig (Elt F)) (r : Ref sig .tc) (h : r ∉ seg8_W) :
    after seg8 V (Proc.devRef .tc r) = V (Proc.devRef .tc r) :=
  after_of_writes_sub seg8 _ seg8_writes h

attribute [local irreducible] Host.gather Host.reduce Host.reduceAdd in
set_option maxHeartbeats 2000000 in
theorem seg8_out (V : Valuation τ sig (Elt F)) (hm : V (Proc.devRef .tc main_c_16) = constantI S6 1 0#1) :
    after seg8 V (Proc.devRef .tc main_v512)
      = RPart gather_S64x256x64x50_S6x1_S64x256x64x6_012_3_n_n_3_1_64256641 reducesTo_S64x256x64x6_S64x256_d2_3 bcast_S64x256x1x1_S64x256x64x6_0_1_2_3 0x43C00000#32
          (startIdx bcast_S_S6 bcast_S6_S6x1_0 (V (Proc.devRef .tc main_c_15))) (V (Proc.devRef .tc main_arg0))
          (extractStridedSlice S1x16x256 ![8, 0, 0] (V (Proc.devRef .tc main_arg1)) slices_S10x16x256_S1x16x256_8_0_0)
          (extractStridedSlice S1x16 ![8, 0] (V (Proc.devRef .tc main_arg2)) slices_S10x16_S1x16_8_0)
          (extractStridedSlice S1x256x16 ![8, 0, 0] (V (Proc.devRef .tc main_arg3)) slices_S10x256x16_S1x256x16_8_0_0)
          (extractStridedSlice S1x256 ![8, 0] (V (Proc.devRef .tc main_arg4)) slices_S10x256_S1x256_8_0) := by
  delta seg8
  after_results_simp
  rw [hm]
  rfl

end Cert.ReferenceIdeal.Run

end
-- ==== Proof.RefRead9.lean ====
import proofs.«137943_j1228360647386_1_alg».proof.Proof.RefOps
import proofs.«137943_j1228360647386_1_alg».proof.Proof.RefOut
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

abbrev seg9_W : List (Ref sig .tc) := [main_c_72, main_v513, main_v514, main_v515, main_v516, main_v517, main_cst_73, main_v518, main_cst_74, main_v519, main_v520, main_cst_75, main_v521, main_v522, main_v523, main_v524, main_v525, main_v526, main_v527, main_v528, main_v529, main_v530, main_call18_cst, main_call18_v0, main_v531, main_v532, main_v533, main_v534, main_v535, main_v536, main_v537, main_v538, main_v539, main_v540, main_v541, main_v542, main_v543, main_v544, main_v545, main_v546, main_v547, main_v548, main_v549, main_call19_cst, main_call19_v0, main_v550, main_v551, main_v552, main_v553, main_v554, main_v555, main_v556, main_v557, main_v558, main_v559, main_v560, main_v561, main_v562, main_cst_76, main_v563, main_v564, main_cst_77, main_v565, main_v566, main_v567, main_v568, main_v569]

theorem seg9_writes : (seg9 : List (HloOp τ sig (Elt F))).Forall fun op => op.writes ⊆ (seg9_W.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)

theorem seg9_keep (V : Valuation τ sig (Elt F)) (r : Ref sig .tc) (h : r ∉ seg9_W) :
    after seg9 V (Proc.devRef .tc r) = V (Proc.devRef .tc r) :=
  after_of_writes_sub seg9 _ seg9_writes h

attribute [local irreducible] Host.gather Host.reduce Host.reduceAdd in
set_option maxHeartbeats 2000000 in
theorem seg9_out (V : Valuation τ sig (Elt F)) (hm : V (Proc.devRef .tc main_c_18) = constantI S4 1 0#1) :
    after seg9 V (Proc.devRef .tc main_v569)
      = RPart gather_S64x256x64x50_S4x1_S64x256x64x4_012_3_n_n_3_1_64256641 reducesTo_S64x256x64x4_S64x256_d2_3 bcast_S64x256x1x1_S64x256x64x4_0_1_2_3 0x43800000#32
          (startIdx bcast_S_S4 bcast_S4_S4x1_0 (V (Proc.devRef .tc main_c_17))) (V (Proc.devRef .tc main_arg0))
          (extractStridedSlice S1x16x256 ![9, 0, 0] (V (Proc.devRef .tc main_arg1)) slices_S10x16x256_S1x16x256_9_0_0)
          (extractStridedSlice S1x16 ![9, 0] (V (Proc.devRef .tc main_arg2)) slices_S10x16_S1x16_9_0)
          (extractStridedSlice S1x256x16 ![9, 0, 0] (V (Proc.devRef .tc main_arg3)) slices_S10x256x16_S1x256x16_9_0_0)
          (extractStridedSlice S1x256 ![9, 0] (V (Proc.devRef .tc main_arg4)) slices_S10x256_S1x256_9_0) := by
  delta seg9
  after_results_simp
  rw [hm]
  rfl

end Cert.ReferenceIdeal.Run

end
-- ==== Proof.LibAfterAppend.lean ====
import Idealize.ShloMosaic.Lib.StableHlo.Run

noncomputable section

namespace Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo

end
-- ==== Proof.RefRead.lean ====
import proofs.«137943_j1228360647386_1_alg».proof.Proof.RefRead0
import proofs.«137943_j1228360647386_1_alg».proof.Proof.RefRead1
import proofs.«137943_j1228360647386_1_alg».proof.Proof.RefRead2
import proofs.«137943_j1228360647386_1_alg».proof.Proof.RefRead3
import proofs.«137943_j1228360647386_1_alg».proof.Proof.RefRead4
import proofs.«137943_j1228360647386_1_alg».proof.Proof.RefRead5
import proofs.«137943_j1228360647386_1_alg».proof.Proof.RefRead6
import proofs.«137943_j1228360647386_1_alg».proof.Proof.RefRead7
import proofs.«137943_j1228360647386_1_alg».proof.Proof.RefRead8
import proofs.«137943_j1228360647386_1_alg».proof.Proof.RefRead9
import proofs.«137943_j1228360647386_1_alg».proof.Proof.LibAfterAppend

noncomputable section

namespace Cert.ReferenceIdeal.Run

open Cert.ReferenceIdeal Idealize.ShloMosaic Idealize.ShloMosaic.TcCoe Idealize.SL.Sem Idealize.ShloMosaic.StableHlo
open Cert.ReferenceIdeal.Part Cert.ReferenceIdeal.Facts₀

variable {F : FTy → Type} [FloatOps F]

/-- The operations of part `k` (none from the tenth on). -/
noncomputable def seg : ℕ → List (HloOp τ sig (Elt F))
  | 0 => seg0 | 1 => seg1 | 2 => seg2 | 3 => seg3 | 4 => seg4 | 5 => seg5 | 6 => seg6 | 7 => seg7 | 8 => seg8 | 9 => seg9
  | _ => []

/-- The buffers part `k` writes. -/
noncomputable def W : ℕ → List (Ref sig .tc)
  | 0 => seg0_W | 1 => seg1_W | 2 => seg2_W | 3 => seg3_W | 4 => seg4_W | 5 => seg5_W | 6 => seg6_W | 7 => seg7_W | 8 => seg8_W
  | 9 => seg9_W | _ => []

theorem W_nil {i : ℕ} (h : 10 ≤ i) : W i = [] := by
  obtain ⟨n, rfl⟩ := Nat.exists_eq_add_of_le' h; rfl

/-- A part leaves every buffer it does not write as it was. -/
theorem seg_keep (V : Valuation τ sig (Elt F)) (r : Ref sig .tc) :
    ∀ k, r ∉ W k → after (seg k) V (Proc.devRef .tc r) = V (Proc.devRef .tc r)
  | 0 => seg0_keep V r | 1 => seg1_keep V r | 2 => seg2_keep V r | 3 => seg3_keep V r | 4 => seg4_keep V r
  | 5 => seg5_keep V r | 6 => seg6_keep V r | 7 => seg7_keep V r | 8 => seg8_keep V r | 9 => seg9_keep V r
  | _ + 10 => fun _ => rfl

/-- The contents after the tables and the first `k` parts. -/
noncomputable def val (V : Valuation τ sig (Elt F)) : ℕ → Valuation τ sig (Elt F)
  | 0 => after pre V
  | k + 1 => after (seg k) (val V k)

/-- Between two stages a buffer keeps its contents if no part in between writes it. -/
theorem val_keep (V : Valuation τ sig (Elt F)) (r : Ref sig .tc) {j k : ℕ} (hjk : j ≤ k) (h : ∀ i < k, j ≤ i → r ∉ W i) :
    val V k (Proc.devRef .tc r) = val V j (Proc.devRef .tc r) := by
  induction k, hjk using Nat.le_induction with
  | base => rfl
  | succ k hjk ih =>
    exact (seg_keep _ r k (h k k.lt_succ_self hjk)).trans (ih fun i hi => h i (hi.trans k.lt_succ_self))

/-- A buffer no part writes holds at every stage what the tables left there. -/
theorem val_const (V : Valuation τ sig (Elt F)) (r : Ref sig .tc) (h : ∀ i < 10, r ∉ W i := by decide) (k : ℕ) :
    val V k (Proc.devRef .tc r) = after pre V (Proc.devRef .tc r) :=
  val_keep V r k.zero_le fun i _ _ => if hi : i < 10 then h i hi else W_nil (Nat.le_of_not_lt hi) ▸ List.not_mem_nil

/-- An argument is written neither by the tables nor by any part. -/
theorem val_arg (V : Valuation τ sig (Elt F)) (r : Ref sig .tc) (k : ℕ) (h : ∀ i < 10, r ∉ W i := by decide)
    (hp : after pre V (Proc.devRef .tc r) = V (Proc.devRef .tc r) := by delta pre; after_results_simp) :
    val V k (Proc.devRef .tc r) = V (Proc.devRef .tc r) :=
  (val_const V r h k).trans hp

theorem val_arg0 (V : Valuation τ sig (Elt F)) (k : ℕ) : val V k (Proc.devRef .tc main_arg0) = V (Proc.devRef .tc main_arg0) := val_arg V main_arg0 k
theorem val_arg1 (V : Valuation τ sig (Elt F)) (k : ℕ) : val V k (Proc.devRef .tc main_arg1) = V (Proc.devRef .tc main_arg1) := val_arg V main_arg1 k
theorem val_arg2 (V : Valuation τ sig (Elt F)) (k : ℕ) : val V k (Proc.devRef .tc main_arg2) = V (Proc.devRef .tc main_arg2) := val_arg V main_arg2 k
theorem val_arg3 (V : Valuation τ sig (Elt F)) (k : ℕ) : val V k (Proc.devRef .tc main_arg3) = V (Proc.devRef .tc main_arg3) := val_arg V main_arg3 k
theorem val_arg4 (V : Valuation τ sig (Elt F)) (k : ℕ) : val V k (Proc.devRef .tc main_arg4) = V (Proc.devRef .tc main_arg4) := val_arg V main_arg4 k

/-- A buffer no later part writes holds at the end what part `k`, whose operations are `s`, left there. -/
theorem val_at (V : Valuation τ sig (Elt F)) (r : Ref sig .tc) (k : ℕ) (s : List (HloOp τ sig (Elt F))) (hs : seg k = s := by rfl)
    (h : k < 10 ∧ ∀ i < 10, k < i → r ∉ W i := by decide) :
    val V 10 (Proc.devRef .tc r) = after s (val V k) (Proc.devRef .tc r) :=
  hs ▸ val_keep V r (j := k + 1) h.1 fun i hi hk => h.2 i hi hk

/-- The whole list run stage by stage. -/
theorem after_ops (V : Valuation τ sig (Elt F)) : after ops V = after fin (val V 10) := by
  show after (pre ++ seg0 ++ seg1 ++ seg2 ++ seg3 ++ seg4 ++ seg5 ++ seg6 ++ seg7 ++ seg8 ++ seg9 ++ fin) V = _
  simp only [after_append]; rfl

/-- The last operation lays the ten parts' results side by side. -/
theorem fin_out (X : Valuation τ sig (Elt F)) : after fin X (Proc.devRef .tc main_v570)
      = concatenate S64x256x64x50 3 [⟨S64x256x64x5, X (Proc.devRef .tc main_v56)⟩, ⟨S64x256x64x6, X (Proc.devRef .tc main_v113)⟩, ⟨S64x256x64x4, X (Proc.devRef .tc main_v170)⟩, ⟨S64x256x64x6, X (Proc.devRef .tc main_v227)⟩, ⟨S64x256x64x4, X (Proc.devRef .tc main_v284)⟩, ⟨S64x256x64x5, X (Proc.devRef .tc main_v341)⟩, ⟨S64x256x64x6, X (Proc.devRef .tc main_v398)⟩, ⟨S64x256x64x4, X (Proc.devRef .tc main_v455)⟩, ⟨S64x256x64x6, X (Proc.devRef .tc main_v512)⟩, ⟨S64x256x64x4, X (Proc.devRef .tc main_v569)⟩] concatenates_S64x256x64x5_S64x256x64x6_S64x256x64x4_S64x256x64x6_S64x256x64x4_S64x256x64x5_S64x256x64x6_S64x256x64x4_S64x256x64x6_S64x256x64x4_S64x256x64x50_d3 := by
  delta fin; simp only [after_cons, after_nil]; rw [nary_result]; rfl

theorem fin_keep (X : Valuation τ sig (Elt F)) (r : Ref sig .tc) (h : r ≠ main_v570) : after fin X (Proc.devRef .tc r) = X (Proc.devRef .tc r) := by
  delta fin; simp only [after_cons, after_nil]; exact nary_result_ne _ _ _ _ _ _ h

/-- The `k`-th of the reference's ten results, as a function of `V`'s arguments. -/
abbrev part (V : Valuation τ sig (Elt F)) (k : Fin 10) :=
  ((refParts (V (Proc.devRef .tc main_arg0)) (V (Proc.devRef .tc main_arg1)) (V (Proc.devRef .tc main_arg2)) (V (Proc.devRef .tc main_arg3)) (V (Proc.devRef .tc main_arg4))).get (k.cast rfl)).2

/- Part `k` reads its table, its mask and the arguments, which no part writes, and no later part writes its result. -/
theorem res0 (V : Valuation τ sig (Elt F)) : val V 10 (Proc.devRef .tc main_v56) = part V 0 := by
  rw [val_at V main_v56 0 seg0, seg0_out (val V 0) (by rw [val_const V main_c_0]; delta pre; after_results_simp), val_const V main_c,
    val_arg0, val_arg1, val_arg2, val_arg3, val_arg4]
  delta pre; after_results_simp; rfl
theorem res1 (V : Valuation τ sig (Elt F)) : val V 10 (Proc.devRef .tc main_v113) = part V 1 := by
  rw [val_at V main_v113 1 seg1, seg1_out (val V 1) (by rw [val_const V main_c_2]; delta pre; after_results_simp), val_const V main_c_1,
    val_arg0, val_arg1, val_arg2, val_arg3, val_arg4]
  delta pre; after_results_simp; rfl
theorem res2 (V : Valuation τ sig (Elt F)) : val V 10 (Proc.devRef .tc main_v170) = part V 2 := by
  rw [val_at V main_v170 2 seg2, seg2_out (val V 2) (by rw [val_const V main_c_4]; delta pre; after_results_simp), val_const V main_c_3,
    val_arg0, val_arg1, val_arg2, val_arg3, val_arg4]
  delta pre; after_results_simp; rfl
theorem res3 (V : Valuation τ sig (Elt F)) : val V 10 (Proc.devRef .tc main_v227) = part V 3 := by
  rw [val_at V main_v227 3 seg3, seg3_out (val V 3) (by rw [val_const V main_c_6]; delta pre; after_results_simp), val_const V main_c_5,
    val_arg0, val_arg1, val_arg2, val_arg3, val_arg4]
  delta pre; after_results_simp; rfl
theorem res4 (V : Valuation τ sig (Elt F)) : val V 10 (Proc.devRef .tc main_v284) = part V 4 := by
  rw [val_at V main_v284 4 seg4, seg4_out (val V 4) (by rw [val_const V main_c_8]; delta pre; after_results_simp), val_const V main_c_7,
    val_arg0, val_arg1, val_arg2, val_arg3, val_arg4]
  delta pre; after_results_simp; rfl
theorem res5 (V : Valuation τ sig (Elt F)) : val V 10 (Proc.devRef .tc main_v341) = part V 5 := by
  rw [val_at V main_v341 5 seg5, seg5_out (val V 5) (by rw [val_const V main_c_10]; delta pre; after_results_simp), val_const V main_c_9,
    val_arg0, val_arg1, val_arg2, val_arg3, val_arg4]
  delta pre; after_results_simp; rfl
theorem res6 (V : Valuation τ sig (Elt F)) : val V 10 (Proc.devRef .tc main_v398) = part V 6 := by
  rw [val_at V main_v398 6 seg6, seg6_out (val V 6) (by rw [val_const V main_c_12]; delta pre; after_results_simp), val_const V main_c_11,
    val_arg0, val_arg1, val_arg2, val_arg3, val_arg4]
  delta pre; after_results_simp; rfl
theorem res7 (V : Valuation τ sig (Elt F)) : val V 10 (Proc.devRef .tc main_v455) = part V 7 := by
  rw [val_at V main_v455 7 seg7, seg7_out (val V 7) (by rw [val_const V main_c_14]; delta pre; after_results_simp), val_const V main_c_13,
    val_arg0, val_arg1, val_arg2, val_arg3, val_arg4]
  delta pre; after_results_simp; rfl
theorem res8 (V : Valuation τ sig (Elt F)) : val V 10 (Proc.devRef .tc main_v512) = part V 8 := by
  rw [val_at V main_v512 8 seg8, seg8_out (val V 8) (by rw [val_const V main_c_16]; delta pre; after_results_simp), val_const V main_c_15,
    val_arg0, val_arg1, val_arg2, val_arg3, val_arg4]
  delta pre; after_results_simp; rfl
theorem res9 (V : Valuation τ sig (Elt F)) : val V 10 (Proc.devRef .tc main_v569) = part V 9 := by
  rw [val_at V main_v569 9 seg9, seg9_out (val V 9) (by rw [val_const V main_c_18]; delta pre; after_results_simp), val_const V main_c_17,
    val_arg0, val_arg1, val_arg2, val_arg3, val_arg4]
  delta pre; after_results_simp; rfl

theorem out_eq (V : Valuation τ sig (Elt F)) : after ops V (Proc.devRef .tc main_v570)
      = refOut (V (Proc.devRef .tc main_arg0)) (V (Proc.devRef .tc main_arg1)) (V (Proc.devRef .tc main_arg2)) (V (Proc.devRef .tc main_arg3)) (V (Proc.devRef .tc main_arg4)) := by
  rw [after_ops, fin_out, res0, res1, res2, res3, res4, res5, res6, res7, res8, res9]
  rfl
theorem arg0_eq (V : Valuation τ sig (Elt F)) : after ops V (Proc.devRef .tc main_arg0) = V (Proc.devRef .tc main_arg0) := by
  rw [after_ops, fin_keep _ main_arg0 (by decide), val_arg0]
theorem arg1_eq (V : Valuation τ sig (Elt F)) : after ops V (Proc.devRef .tc main_arg1) = V (Proc.devRef .tc main_arg1) := by
  rw [after_ops, fin_keep _ main_arg1 (by decide), val_arg1]
theorem arg2_eq (V : Valuation τ sig (Elt F)) : after ops V (Proc.devRef .tc main_arg2) = V (Proc.devRef .tc main_arg2) := by
  rw [after_ops, fin_keep _ main_arg2 (by decide), val_arg2]
theorem arg3_eq (V : Valuation τ sig (Elt F)) : after ops V (Proc.devRef .tc main_arg3) = V (Proc.devRef .tc main_arg3) := by
  rw [after_ops, fin_keep _ main_arg3 (by decide), val_arg3]
theorem arg4_eq (V : Valuation τ sig (Elt F)) : after ops V (Proc.devRef .tc main_arg4) = V (Proc.devRef .tc main_arg4) := by
  rw [after_ops, fin_keep _ main_arg4 (by decide), val_arg4]

end Cert.ReferenceIdeal.Run

end
-- ==== Proof.LibPlainDot.lean ====
import Idealize.ShloMosaic.PureOps.Ideal.Laws
import Idealize.ShloMosaic.Lib.ValueIdx
import proofs.«137943_j1228360647386_1_alg».proof.Proof.LibPlainMatmul

noncomputable section

namespace Idealize.ShloMosaic.PlainDot

open Idealize.ShloMosaic Idealize.ShloMosaic.ValueIdx Idealize.ShloMosaic.PlainMatmul

theorem plain_contraction (M K N : Nat) {φ₁ φ₂ : FTy} (lhs : FVec Ideal ⟨2, ![M, K]⟩ φ₁) (rhs : FVec Ideal ⟨2, ![K, N]⟩ φ₂)
    (r : Fin M) (n : Fin N) :
    (∑ q : (DotDims.plain M K N).contr.Idx,
        lhs ((DotDims.plain M K N).lhsIdx (ix2 r n) q) * rhs ((DotDims.plain M K N).rhsIdx (ix2 r n) q))
      = ∑ k : Fin K, lhs (ix2 r k) * rhs (ix2 k n) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

theorem dotGeneral_plain_apply (M K N : Nat) {φ₁ φ₂ : FTy} (prec : Option ContractPrecision) (sched : HostSchedule)
    (lhs : FVec Ideal ⟨2, ![M, K]⟩ φ₁) (rhs : FVec Ideal ⟨2, ![K, N]⟩ φ₂) (r : Fin M) (n : Fin N) :
    FloatOps.dotGeneral (DotDims.plain M K N) prec sched lhs rhs (ix2 r n)
      = ∑ k : Fin K, lhs (ix2 r k) * rhs (ix2 k n) := by
  rw [Ideal.dotGeneral_apply]
  exact plain_contraction M K N lhs rhs r n

end Idealize.ShloMosaic.PlainDot

end
-- ==== Proof.RefValueMlp.lean ====
import proofs.«137943_j1228360647386_1_alg».proof.Proof.Spec
import proofs.«137943_j1228360647386_1_alg».proof.Proof.RefOut
import proofs.«137943_j1228360647386_1_alg».proof.Proof.Consts
import proofs.«137943_j1228360647386_1_alg».proof.Proof.LibPlainDot
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.Part

open Cert.ReferenceIdeal Idealize.ShloMosaic Idealize.ShloMosaic.ValueIdx Idealize.SL.Sem
open Cert.ReferenceIdeal.Facts₀

theorem w1T_apply (p : Fin 10) (W1 : FVec Ideal S10x16x256 .f32) (hs : S10x16x256.Slices ![p.val, 0, 0] S1x16x256)
    (c : Fin 256) (h : Fin 16) :
    transpose S256x16 [1, 0] (shapeCast S16x256 (extractStridedSlice S1x16x256 ![p.val, 0, 0] W1 hs) shapeCasts_S1x16x256_S16x256)
      transposes_S16x256_S256x16_1_0 (ix2 c h) = W1 (ix3 p h c) := by
  refine (transpose_apply _ _ _ (ix2 c h) (ix2 h c) fun b => ?_).trans ?_
  · match b with
    | ⟨0, _⟩ => rfl
    | ⟨1, _⟩ => rfl
  refine (shapeCast_apply _ _ (ix2 h c) (ix3 (0 : Fin 1) h c) ?_).trans ?_
  · rw [Shape.rowMajor_val_three, Shape.rowMajor_val_two]
    show ((0 : ℕ) * 16 + h.val) * 256 + c.val = h.val * 256 + c.val
    omega
  refine extractStridedSlice_apply _ _ _ (ix3 (0 : Fin 1) h c) (ix3 p h c) fun a => ?_
  match a with
  | ⟨0, _⟩ => rfl
  | ⟨1, _⟩ => exact (Nat.zero_add _).symm
  | ⟨2, _⟩ => exact (Nat.zero_add _).symm

theorem w2T_apply (p : Fin 10) (W2 : FVec Ideal S10x256x16 .f32) (hs : S10x256x16.Slices ![p.val, 0, 0] S1x256x16)
    (h : Fin 16) (c : Fin 256) :
    transpose S16x256 [1, 0] (shapeCast S256x16 (extractStridedSlice S1x256x16 ![p.val, 0, 0] W2 hs) shapeCasts_S1x256x16_S256x16)
      transposes_S256x16_S16x256_1_0 (ix2 h c) = W2 (ix3 p c h) := by
  refine (transpose_apply _ _ _ (ix2 h c) (ix2 c h) fun b => ?_).trans ?_
  · match b with
    | ⟨0, _⟩ => rfl
    | ⟨1, _⟩ => rfl
  refine (shapeCast_apply _ _ (ix2 c h) (ix3 (0 : Fin 1) c h) ?_).trans ?_
  · rw [Shape.rowMajor_val_three, Shape.rowMajor_val_two]
    show ((0 : ℕ) * 256 + c.val) * 16 + h.val = c.val * 16 + h.val
    omega
  refine extractStridedSlice_apply _ _ _ (ix3 (0 : Fin 1) c h) (ix3 p c h) fun a => ?_
  match a with
  | ⟨0, _⟩ => rfl
  | ⟨1, _⟩ => exact (Nat.zero_add _).symm
  | ⟨2, _⟩ => exact (Nat.zero_add _).symm

theorem bias1_apply (p : Fin 10) (b1 : FVec Ideal S10x16 .f32) (hs : S10x16.Slices ![p.val, 0] S1x16) (n : Fin 64) (h : Fin 16) :
    broadcastInDim S64x16 ![0, 1] bcast_S1x16_S64x16_0_1
      (broadcastInDim S1x16 ![1] bcast_S16_S1x16_1 (shapeCast S16 (extractStridedSlice S1x16 ![p.val, 0] b1 hs) shapeCasts_S1x16_S16))
      (ix2 n h) = b1 (ix2 p h) := by
  refine (broadcastInDim_apply _ _ _ (ix2 n h) (ix2 (0 : Fin 1) h) fun a => ?_).trans ?_
  · match a with
    | ⟨0, _⟩ => rfl
    | ⟨1, _⟩ => rfl
  refine (broadcastInDim_apply _ _ _ (ix2 (0 : Fin 1) h) (ix1 h) fun a => ?_).trans ?_
  · match a with
    | ⟨0, _⟩ => rfl
  refine (shapeCast_apply _ _ (ix1 h) (ix2 (0 : Fin 1) h) ?_).trans ?_
  · rw [Shape.rowMajor_val_two, Shape.rowMajor_val_one]
    show (0 : ℕ) * 16 + h.val = h.val
    omega
  refine extractStridedSlice_apply _ _ _ (ix2 (0 : Fin 1) h) (ix2 p h) fun a => ?_
  match a with
  | ⟨0, _⟩ => rfl
  | ⟨1, _⟩ => exact (Nat.zero_add _).symm

theorem bias2_apply (p : Fin 10) (b2 : FVec Ideal S10x256 .f32) (hs : S10x256.Slices ![p.val, 0] S1x256) (n : Fin 64) (c : Fin 256) :
    broadcastInDim S64x256 ![0, 1] bcast_S1x256_S64x256_0_1
      (broadcastInDim S1x256 ![1] bcast_S256_S1x256_1 (shapeCast S256 (extractStridedSlice S1x256 ![p.val, 0] b2 hs) shapeCasts_S1x256_S256))
      (ix2 n c) = b2 (ix2 p c) := by
  refine (broadcastInDim_apply _ _ _ (ix2 n c) (ix2 (0 : Fin 1) c) fun a => ?_).trans ?_
  · match a with
    | ⟨0, _⟩ => rfl
    | ⟨1, _⟩ => rfl
  refine (broadcastInDim_apply _ _ _ (ix2 (0 : Fin 1) c) (ix1 c) fun a => ?_).trans ?_
  · match a with
    | ⟨0, _⟩ => rfl
  refine (shapeCast_apply _ _ (ix1 c) (ix2 (0 : Fin 1) c) ?_).trans ?_
  · rw [Shape.rowMajor_val_two, Shape.rowMajor_val_one]
    show (0 : ℕ) * 256 + c.val = c.val
    omega
  refine extractStridedSlice_apply _ _ _ (ix2 (0 : Fin 1) c) (ix2 p c) fun a => ?_
  match a with
  | ⟨0, _⟩ => rfl
  | ⟨1, _⟩ => exact (Nat.zero_add _).symm

theorem mlpR_apply (p : Fin 10) (W1 : FVec Ideal S10x16x256 .f32) (b1 : FVec Ideal S10x16 .f32)
    (W2 : FVec Ideal S10x256x16 .f32) (b2 : FVec Ideal S10x256 .f32)
    (hs1 : S10x16x256.Slices ![p.val, 0, 0] S1x16x256) (hs2 : S10x16.Slices ![p.val, 0] S1x16)
    (hs3 : S10x256x16.Slices ![p.val, 0, 0] S1x256x16) (hs4 : S10x256.Slices ![p.val, 0] S1x256)
    (v : FVec Ideal S64x256 .f32) (n : Fin 64) (c : Fin 256) :
    mlpR (extractStridedSlice S1x16x256 ![p.val, 0, 0] W1 hs1) (extractStridedSlice S1x16 ![p.val, 0] b1 hs2)
        (extractStridedSlice S1x256x16 ![p.val, 0, 0] W2 hs3) (extractStridedSlice S1x256 ![p.val, 0] b2 hs4) v (ix2 n c)
      = Cert.Spec.mlp (fun h c => W1 (ix3 p h c)) (fun h => b1 (ix2 p h)) (fun c h => W2 (ix3 p c h)) (fun c => b2 (ix2 p c))
          (fun c' => v (ix2 n c')) c := by
  unfold mlpR Cert.Spec.mlp Cert.Spec.hidden
  rw [addf_apply, bias2_apply]
  simp only [Host.dotGeneral]
  rw [show dot_S64x16_S16x256_S64x256_1_0_0_1_n_n = DotDims.plain 64 16 256 from rfl,
    PlainDot.dotGeneral_plain_apply]
  congr 1
  refine Finset.sum_congr rfl fun h _ => ?_
  rw [w2T_apply, maximumf_apply, addf_apply, bias1_apply,
    show dot_S64x256_S256x16_S64x16_1_0_0_1_n_n = DotDims.plain 64 256 16 from rfl,
    PlainDot.dotGeneral_plain_apply, broadcastInDim_scalar_apply, constant_apply, Cert.Consts.ofBits_zero]
  congr 3
  refine Finset.sum_congr rfl fun c' _ => ?_
  rw [w1T_apply]

theorem gateR_apply (W1s : FVec Ideal S1x16x256 .f32) (b1s : FVec Ideal S1x16 .f32) (W2s : FVec Ideal S1x256x16 .f32)
    (b2s : FVec Ideal S1x256 .f32) (avg mx : FVec Ideal S64x256 .f32) (n : Fin 64) (c : Fin 256) :
    gateR W1s b1s W2s b2s avg mx (ix2 n c)
      = Ideal.logistic (mlpR W1s b1s W2s b2s avg (ix2 n c) + mlpR W1s b1s W2s b2s mx (ix2 n c)) := by
  unfold gateR
  show FloatOps.hostDivf (broadcastInDim S64x256 ![] bcast_S_S64x256 (constant S_ .f32 0x3F800000#32) (ix2 n c))
      (FloatOps.addf (broadcastInDim S64x256 ![] bcast_S_S64x256 (constant S_ .f32 0x3F800000#32) (ix2 n c))
        (FloatOps.hostUnary .exp (FloatOps.hostNegf
          (mlpR W1s b1s W2s b2s avg (ix2 n c) + mlpR W1s b1s W2s b2s mx (ix2 n c))))) = _
  rw [broadcastInDim_scalar_apply, constant_apply, Cert.Consts.ofBits_one]
  rfl

end Cert.ReferenceIdeal.Part

end
-- ==== Proof.LibTrailingPool.lean ====
import Idealize.ShloMosaic.PureOps.Ideal.Laws
import Idealize.ShloMosaic.PureOps.Reduce
import Idealize.ShloMosaic.Lib.ValueIdx
import proofs.«137943_j1228360647386_1_alg».proof.Proof.LibSupFold

noncomputable section

open scoped BigOperators

namespace Idealize.ShloMosaic.TrailingPool

open Idealize.ShloMosaic Idealize.ShloMosaic.ValueIdx

variable {A B C D : ℕ}

theorem drop_eq (h : (⟨4, ![A, B, C, D]⟩ : Shape).ReducesTo [2, 3] ⟨2, ![A, B]⟩) (i : (⟨4, ![A, B, C, D]⟩ : Shape).Idx) :
    h.drop i = ix2 (i 0) (i 1) := by
  funext b
  refine Fin.ext ?_
  match b with
  | ⟨0, _⟩ => rfl
  | ⟨1, _⟩ => rfl

theorem drop_eq_iff (h : (⟨4, ![A, B, C, D]⟩ : Shape).ReducesTo [2, 3] ⟨2, ![A, B]⟩) (i : (⟨4, ![A, B, C, D]⟩ : Shape).Idx)
    (n : Fin A) (c : Fin B) : h.drop i = ix2 n c ↔ i 0 = n ∧ i 1 = c := by
  rw [drop_eq]
  constructor
  · intro e
    exact ⟨congrFun e 0, congrFun e 1⟩
  · rintro ⟨rfl, rfl⟩
    rfl

theorem filter_drop_eq_image (h : (⟨4, ![A, B, C, D]⟩ : Shape).ReducesTo [2, 3] ⟨2, ![A, B]⟩) (n : Fin A) (c : Fin B) :
    (Finset.univ.filter fun i : (⟨4, ![A, B, C, D]⟩ : Shape).Idx => h.drop i = ix2 n c)
      = (Finset.univ : Finset (Fin C × Fin D)).image fun p => ix4 n c p.1 p.2 := by
  ext i
  simp only [Finset.mem_filter, Finset.mem_univ, true_and, Finset.mem_image]
  rw [drop_eq_iff]
  constructor
  · rintro ⟨e0, e1⟩
    refine ⟨(i 2, i 3), ?_⟩
    rw [← e0, ← e1]
    exact (eq_ix4 i).symm
  · rintro ⟨p, rfl⟩
    exact ⟨rfl, rfl⟩

theorem ix4_pair_injective (n : Fin A) (c : Fin B) :
    Function.Injective fun p : Fin C × Fin D => (ix4 n c p.1 p.2 : (⟨4, ![A, B, C, D]⟩ : Shape).Idx) := by
  intro p p' e
  exact Prod.ext (congrFun e 2) (congrFun e 3)

theorem hostReduceAdd_trailing (h : (⟨4, ![A, B, C, D]⟩ : Shape).ReducesTo [2, 3] ⟨2, ![A, B]⟩)
    (x : (⟨4, ![A, B, C, D]⟩ : Shape).Idx → EReal) (init : EReal) (n : Fin A) (c : Fin B) :
    Ideal.hostReduceAdd h x init (ix2 n c) = init + ∑ q : Fin D, ∑ t : Fin C, x (ix4 n c t q) := by
  unfold Ideal.hostReduceAdd
  rw [filter_drop_eq_image, Finset.sum_image (fun p _ p' _ e => ix4_pair_injective n c e), Finset.sum_comm,
    ← Finset.sum_product']
  rfl

theorem reduce_max_trailing {u : Shape} (h : (⟨4, ![A, B, C, D]⟩ : Shape).ReducesTo [2, 3] ⟨2, ![A, B]⟩)
    (x : (⟨4, ![A, B, C, D]⟩ : Shape).Idx → EReal) (init : u.Idx → EReal) (hu : 0 < u.numel)
    (hinit : init (Shape.Idx.first hu) = ⊥) (n : Fin A) (c : Fin B) :
    Host.reduce (max : EReal → EReal → EReal) x init h hu (ix2 n c) = ⨆ q : Fin D, ⨆ t : Fin C, x (ix4 n c t q) := by
  rw [Host.reduce_eq_fold, filter_drop_eq_image, Finset.fold_image (fun p _ p' _ e => ix4_pair_injective n c e), hinit,
    SupFold.fold_max_bot_eq_iSup, SupFold.iSup_pair, iSup_comm]
  rfl

end Idealize.ShloMosaic.TrailingPool

end
-- ==== Proof.LibGatherCols.lean ====
import Idealize.ShloMosaic.PureOps.ShapeOps
import Idealize.ShloMosaic.Lib.ValueIdx

namespace Idealize.ShloMosaic.GatherCols

open Idealize.ShloMosaic Idealize.ShloMosaic.ValueIdx

variable {A B C N k w : ℕ}

theorem operandIdx_cols
    (d : GatherDims ⟨4, ![A, B, C, N]⟩ ⟨2, ![k, 1]⟩ ⟨4, ![A, B, C, k]⟩)
    (hod : d.offsetDims = [0, 1, 2]) (hcoll : d.collapsedSliceDims = [3]) (hob : d.operandBatchingDims = [])
    (hsim : d.startIndexMap = [3]) (hivd : d.indexVectorDim = 1)
    (idx : IVec ⟨2, ![k, 1]⟩ w) (j : (⟨4, ![A, B, C, k]⟩ : Shape).Idx) (hN : 0 < N) :
    d.operandIdx j idx = ix4 (j 0) (j 1) (j 2) ⟨min (idx (ix2 (j 3) (0 : Fin 1))).toInt.toNat (N - 1), by omega⟩ := by
  have hsl : d.sliceSizes 3 = 1 := d.slice_collapsed 3 (by rw [hcoll]; exact List.mem_singleton.mpr rfl)
  obtain ⟨od, cd, ob, sb, sm, iv, ss, wf⟩ := d
  dsimp only at hod hcoll hob hsim hivd hsl
  subst hod hcoll hob hsim hivd
  funext a
  refine Fin.ext ?_
  match a with
  | ⟨0, _⟩ =>
    simp [GatherDims.operandIdx, GatherDims.start, GatherDims.batchCoord, GatherDims.offCoord, GatherDims.sKept, Shape.kept]
    rfl
  | ⟨1, _⟩ =>
    simp [GatherDims.operandIdx, GatherDims.start, GatherDims.batchCoord, GatherDims.offCoord, GatherDims.sKept, Shape.kept]
    rfl
  | ⟨2, _⟩ =>
    simp [GatherDims.operandIdx, GatherDims.start, GatherDims.batchCoord, GatherDims.offCoord, GatherDims.sKept, Shape.kept]
    rfl
  | ⟨3, _⟩ =>
    simp [GatherDims.operandIdx, GatherDims.start, GatherDims.batchCoord, GatherDims.offCoord, GatherDims.sKept, Shape.kept]
    rw [hsl]
    congr 3
    congr 1
    funext b
    match b with
    | ⟨0, _⟩ =>
      unfold GatherDims.siIdx
      rw [dif_neg (by simp)]
      unfold GatherDims.siCoord
      apply Fin.ext
      simp only [Fin.val_cast]
      rfl
    | ⟨1, _⟩ =>
      unfold GatherDims.siIdx
      rw [dif_pos (by rfl)]
      apply Fin.ext
      rfl

theorem gather_cols_apply {α : Type}
    (d : GatherDims ⟨4, ![A, B, C, N]⟩ ⟨2, ![k, 1]⟩ ⟨4, ![A, B, C, k]⟩)
    (hod : d.offsetDims = [0, 1, 2]) (hcoll : d.collapsedSliceDims = [3]) (hob : d.operandBatchingDims = [])
    (hsim : d.startIndexMap = [3]) (hivd : d.indexVectorDim = 1)
    (x : (⟨4, ![A, B, C, N]⟩ : Shape).Idx → α) (idx : IVec ⟨2, ![k, 1]⟩ w) (cols : Fin k → Fin N)
    (hcols : ∀ q : Fin k, min (idx (ix2 q (0 : Fin 1))).toInt.toNat (N - 1) = (cols q).val)
    (j : (⟨4, ![A, B, C, k]⟩ : Shape).Idx) :
    Host.gather d x idx j = x (ix4 (j 0) (j 1) (j 2) (cols (j 3))) := by
  have hN : 0 < N := Nat.lt_of_le_of_lt (Nat.zero_le _) (cols (j 3)).isLt
  unfold Host.gather
  rw [operandIdx_cols d hod hcoll hob hsim hivd idx j hN]
  congr 1
  funext a
  match a with
  | ⟨0, _⟩ => rfl
  | ⟨1, _⟩ => rfl
  | ⟨2, _⟩ => rfl
  | ⟨3, _⟩ => exact Fin.ext (hcols (j 3))

end Idealize.ShloMosaic.GatherCols
-- ==== Proof.RefValuePart.lean ====
import proofs.«137943_j1228360647386_1_alg».proof.Proof.RefValueMlp
import proofs.«137943_j1228360647386_1_alg».proof.Proof.LibTrailingPool
import proofs.«137943_j1228360647386_1_alg».proof.Proof.LibGatherCols

noncomputable section

open scoped BigOperators

namespace Cert.ReferenceIdeal.Part

open Cert.ReferenceIdeal Idealize.ShloMosaic Idealize.ShloMosaic.ValueIdx Idealize.SL.Sem
open Cert.ReferenceIdeal.Facts₀

theorem startIdx_apply {k : ℕ} (hb50 : S_.BroadcastsInDim ⟨1, ![k]⟩ (![] : Fin 0 → Fin 1))
    (hcol : (⟨1, ![k]⟩ : Shape).BroadcastsInDim ⟨2, ![k, 1]⟩ (![0] : Fin 1 → Fin 2))
    (joints : IVec ⟨1, ![k]⟩ 32) (q : Fin k) :
    startIdx hb50 hcol joints (ix2 q (0 : Fin 1)) = joints (ix1 q) := by
  unfold startIdx
  refine (broadcastInDim_apply _ _ _ (ix2 q (0 : Fin 1)) (ix1 q) fun a => ?_).trans ?_
  · match a with
    | ⟨0, _⟩ =>
      show q.val = if k = 1 then 0 else q.val
      split
      · have := q.isLt; omega
      · rfl
  rw [select_apply]
  exact select_zero _ _

theorem RPart_eq {k : ℕ} (p : Fin 10) (r : EReal) (cols : Fin k → Fin 50)
    (gd : GatherDims S64x256x64x50 ⟨2, ![k, 1]⟩ ⟨4, ![64, 256, 64, k]⟩)
    (hod : gd.offsetDims = [0, 1, 2]) (hcoll : gd.collapsedSliceDims = [3]) (hob : gd.operandBatchingDims = [])
    (hsim : gd.startIndexMap = [3]) (hivd : gd.indexVectorDim = 1)
    (hR : (⟨4, ![64, 256, 64, k]⟩ : Shape).ReducesTo [2, 3] S64x256)
    (hbk : S64x256x1x1.BroadcastsInDim ⟨4, ![64, 256, 64, k]⟩ (![0, 1, 2, 3] : Fin 4 → Fin 4))
    (cnt : BitVec 32) (hcnt : ∀ a : EReal, Ideal.div a (Ideal.ofBits .f32 cnt) = a * r)
    (idx : IVec ⟨2, ![k, 1]⟩ 32)
    (hcols : ∀ q : Fin k, min (idx (ix2 q (0 : Fin 1))).toInt.toNat (50 - 1) = (cols q).val)
    (x : FVec Ideal S64x256x64x50 .f32) (W1 : FVec Ideal S10x16x256 .f32) (b1 : FVec Ideal S10x16 .f32)
    (W2 : FVec Ideal S10x256x16 .f32) (b2 : FVec Ideal S10x256 .f32)
    (hs1 : S10x16x256.Slices ![p.val, 0, 0] S1x16x256) (hs2 : S10x16.Slices ![p.val, 0] S1x16)
    (hs3 : S10x256x16.Slices ![p.val, 0, 0] S1x256x16) (hs4 : S10x256.Slices ![p.val, 0] S1x256) :
    RPart gd hR hbk cnt idx x (extractStridedSlice S1x16x256 ![p.val, 0, 0] W1 hs1) (extractStridedSlice S1x16 ![p.val, 0] b1 hs2)
        (extractStridedSlice S1x256x16 ![p.val, 0, 0] W2 hs3) (extractStridedSlice S1x256 ![p.val, 0] b2 hs4)
      = Cert.Spec.part p r cols x W1 b1 W2 b2 := by
  have hg : Host.gather gd x idx = Cert.Spec.pick cols x :=
    funext fun j => GatherCols.gather_cols_apply gd hod hcoll hob hsim hivd x idx cols hcols j
  funext i
  obtain ⟨n, c, t, q, rfl⟩ : ∃ n c t q, i = ix4 n c t q := ⟨i 0, i 1, i 2, i 3, eq_ix4 i⟩
  unfold RPart Cert.Spec.part Cert.Spec.partOut Cert.Spec.rowGate Cert.Spec.gate
  rw [hg, mulf_apply]
  congr 1
  refine (broadcastInDim_apply _ _ _ (ix4 n c t q) (ix4 n c (0 : Fin 1) (0 : Fin 1)) fun a => ?_).trans ?_
  · match a with
    | ⟨0, _⟩ => rfl
    | ⟨1, _⟩ => rfl
    | ⟨2, _⟩ => rfl
    | ⟨3, _⟩ => rfl
  refine (broadcastInDim_apply _ _ _ (ix4 n c (0 : Fin 1) (0 : Fin 1)) (ix2 n c) fun a => ?_).trans ?_
  · match a with
    | ⟨0, _⟩ => rfl
    | ⟨1, _⟩ => rfl
  rw [gateR_apply, mlpR_apply, mlpR_apply]
  show Ideal.logistic (Cert.Spec.mlp _ _ _ _ _ c + Cert.Spec.mlp _ _ _ _ _ c) = Ideal.logistic (Cert.Spec.mlp _ _ _ _ _ c + Cert.Spec.mlp _ _ _ _ _ c)
  congr 3
  · funext c'
    rw [hostDivf_apply, hostReduceAdd_apply, broadcastInDim_scalar_apply, constant_apply, constant_apply, hcnt,
      Cert.Consts.ofBits_zero, TrailingPool.hostReduceAdd_trailing, zero_add]
    rfl
  · funext c'
    exact TrailingPool.reduce_max_trailing hR _ _ h_S_ (by rw [constant_apply, Cert.Consts.ofBits_neg_inf]) n c'

end Cert.ReferenceIdeal.Part

end
-- ==== Proof.RefValue.lean ====
import proofs.«137943_j1228360647386_1_alg».proof.Proof.Spec
import proofs.«137943_j1228360647386_1_alg».proof.Proof.RefOut
import proofs.«137943_j1228360647386_1_alg».proof.Proof.Consts
import proofs.«137943_j1228360647386_1_alg».proof.Proof.RefValuePart

noncomputable section

namespace Cert.ReferenceIdeal.Part

open Cert.ReferenceIdeal Idealize.ShloMosaic Idealize.ShloMosaic.ValueIdx Idealize.SL.Sem
open Cert.ReferenceIdeal.Facts₀

theorem concatenate_congr_parts {α : Type} (t : Shape) (a : Fin t.rank) (l l' : List ((s : Shape) × (s.Idx → α)))
    (e : l = l') (h : Shape.Concatenates (l.map (·.1)) t a) (h' : Shape.Concatenates (l'.map (·.1)) t a) :
    concatenate t a l h = concatenate t a l' h' := by
  subst e; rfl

theorem cols_of_joints {k : ℕ} (hb50 : S_.BroadcastsInDim ⟨1, ![k]⟩ (![] : Fin 0 → Fin 1))
    (hcol : (⟨1, ![k]⟩ : Shape).BroadcastsInDim ⟨2, ![k, 1]⟩ (![0] : Fin 1 → Fin 2))
    (joints : IVec ⟨1, ![k]⟩ 32) (cols : Fin k → Fin 50)
    (h : ∀ q : Fin k, min (joints (ix1 q)).toInt.toNat 49 = (cols q).val) (q : Fin k) :
    min (startIdx hb50 hcol joints (ix2 q (0 : Fin 1))).toInt.toNat (50 - 1) = (cols q).val := by
  rw [startIdx_apply]; exact h q

theorem joints0 (q : Fin 5) : min (lit0 (S5.rowMajor (ix1 q))).toInt.toNat 49 = (Cert.Spec.cols0 q).val := by
  rw [show S5.rowMajor (ix1 q) = q from Fin.ext (Shape.rowMajor_val_one _)]; fin_cases q <;> rfl
theorem joints1 (q : Fin 6) : min (lit1 (S6.rowMajor (ix1 q))).toInt.toNat 49 = (Cert.Spec.cols1 q).val := by
  rw [show S6.rowMajor (ix1 q) = q from Fin.ext (Shape.rowMajor_val_one _)]; fin_cases q <;> rfl
theorem joints2 (q : Fin 4) : min (lit2 (S4.rowMajor (ix1 q))).toInt.toNat 49 = (Cert.Spec.cols2 q).val := by
  rw [show S4.rowMajor (ix1 q) = q from Fin.ext (Shape.rowMajor_val_one _)]; fin_cases q <;> rfl
theorem joints3 (q : Fin 6) : min (lit3 (S6.rowMajor (ix1 q))).toInt.toNat 49 = (Cert.Spec.cols3 q).val := by
  rw [show S6.rowMajor (ix1 q) = q from Fin.ext (Shape.rowMajor_val_one _)]; fin_cases q <;> rfl
theorem joints4 (q : Fin 4) : min (lit4 (S4.rowMajor (ix1 q))).toInt.toNat 49 = (Cert.Spec.cols4 q).val := by
  rw [show S4.rowMajor (ix1 q) = q from Fin.ext (Shape.rowMajor_val_one _)]; fin_cases q <;> rfl
theorem joints5 (q : Fin 5) : min (lit5 (S5.rowMajor (ix1 q))).toInt.toNat 49 = (Cert.Spec.cols5 q).val := by
  rw [show S5.rowMajor (ix1 q) = q from Fin.ext (Shape.rowMajor_val_one _)]; fin_cases q <;> rfl
theorem joints6 (q : Fin 6) : min (lit6 (S6.rowMajor (ix1 q))).toInt.toNat 49 = (Cert.Spec.cols6 q).val := by
  rw [show S6.rowMajor (ix1 q) = q from Fin.ext (Shape.rowMajor_val_one _)]; fin_cases q <;> rfl
theorem joints7 (q : Fin 4) : min (lit7 (S4.rowMajor (ix1 q))).toInt.toNat 49 = (Cert.Spec.cols7 q).val := by
  rw [show S4.rowMajor (ix1 q) = q from Fin.ext (Shape.rowMajor_val_one _)]; fin_cases q <;> rfl
theorem joints8 (q : Fin 6) : min (lit8 (S6.rowMajor (ix1 q))).toInt.toNat 49 = (Cert.Spec.cols8 q).val := by
  rw [show S6.rowMajor (ix1 q) = q from Fin.ext (Shape.rowMajor_val_one _)]; fin_cases q <;> rfl
theorem joints9 (q : Fin 4) : min (lit9 (S4.rowMajor (ix1 q))).toInt.toNat 49 = (Cert.Spec.cols9 q).val := by
  rw [show S4.rowMajor (ix1 q) = q from Fin.ext (Shape.rowMajor_val_one _)]; fin_cases q <;> rfl

theorem cons_part_congr {α : Type} (s : Shape) (f g : s.Idx → α) (l l' : List ((s : Shape) × (s.Idx → α)))
    (e : f = g) (el : l = l') : ((⟨s, f⟩ : (s : Shape) × (s.Idx → α)) :: l) = (⟨s, g⟩ :: l') := by
  subst e el; rfl

theorem refParts_eq (x : FVec Ideal S64x256x64x50 .f32) (W1 : FVec Ideal S10x16x256 .f32) (b1 : FVec Ideal S10x16 .f32)
    (W2 : FVec Ideal S10x256x16 .f32) (b2 : FVec Ideal S10x256 .f32) :
    refParts (F := Ideal) x W1 b1 W2 b2 = Cert.Spec.parts x W1 b1 W2 b2 := by
  unfold refParts Cert.Spec.parts
  refine cons_part_congr _ _ _ _ _ (RPart_eq (k := 5) 0 Cert.Spec.r5 Cert.Spec.cols0
    gather_S64x256x64x50_S5x1_S64x256x64x5_012_3_n_n_3_1_64256641 rfl rfl rfl rfl rfl
    reducesTo_S64x256x64x5_S64x256_d2_3 bcast_S64x256x1x1_S64x256x64x5_0_1_2_3 0x43A00000#32 Cert.Consts.div_320
    (startIdx bcast_S_S5 bcast_S5_S5x1_0 (fun i => lit0 (S5.rowMajor i)))
    (cols_of_joints bcast_S_S5 bcast_S5_S5x1_0 (fun i => lit0 (S5.rowMajor i)) Cert.Spec.cols0 joints0) x W1 b1 W2 b2
    slices_S10x16x256_S1x16x256_0_0_0 slices_S10x16_S1x16_0_0 slices_S10x256x16_S1x256x16_0_0_0 slices_S10x256_S1x256_0_0) ?_
  refine cons_part_congr _ _ _ _ _ (RPart_eq (k := 6) 1 Cert.Spec.r6 Cert.Spec.cols1
    gather_S64x256x64x50_S6x1_S64x256x64x6_012_3_n_n_3_1_64256641 rfl rfl rfl rfl rfl
    reducesTo_S64x256x64x6_S64x256_d2_3 bcast_S64x256x1x1_S64x256x64x6_0_1_2_3 0x43C00000#32 Cert.Consts.div_384
    (startIdx bcast_S_S6 bcast_S6_S6x1_0 (fun i => lit1 (S6.rowMajor i)))
    (cols_of_joints bcast_S_S6 bcast_S6_S6x1_0 (fun i => lit1 (S6.rowMajor i)) Cert.Spec.cols1 joints1) x W1 b1 W2 b2
    slices_S10x16x256_S1x16x256_1_0_0 slices_S10x16_S1x16_1_0 slices_S10x256x16_S1x256x16_1_0_0 slices_S10x256_S1x256_1_0) ?_
  refine cons_part_congr _ _ _ _ _ (RPart_eq (k := 4) 2 Cert.Spec.r4 Cert.Spec.cols2
    gather_S64x256x64x50_S4x1_S64x256x64x4_012_3_n_n_3_1_64256641 rfl rfl rfl rfl rfl
    reducesTo_S64x256x64x4_S64x256_d2_3 bcast_S64x256x1x1_S64x256x64x4_0_1_2_3 0x43800000#32 Cert.Consts.div_256
    (startIdx bcast_S_S4 bcast_S4_S4x1_0 (fun i => lit2 (S4.rowMajor i)))
    (cols_of_joints bcast_S_S4 bcast_S4_S4x1_0 (fun i => lit2 (S4.rowMajor i)) Cert.Spec.cols2 joints2) x W1 b1 W2 b2
    slices_S10x16x256_S1x16x256_2_0_0 slices_S10x16_S1x16_2_0 slices_S10x256x16_S1x256x16_2_0_0 slices_S10x256_S1x256_2_0) ?_
  refine cons_part_congr _ _ _ _ _ (RPart_eq (k := 6) 3 Cert.Spec.r6 Cert.Spec.cols3
    gather_S64x256x64x50_S6x1_S64x256x64x6_012_3_n_n_3_1_64256641 rfl rfl rfl rfl rfl
    reducesTo_S64x256x64x6_S64x256_d2_3 bcast_S64x256x1x1_S64x256x64x6_0_1_2_3 0x43C00000#32 Cert.Consts.div_384
    (startIdx bcast_S_S6 bcast_S6_S6x1_0 (fun i => lit3 (S6.rowMajor i)))
    (cols_of_joints bcast_S_S6 bcast_S6_S6x1_0 (fun i => lit3 (S6.rowMajor i)) Cert.Spec.cols3 joints3) x W1 b1 W2 b2
    slices_S10x16x256_S1x16x256_3_0_0 slices_S10x16_S1x16_3_0 slices_S10x256x16_S1x256x16_3_0_0 slices_S10x256_S1x256_3_0) ?_
  refine cons_part_congr _ _ _ _ _ (RPart_eq (k := 4) 4 Cert.Spec.r4 Cert.Spec.cols4
    gather_S64x256x64x50_S4x1_S64x256x64x4_012_3_n_n_3_1_64256641 rfl rfl rfl rfl rfl
    reducesTo_S64x256x64x4_S64x256_d2_3 bcast_S64x256x1x1_S64x256x64x4_0_1_2_3 0x43800000#32 Cert.Consts.div_256
    (startIdx bcast_S_S4 bcast_S4_S4x1_0 (fun i => lit4 (S4.rowMajor i)))
    (cols_of_joints bcast_S_S4 bcast_S4_S4x1_0 (fun i => lit4 (S4.rowMajor i)) Cert.Spec.cols4 joints4) x W1 b1 W2 b2
    slices_S10x16x256_S1x16x256_4_0_0 slices_S10x16_S1x16_4_0 slices_S10x256x16_S1x256x16_4_0_0 slices_S10x256_S1x256_4_0) ?_
  refine cons_part_congr _ _ _ _ _ (RPart_eq (k := 5) 5 Cert.Spec.r5 Cert.Spec.cols5
    gather_S64x256x64x50_S5x1_S64x256x64x5_012_3_n_n_3_1_64256641 rfl rfl rfl rfl rfl
    reducesTo_S64x256x64x5_S64x256_d2_3 bcast_S64x256x1x1_S64x256x64x5_0_1_2_3 0x43A00000#32 Cert.Consts.div_320
    (startIdx bcast_S_S5 bcast_S5_S5x1_0 (fun i => lit5 (S5.rowMajor i)))
    (cols_of_joints bcast_S_S5 bcast_S5_S5x1_0 (fun i => lit5 (S5.rowMajor i)) Cert.Spec.cols5 joints5) x W1 b1 W2 b2
    slices_S10x16x256_S1x16x256_5_0_0 slices_S10x16_S1x16_5_0 slices_S10x256x16_S1x256x16_5_0_0 slices_S10x256_S1x256_5_0) ?_
  refine cons_part_congr _ _ _ _ _ (RPart_eq (k := 6) 6 Cert.Spec.r6 Cert.Spec.cols6
    gather_S64x256x64x50_S6x1_S64x256x64x6_012_3_n_n_3_1_64256641 rfl rfl rfl rfl rfl
    reducesTo_S64x256x64x6_S64x256_d2_3 bcast_S64x256x1x1_S64x256x64x6_0_1_2_3 0x43C00000#32 Cert.Consts.div_384
    (startIdx bcast_S_S6 bcast_S6_S6x1_0 (fun i => lit6 (S6.rowMajor i)))
    (cols_of_joints bcast_S_S6 bcast_S6_S6x1_0 (fun i => lit6 (S6.rowMajor i)) Cert.Spec.cols6 joints6) x W1 b1 W2 b2
    slices_S10x16x256_S1x16x256_6_0_0 slices_S10x16_S1x16_6_0 slices_S10x256x16_S1x256x16_6_0_0 slices_S10x256_S1x256_6_0) ?_
  refine cons_part_congr _ _ _ _ _ (RPart_eq (k := 4) 7 Cert.Spec.r4 Cert.Spec.cols7
    gather_S64x256x64x50_S4x1_S64x256x64x4_012_3_n_n_3_1_64256641 rfl rfl rfl rfl rfl
    reducesTo_S64x256x64x4_S64x256_d2_3 bcast_S64x256x1x1_S64x256x64x4_0_1_2_3 0x43800000#32 Cert.Consts.div_256
    (startIdx bcast_S_S4 bcast_S4_S4x1_0 (fun i => lit7 (S4.rowMajor i)))
    (cols_of_joints bcast_S_S4 bcast_S4_S4x1_0 (fun i => lit7 (S4.rowMajor i)) Cert.Spec.cols7 joints7) x W1 b1 W2 b2
    slices_S10x16x256_S1x16x256_7_0_0 slices_S10x16_S1x16_7_0 slices_S10x256x16_S1x256x16_7_0_0 slices_S10x256_S1x256_7_0) ?_
  refine cons_part_congr _ _ _ _ _ (RPart_eq (k := 6) 8 Cert.Spec.r6 Cert.Spec.cols8
    gather_S64x256x64x50_S6x1_S64x256x64x6_012_3_n_n_3_1_64256641 rfl rfl rfl rfl rfl
    reducesTo_S64x256x64x6_S64x256_d2_3 bcast_S64x256x1x1_S64x256x64x6_0_1_2_3 0x43C00000#32 Cert.Consts.div_384
    (startIdx bcast_S_S6 bcast_S6_S6x1_0 (fun i => lit8 (S6.rowMajor i)))
    (cols_of_joints bcast_S_S6 bcast_S6_S6x1_0 (fun i => lit8 (S6.rowMajor i)) Cert.Spec.cols8 joints8) x W1 b1 W2 b2
    slices_S10x16x256_S1x16x256_8_0_0 slices_S10x16_S1x16_8_0 slices_S10x256x16_S1x256x16_8_0_0 slices_S10x256_S1x256_8_0) ?_
  refine cons_part_congr _ _ _ _ _ (RPart_eq (k := 4) 9 Cert.Spec.r4 Cert.Spec.cols9
    gather_S64x256x64x50_S4x1_S64x256x64x4_012_3_n_n_3_1_64256641 rfl rfl rfl rfl rfl
    reducesTo_S64x256x64x4_S64x256_d2_3 bcast_S64x256x1x1_S64x256x64x4_0_1_2_3 0x43800000#32 Cert.Consts.div_256
    (startIdx bcast_S_S4 bcast_S4_S4x1_0 (fun i => lit9 (S4.rowMajor i)))
    (cols_of_joints bcast_S_S4 bcast_S4_S4x1_0 (fun i => lit9 (S4.rowMajor i)) Cert.Spec.cols9 joints9) x W1 b1 W2 b2
    slices_S10x16x256_S1x16x256_9_0_0 slices_S10x16_S1x16_9_0 slices_S10x256x16_S1x256x16_9_0_0 slices_S10x256_S1x256_9_0) ?_
  rfl

theorem refOut_eq (x : FVec Ideal S64x256x64x50 .f32) (W1 : FVec Ideal S10x16x256 .f32) (b1 : FVec Ideal S10x16 .f32)
    (W2 : FVec Ideal S10x256x16 .f32) (b2 : FVec Ideal S10x256 .f32) :
    refOut (F := Ideal) x W1 b1 W2 b2 = Cert.Spec.G concatenates_S64x256x64x5_S64x256x64x6_S64x256x64x4_S64x256x64x6_S64x256x64x4_S64x256x64x5_S64x256x64x6_S64x256x64x4_S64x256x64x6_S64x256x64x4_S64x256x64x50_d3 x W1 b1 W2 b2 := by
  unfold refOut Cert.Spec.G
  exact concatenate_congr_parts _ _ _ _ (refParts_eq x W1 b1 W2 b2) _ _

end Cert.ReferenceIdeal.Part

end
-- ==== Proof.RefFinal.lean ====
import proofs.«137943_j1228360647386_1_alg».proof.Proof.RefRun
import proofs.«137943_j1228360647386_1_alg».proof.Proof.RefRead
import proofs.«137943_j1228360647386_1_alg».proof.Proof.RefValue

noncomputable section

namespace Cert.ReferenceIdeal.Final

open Cert.ReferenceIdeal Cert.ReferenceIdeal.Gen Idealize.ShloMosaic Idealize.ShloMosaic.TcCoe Idealize.SL.Sem
open Idealize.ShloMosaic.StableHlo

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v570)
          = Cert.Spec.G Cert.ReferenceIdeal.Facts₀.concatenates_S64x256x64x5_S64x256x64x6_S64x256x64x4_S64x256x64x6_S64x256x64x4_S64x256x64x5_S64x256x64x6_S64x256x64x4_S64x256x64x6_S64x256x64x4_S64x256x64x50_d3
              (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨(h c main_v570).trans ((Cert.ReferenceIdeal.Run.out_eq (F := Ideal) (launchContents m c)).trans
          (Cert.ReferenceIdeal.Part.refOut_eq _ _ _ _ _)),
        (h c main_arg0).trans (Cert.ReferenceIdeal.Run.arg0_eq (F := Ideal) (launchContents m c)),
        (h c main_arg1).trans (Cert.ReferenceIdeal.Run.arg1_eq (F := Ideal) (launchContents m c)),
        (h c main_arg2).trans (Cert.ReferenceIdeal.Run.arg2_eq (F := Ideal) (launchContents m c)),
        (h c main_arg3).trans (Cert.ReferenceIdeal.Run.arg3_eq (F := Ideal) (launchContents m c)),
        (h c main_arg4).trans (Cert.ReferenceIdeal.Run.arg4_eq (F := Ideal) (launchContents m c))⟩)
    (Cert.ReferenceIdeal.Run.run_all (F := Ideal) m ρ)

end Cert.ReferenceIdeal.Final

end
-- ==== Proof.lean ====
import proofs.«137943_j1228360647386_1_alg».proof.Proof.ClaimsKernel
import proofs.«137943_j1228360647386_1_alg».proof.Proof.KernelArray
import proofs.«137943_j1228360647386_1_alg».proof.Proof.RefFinal
import proofs.«137943_j1228360647386_1_alg».proof.Proof.Gen.ReferenceIdeal
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_ri : Cert.frame_ReferenceIdeal := fun m ρ _ =>
  (θ_run Cert.ReferenceIdeal.defs _ _).mono (fun _ h c => (h c).2) (Cert.ReferenceIdeal.Final.run m ρ)

theorem algebraic : Cert.algebraic_KernelIdeal_ReferenceIdeal := by
  intro m ρ m' ρ' _ hagree
  refine ⟨fun (c : Dev Cert.KernelIdeal.nD) => Cert.Spec.G Cert.ReferenceIdeal.Facts₀.concatenates_S64x256x64x5_S64x256x64x6_S64x256x64x4_S64x256x64x6_S64x256x64x4_S64x256x64x5_S64x256x64x6_S64x256x64x4_S64x256x64x6_S64x256x64x4_S64x256x64x50_d3
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), Cert.KernelIdeal.Array.run m ρ, ?_⟩
  refine (θ_run Cert.ReferenceIdeal.defs _ _).mono (fun _ h c => ⟨?_, (h c).2⟩) (Cert.ReferenceIdeal.Final.run m' ρ')
  rw [(h c).1, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, frame_ri, Cert.Proof.Claims.preserves, algebraic⟩

end Cert.Proof

end
